-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v115)) (v1 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_v113) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2000 : Shape := ⟨2, ![10000, 2000]⟩
abbrev S20000x500 : Shape := ⟨2, ![20000, 500]⟩
abbrev S1000000 : Shape := ⟨1, ![1000000]⟩
abbrev S2000x256 : Shape := ⟨2, ![2000, 256]⟩
abbrev S256 : Shape := ⟨1, ![256]⟩
abbrev S500x256 : Shape := ⟨2, ![500, 256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x2000 : S_.BroadcastsInDim S10000x2000 (![] : Fin 0 → Fin S10000x2000.rank)
  reducesTo_S10000x2000_S_d0_1 : S10000x2000.ReducesTo [0, 1] S_
  h_S_ : 0 < S_.numel
  bcast_S_S20000x500 : S_.BroadcastsInDim S20000x500 (![] : Fin 0 → Fin S20000x500.rank)
  reducesTo_S20000x500_S_d0_1 : S20000x500.ReducesTo [0, 1] S_
  bcast_S_S2000x256 : S_.BroadcastsInDim S2000x256 (![] : Fin 0 → Fin S2000x256.rank)
  reducesTo_S2000x256_S_d0_1 : S2000x256.ReducesTo [0, 1] S_
  bcast_S_S256 : S_.BroadcastsInDim S256 (![] : Fin 0 → Fin S256.rank)
  reducesTo_S256_S_d0 : S256.ReducesTo [0] S_
  bcast_S_S500x256 : S_.BroadcastsInDim S500x256 (![] : Fin 0 → Fin S500x256.rank)
  reducesTo_S500x256_S_d0_1 : S500x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1000000 : S_.BroadcastsInDim S1000000 (![] : Fin 0 → Fin S1000000.rank)
  reducesTo_S1000000_S_d0 : S1000000.ReducesTo [0] S_

variable [Facts]

def fn_part6 {F : FTy → Type} [FloatOps F] (main_arg4 : IVec S1000000 32) (main_arg5 : IVec S1000000 32) (main_v95 : IVec S_ 1) (main_v101 : IVec S_ 1) : IVec S_ 1 :=
  let main_v102 : IVec S_ 1 := andi main_v95 main_v101
  let main_c_40 : IVec S_ 32 := constantI S_ 32 0#32
  let main_v103 : IVec S1000000 32 := broadcastInDim S1000000 ![] bcast_S_S1000000 main_c_40
  let main_v104 : IVec S1000000 1 := cmpi .sge main_arg4 main_v103
  let main_c_41 : IVec S_ 32 := constantI S_ 32 20000#32
  let main_v105 : IVec S1000000 32 := broadcastInDim S1000000 ![] bcast_S_S1000000 main_c_41
  let main_v106 : IVec S1000000 1 := cmpi .slt main_arg4 main_v105
  let main_v107 : IVec S1000000 1 := andi main_v104 main_v106
  let main_c_42 : IVec S_ 1 := constantI S_ 1 1#1
  let main_v108 : IVec S_ 1 := (fun x v => Host.reduce IntOp.andi x v reducesTo_S1000000_S_d0 h_S_) main_v107 main_c_42
  let main_v109 : IVec S_ 1 := andi main_v102 main_v108
  let main_c_43 : IVec S_ 32 := constantI S_ 32 0#32
  let main_v110 : IVec S1000000 32 := broadcastInDim S1000000 ![] bcast_S_S1000000 main_c_43
  let main_v111 : IVec S1000000 1 := cmpi .sge main_arg5 main_v110
  let main_c_44 : IVec S_ 32 := constantI S_ 32 10000#32
  let main_v112 : IVec S1000000 32 := broadcastInDim S1000000 ![] bcast_S_S1000000 main_c_44
  let main_v113 : IVec S1000000 1 := cmpi .slt main_arg5 main_v112
  let main_v114 : IVec S1000000 1 := andi main_v111 main_v113
  let main_c_45 : IVec S_ 1 := constantI S_ 1 1#1
  let main_v115 : IVec S_ 1 := (fun x v => Host.reduce IntOp.andi x v reducesTo_S1000000_S_d0 h_S_) main_v114 main_c_45
  let main_v116 : IVec S_ 1 := andi main_v109 main_v115
  main_v116

def fn_part5 {F : FTy → Type} [FloatOps F] (main_arg2 : IVec S1000000 32) (main_arg3 : IVec S1000000 32) (main_arg4 : IVec S1000000 32) (main_arg5 : IVec S1000000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_c_34 : IVec S_ 32 := constantI S_ 32 0#32
  let main_v89 : IVec S1000000 32 := broadcastInDim S1000000 ![] bcast_S_S1000000 main_c_34
  let main_v90 : IVec S1000000 1 := cmpi .sge main_arg2 main_v89
  let main_c_35 : IVec S_ 32 := constantI S_ 32 10000#32
  let main_v91 : IVec S1000000 32 := broadcastInDim S1000000 ![] bcast_S_S1000000 main_c_35
  let main_v92 : IVec S1000000 1 := cmpi .slt main_arg2 main_v91
  let main_v93 : IVec S1000000 1 := andi main_v90 main_v92
  let main_c_36 : IVec S_ 1 := constantI S_ 1 1#1
  let main_v94 : IVec S_ 1 := (fun x v => Host.reduce IntOp.andi x v reducesTo_S1000000_S_d0 h_S_) main_v93 main_c_36
  let main_v95 : IVec S_ 1 := andi main_v88 main_v94
  let main_c_37 : IVec S_ 32 := constantI S_ 32 0#32
  let main_v96 : IVec S1000000 32 := broadcastInDim S1000000 ![] bcast_S_S1000000 main_c_37
  let main_v97 : IVec S1000000 1 := cmpi .sge main_arg3 main_v96
  let main_c_38 : IVec S_ 32 := constantI S_ 32 20000#32
  let main_v98 : IVec S1000000 32 := broadcastInDim S1000000 ![] bcast_S_S1000000 main_c_38
  let main_v99 : IVec S1000000 1 := cmpi .slt main_arg3 main_v98
  let main_v100 : IVec S1000000 1 := andi main_v97 main_v99
  let main_c_39 : IVec S_ 1 := constantI S_ 1 1#1
  let main_v101 : IVec S_ 1 := (fun x v => Host.reduce IntOp.andi x v reducesTo_S1000000_S_d0 h_S_) main_v100 main_c_39
  fn_part6 (F := F) main_arg4 main_arg5 main_v95 main_v101

def fn_part4 {F : FTy → Type} [FloatOps F] (main_arg2 : IVec S1000000 32) (main_arg3 : IVec S1000000 32) (main_arg4 : IVec S1000000 32) (main_arg5 : IVec S1000000 32) (main_arg18 : FVec F S128x64 .f32) (main_arg19 : FVec F S64 .f32) (main_arg20 : FVec F S128x64 .f32) (main_arg21 : FVec F S64 .f32) (main_v63 : IVec S_ 1) (main_v67 : IVec S_ 1) : IVec S_ 1 :=
  let main_v68 : IVec S_ 1 := andi main_v63 main_v67
  let main_v69 : FVec F S128x64 .f32 := Host.absf main_arg18
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S128x64 .f32 := Host.absf main_arg20
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg21
  let main_cst_32 : FVec F S_ .f32 := constant S_ .f32 0x7F800000#32
  fn_part5 (F := F) main_arg2 main_arg3 main_arg4 main_arg5 main_v83 main_v84 main_cst_32

def fn_part3 {F : FTy → Type} [FloatOps F] (main_arg2 : IVec S1000000 32) (main_arg3 : IVec S1000000 32) (main_arg4 : IVec S1000000 32) (main_arg5 : IVec S1000000 32) (main_arg15 : FVec F S128 .f32) (main_arg16 : FVec F S256x128 .f32) (main_arg17 : FVec F S128 .f32) (main_arg18 : FVec F S128x64 .f32) (main_arg19 : FVec F S64 .f32) (main_arg20 : FVec F S128x64 .f32) (main_arg21 : FVec F S64 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg16
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_arg4 main_arg5 main_arg18 main_arg19 main_arg20 main_arg21 main_v63 main_v67

def fn_part2 {F : FTy → Type} [FloatOps F] (main_arg2 : IVec S1000000 32) (main_arg3 : IVec S1000000 32) (main_arg4 : IVec S1000000 32) (main_arg5 : IVec S1000000 32) (main_arg11 : FVec F S256 .f32) (main_arg12 : FVec F S256x256 .f32) (main_arg13 : FVec F S256 .f32) (main_arg14 : FVec F S256x128 .f32) (main_arg15 : FVec F S128 .f32) (main_arg16 : FVec F S256x128 .f32) (main_arg17 : FVec F S128 .f32) (main_arg18 : FVec F S128x64 .f32) (main_arg19 : FVec F S64 .f32) (main_arg20 : FVec F S128x64 .f32) (main_arg21 : FVec F S64 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg14
  let main_cst_18 : FVec F S_ .f32 := constant S_ .f32 0x7F800000#32
  let main_v50 : FVec F S256x128 .f32 := broadcastInDim S256x128 ![] bcast_S_S256x128 main_cst_18
  fn_part3 (F := F) main_arg2 main_arg3 main_arg4 main_arg5 main_arg15 main_arg16 main_arg17 main_arg18 main_arg19 main_arg20 main_arg21 main_v48 main_v49 main_v50

def fn_part1 {F : FTy → Type} [FloatOps F] (main_arg2 : IVec S1000000 32) (main_arg3 : IVec S1000000 32) (main_arg4 : IVec S1000000 32) (main_arg5 : IVec S1000000 32) (main_arg8 : FVec F S500x256 .f32) (main_arg9 : FVec F S256 .f32) (main_arg10 : FVec F S256x256 .f32) (main_arg11 : FVec F S256 .f32) (main_arg12 : FVec F S256x256 .f32) (main_arg13 : FVec F S256 .f32) (main_arg14 : FVec F S256x128 .f32) (main_arg15 : FVec F S128 .f32) (main_arg16 : FVec F S256x128 .f32) (main_arg17 : FVec F S128 .f32) (main_arg18 : FVec F S128x64 .f32) (main_arg19 : FVec F S64 .f32) (main_arg20 : FVec F S128x64 .f32) (main_arg21 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S500x256 .f32 := Host.absf main_arg8
  let main_cst_6 : FVec F S_ .f32 := constant S_ .f32 0x7F800000#32
  let main_v20 : FVec F S500x256 .f32 := broadcastInDim S500x256 ![] bcast_S_S500x256 main_cst_6
  let main_v21 : IVec S500x256 1 := cmpf .olt main_v19 main_v20
  let main_c_7 : IVec S_ 1 := constantI S_ 1 1#1
  let main_v22 : IVec S_ 1 := (fun x v => Host.reduce IntOp.andi x v reducesTo_S500x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg3 main_arg4 main_arg5 main_arg11 main_arg12 main_arg13 main_arg14 main_arg15 main_arg16 main_arg17 main_arg18 main_arg19 main_arg20 main_arg21 main_v33

def fn {F : FTy → Type} [FloatOps F] (main_arg0 : FVec F S10000x2000 .f32) (main_arg1 : FVec F S20000x500 .f32) (main_arg2 : IVec S1000000 32) (main_arg3 : IVec S1000000 32) (main_arg4 : IVec S1000000 32) (main_arg5 : IVec S1000000 32) (main_arg6 : FVec F S2000x256 .f32) (main_arg7 : FVec F S256 .f32) (main_arg8 : FVec F S500x256 .f32) (main_arg9 : FVec F S256 .f32) (main_arg10 : FVec F S256x256 .f32) (main_arg11 : FVec F S256 .f32) (main_arg12 : FVec F S256x256 .f32) (main_arg13 : FVec F S256 .f32) (main_arg14 : FVec F S256x128 .f32) (main_arg15 : FVec F S128 .f32) (main_arg16 : FVec F S256x128 .f32) (main_arg17 : FVec F S128 .f32) (main_arg18 : FVec F S128x64 .f32) (main_arg19 : FVec F S64 .f32) (main_arg20 : FVec F S128x64 .f32) (main_arg21 : FVec F S64 .f32) : IVec S_ 1 :=
  let main_v0 : FVec F S10000x2000 .f32 := Host.absf main_arg0
  let main_cst : FVec F S_ .f32 := constant S_ .f32 0x7F800000#32
  let main_v1 : FVec F S10000x2000 .f32 := broadcastInDim S10000x2000 ![] bcast_S_S10000x2000 main_cst
  let main_v2 : IVec S10000x2000 1 := cmpf .olt main_v0 main_v1
  let main_c : IVec S_ 1 := constantI S_ 1 1#1
  let main_v3 : IVec S_ 1 := (fun x v => Host.reduce IntOp.andi x v reducesTo_S10000x2000_S_d0_1 h_S_) main_v2 main_c
  let main_v4 : FVec F S20000x500 .f32 := Host.absf main_arg1
  let main_cst_0 : FVec F S_ .f32 := constant S_ .f32 0x7F800000#32
  let main_v5 : FVec F S20000x500 .f32 := broadcastInDim S20000x500 ![] bcast_S_S20000x500 main_cst_0
  let main_v6 : IVec S20000x500 1 := cmpf .olt main_v4 main_v5
  let main_c_1 : IVec S_ 1 := constantI S_ 1 1#1
  let main_v7 : IVec S_ 1 := (fun x v => Host.reduce IntOp.andi x v reducesTo_S20000x500_S_d0_1 h_S_) main_v6 main_c_1
  let main_v8 : IVec S_ 1 := andi main_v3 main_v7
  let main_v9 : FVec F S2000x256 .f32 := Host.absf main_arg6
  let main_cst_2 : FVec F S_ .f32 := constant S_ .f32 0x7F800000#32
  let main_v10 : FVec F S2000x256 .f32 := broadcastInDim S2000x256 ![] bcast_S_S2000x256 main_cst_2
  let main_v11 : IVec S2000x256 1 := cmpf .olt main_v9 main_v10
  let main_c_3 : IVec S_ 1 := constantI S_ 1 1#1
  let main_v12 : IVec S_ 1 := (fun x v => Host.reduce IntOp.andi x v reducesTo_S2000x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg3 main_arg4 main_arg5 main_arg8 main_arg9 main_arg10 main_arg11 main_arg12 main_arg13 main_arg14 main_arg15 main_arg16 main_arg17 main_arg18 main_arg19 main_arg20 main_arg21 main_v13 main_v16
-- ==== Kernel.lean ====
abbrev S10000x2000 : Shape := ⟨2, ![10000, 2000]⟩
abbrev S20000x500 : Shape := ⟨2, ![20000, 500]⟩
abbrev S1000000 : Shape := ⟨1, ![1000000]⟩
abbrev S2000x256 : Shape := ⟨2, ![2000, 256]⟩
abbrev S256 : Shape := ⟨1, ![256]⟩
abbrev S500x256 : Shape := ⟨2, ![500, 256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S10000 : Shape := ⟨1, ![10000]⟩
abbrev S1000000x1 : Shape := ⟨2, ![1000000, 1]⟩
abbrev S20000 : Shape := ⟨1, ![20000]⟩
abbrev S20000x10000 : Shape := ⟨2, ![20000, 10000]⟩
abbrev S1000000x2 : Shape := ⟨2, ![1000000, 2]⟩
abbrev S10000x20000 : Shape := ⟨2, ![10000, 20000]⟩
abbrev S1x256 : Shape := ⟨2, ![1, 256]⟩
abbrev S10000x256 : Shape := ⟨2, ![10000, 256]⟩
abbrev S1000x2000 : Shape := ⟨2, ![1000, 2000]⟩
abbrev S1000x256 : Shape := ⟨2, ![1000, 256]⟩
abbrev S20000x256 : Shape := ⟨2, ![20000, 256]⟩
abbrev S2000x500 : Shape := ⟨2, ![2000, 500]⟩
abbrev S400x10000 : Shape := ⟨2, ![400, 10000]⟩
abbrev S400x256 : Shape := ⟨2, ![400, 256]⟩
abbrev S200x20000 : Shape := ⟨2, ![200, 20000]⟩
abbrev S200x256 : Shape := ⟨2, ![200, 256]⟩
abbrev S10000x128 : Shape := ⟨2, ![10000, 128]⟩
abbrev S2000x128 : Shape := ⟨2, ![2000, 128]⟩
abbrev S20000x128 : Shape := ⟨2, ![20000, 128]⟩
abbrev S1x128 : Shape := ⟨2, ![1, 128]⟩
abbrev S400x128 : Shape := ⟨2, ![400, 128]⟩
abbrev S400x20000 : Shape := ⟨2, ![400, 20000]⟩
abbrev S10000x64 : Shape := ⟨2, ![10000, 64]⟩
abbrev S2000x64 : Shape := ⟨2, ![2000, 64]⟩
abbrev S20000x64 : Shape := ⟨2, ![20000, 64]⟩
abbrev S1x64 : Shape := ⟨2, ![1, 64]⟩
abbrev S1000x10000 : Shape := ⟨2, ![1000, 10000]⟩
abbrev S1000x64 : Shape := ⟨2, ![1000, 64]⟩
abbrev S400x64 : Shape := ⟨2, ![400, 64]⟩

abbrev nBuf : Space → Nat
  | .hbm => 174
  | .vmem => 78
  | .smem => 0
  | _ => 0

abbrev hbmTy0_0 (i : Nat) : BufTy := match i % 128 with
  | 0 => ⟨S10000x2000, .f32⟩
  | 1 => ⟨S20000x500, .f32⟩
  | 2 => ⟨S1000000, .i32⟩
  | 3 => ⟨S1000000, .i32⟩
  | 4 => ⟨S1000000, .i32⟩
  | 5 => ⟨S1000000, .i32⟩
  | 6 => ⟨S2000x256, .f32⟩
  | 7 => ⟨S256, .f32⟩
  | 8 => ⟨S500x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x128, .f32⟩
  | 15 => ⟨S128, .f32⟩
  | 16 => ⟨S256x128, .f32⟩
  | 17 => ⟨S128, .f32⟩
  | 18 => ⟨S128x64, .f32⟩
  | 19 => ⟨S64, .f32⟩
  | 20 => ⟨S128x64, .f32⟩
  | 21 => ⟨S64, .f32⟩
  | 22 => ⟨S_, .f32⟩
  | 23 => ⟨S1000000, .f32⟩
  | 24 => ⟨S_, .f32⟩
  | 25 => ⟨S10000, .f32⟩
  | 26 => ⟨S1000000x1, .i32⟩
  | 27 => ⟨S10000, .f32⟩
  | 28 => ⟨S_, .f32⟩
  | 29 => ⟨S_, .f32⟩
  | 30 => ⟨S10000, .f32⟩
  | 31 => ⟨S10000, .f32⟩
  | 32 => ⟨S_, .f32⟩
  | 33 => ⟨S20000, .f32⟩
  | 34 => ⟨S1000000x1, .i32⟩
  | 35 => ⟨S20000, .f32⟩
  | 36 => ⟨S_, .f32⟩
  | 37 => ⟨S_, .f32⟩
  | 38 => ⟨S20000, .f32⟩
  | 39 => ⟨S20000, .f32⟩
  | 40 => ⟨S20000, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000, .f32⟩
  | 50 => ⟨S10000, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000, .f32⟩
  | 60 => ⟨S1000000, .f32⟩
  | 61 => ⟨S_, .f32⟩
  | 62 => ⟨S20000x10000, .f32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x1, .i32⟩
  | 79 => ⟨S1000000x2, .i32⟩
  | 80 => ⟨S20000x10000, .f32⟩
  | 81 => ⟨S20000x10000, .bf16⟩
  | 82 => ⟨S_, .f32⟩
  | 83 => ⟨S1000000, .f32⟩
  | 84 => ⟨S_, .f32⟩
  | 85 => ⟨S20000, .f32⟩
  | 86 => ⟨S1000000x1, .i32⟩
  | 87 => ⟨S20000, .f32⟩
  | 88 => ⟨S_, .f32⟩
  | 89 => ⟨S_, .f32⟩
  | 90 => ⟨S20000, .f32⟩
  | 91 => ⟨S20000, .f32⟩
  | 92 => ⟨S_, .f32⟩
  | 93 => ⟨S10000, .f32⟩
  | 94 => ⟨S1000000x1, .i32⟩
  | 95 => ⟨S10000, .f32⟩
  | 96 => ⟨S_, .f32⟩
  | 97 => ⟨S_, .f32⟩
  | 98 => ⟨S10000, .f32⟩
  | 99 => ⟨S10000, .f32⟩
  | 100 => ⟨S10000, .f32⟩
  | 101 => ⟨S_, .i32⟩
  | 102 => ⟨S1000000, .i32⟩
  | 103 => ⟨S1000000, .i1⟩
  | 104 => ⟨S_, .i32⟩
  | 105 => ⟨S1000000, .i32⟩
  | 106 => ⟨S1000000, .i32⟩
  | 107 => ⟨S1000000, .i32⟩
  | 108 => ⟨S1000000x1, .i32⟩
  | 109 => ⟨S1000000, .f32⟩
  | 110 => ⟨S20000, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000, .f32⟩
  | 120 => ⟨S1000000, .f32⟩
  | 121 => ⟨S_, .f32⟩
  | 122 => ⟨S10000x20000, .f32⟩
  | 123 => ⟨S_, .i32⟩
  | 124 => ⟨S1000000, .i32⟩
  | 125 => ⟨S1000000, .i1⟩
  | 126 => ⟨S_, .i32⟩
  | 127 => ⟨S1000000, .i32⟩
  | _ => ⟨S10000x2000, .f32⟩

abbrev hbmTy0_1 (i : Nat) : BufTy := match i % 128 with
  | 0 => ⟨S1000000, .i32⟩
  | 1 => ⟨S1000000, .i32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1000000x1, .i32⟩
  | 11 => ⟨S1000000x2, .i32⟩
  | 12 => ⟨S10000x20000, .f32⟩
  | 13 => ⟨S10000x20000, .bf16⟩
  | 14 => ⟨S10000x2000, .bf16⟩
  | 15 => ⟨S2000x256, .bf16⟩
  | 16 => ⟨S1x256, .f32⟩
  | 17 => ⟨S10000x256, .bf16⟩
  | 18 => ⟨S20000x500, .bf16⟩
  | 19 => ⟨S500x256, .bf16⟩
  | 20 => ⟨S1x256, .f32⟩
  | 21 => ⟨S20000x256, .bf16⟩
  | 22 => ⟨S256x256, .bf16⟩
  | 23 => ⟨S10000x256, .bf16⟩
  | 24 => ⟨S256x256, .bf16⟩
  | 25 => ⟨S20000x256, .bf16⟩
  | 26 => ⟨S1x256, .f32⟩
  | 27 => ⟨S20000x256, .bf16⟩
  | 28 => ⟨S1x256, .f32⟩
  | 29 => ⟨S10000x256, .bf16⟩
  | 30 => ⟨S256x128, .bf16⟩
  | 31 => ⟨S10000x128, .bf16⟩
  | 32 => ⟨S256x128, .bf16⟩
  | 33 => ⟨S20000x128, .bf16⟩
  | 34 => ⟨S1x128, .f32⟩
  | 35 => ⟨S20000x128, .bf16⟩
  | 36 => ⟨S1x128, .f32⟩
  | 37 => ⟨S10000x128, .bf16⟩
  | 38 => ⟨S128x64, .bf16⟩
  | 39 => ⟨S10000x64, .bf16⟩
  | 40 => ⟨S128x64, .bf16⟩
  | 41 => ⟨S20000x64, .bf16⟩
  | 42 => ⟨S1x64, .f32⟩
  | 43 => ⟨S20000x64, .f32⟩
  | 44 => ⟨S1x64, .f32⟩
  | 45 => ⟨S10000x64, .f32⟩
  | _ => ⟨S10000x2000, .f32⟩

abbrev hbmTy (i : Nat) : BufTy := match i / 128 with
  | 0 => hbmTy0_0 i
  | 1 => hbmTy0_1 i
  | _ => ⟨S10000x2000, .f32⟩

abbrev bufTy : (tb : Table) → Fin (tcTables nBuf tb) → BufTy
  | .hbm, ⟨i, _⟩ => hbmTy i
  | .local _ .vmem, ⟨0, _⟩ => ⟨S1000x2000, .bf16⟩
  | .local _ .vmem, ⟨1, _⟩ => ⟨S1000x2000, .bf16⟩
  | .local _ .vmem, ⟨2, _⟩ => ⟨S2000x256, .bf16⟩
  | .local _ .vmem, ⟨3, _⟩ => ⟨S1x256, .f32⟩
  | .local _ .vmem, ⟨4, _⟩ => ⟨S1000x256, .bf16⟩
  | .local _ .vmem, ⟨5, _⟩ => ⟨S1000x256, .bf16⟩
  | .local _ .vmem, ⟨6, _⟩ => ⟨S2000x500, .bf16⟩
  | .local _ .vmem, ⟨7, _⟩ => ⟨S2000x500, .bf16⟩
  | .local _ .vmem, ⟨8, _⟩ => ⟨S500x256, .bf16⟩
  | .local _ .vmem, ⟨9, _⟩ => ⟨S1x256, .f32⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S2000x256, .bf16⟩
  | .local _ .vmem, ⟨14, _⟩ => ⟨S256x256, .bf16⟩
  | .local _ .vmem, ⟨15, _⟩ => ⟨S2000x256, .bf16⟩
  | .local _ .vmem, ⟨16, _⟩ => ⟨S2000x256, .bf16⟩
  | .local _ .vmem, ⟨17, _⟩ => ⟨S2000x256, .bf16⟩
  | .local _ .vmem, ⟨18, _⟩ => ⟨S2000x256, .bf16⟩
  | .local _ .vmem, ⟨19, _⟩ => ⟨S256x256, .bf16⟩
  | .local _ .vmem, ⟨20, _⟩ => ⟨S2000x256, .bf16⟩
  | .local _ .vmem, ⟨21, _⟩ => ⟨S2000x256, .bf16⟩
  | .local _ .vmem, ⟨22, _⟩ => ⟨S400x10000, .bf16⟩
  | .local _ .vmem, ⟨23, _⟩ => ⟨S400x10000, .bf16⟩
  | .local _ .vmem, ⟨24, _⟩ => ⟨S10000x256, .bf16⟩
  | .local _ .vmem, ⟨25, _⟩ => ⟨S1x256, .f32⟩
  | .local _ .vmem, ⟨26, _⟩ => ⟨S400x256, .bf16⟩
  | .local _ .vmem, ⟨27, _⟩ => ⟨S400x256, .bf16⟩
  | .local _ .vmem, ⟨28, _⟩ => ⟨S200x20000, .bf16⟩
  | .local _ .vmem, ⟨29, _⟩ => ⟨S200x20000, .bf16⟩
  | .local _ .vmem, ⟨30, _⟩ => ⟨S20000x256, .bf16⟩
  | .local _ .vmem, ⟨31, _⟩ => ⟨S1x256, .f32⟩
  | .local _ .vmem, ⟨32, _⟩ => ⟨S200x256, .bf16⟩
  | .local _ .vmem, ⟨33, _⟩ => ⟨S200x256, .bf16⟩
  | .local _ .vmem, ⟨34, _⟩ => ⟨S2000x256, .bf16⟩
  | .local _ .vmem, ⟨35, _⟩ => ⟨S2000x256, .bf16⟩
  | .local _ .vmem, ⟨36, _⟩ => ⟨S256x128, .bf16⟩
  | .local _ .vmem, ⟨37, _⟩ => ⟨S2000x128, .bf16⟩
  | .local _ .vmem, ⟨38, _⟩ => ⟨S2000x128, .bf16⟩
  | .local _ .vmem, ⟨39, _⟩ => ⟨S2000x256, .bf16⟩
  | .local _ .vmem, ⟨40, _⟩ => ⟨S2000x256, .bf16⟩
  | .local _ .vmem, ⟨41, _⟩ => ⟨S256x128, .bf16⟩
  | .local _ .vmem, ⟨42, _⟩ => ⟨S2000x128, .bf16⟩
  | .local _ .vmem, ⟨43, _⟩ => ⟨S2000x128, .bf16⟩
  | .local _ .vmem, ⟨44, _⟩ => ⟨S400x10000, .bf16⟩
  | .local _ .vmem, ⟨45, _⟩ => ⟨S400x10000, .bf16⟩
  | .local _ .vmem, ⟨46, _⟩ => ⟨S10000x128, .bf16⟩
  | .local _ .vmem, ⟨47, _⟩ => ⟨S1x128, .f32⟩
  | .local _ .vmem, ⟨48, _⟩ => ⟨S400x128, .bf16⟩
  | .local _ .vmem, ⟨49, _⟩ => ⟨S400x128, .bf16⟩
  | .local _ .vmem, ⟨50, _⟩ => ⟨S400x20000, .bf16⟩
  | .local _ .vmem, ⟨51, _⟩ => ⟨S400x20000, .bf16⟩
  | .local _ .vmem, ⟨52, _⟩ => ⟨S20000x128, .bf16⟩
  | .local _ .vmem, ⟨53, _⟩ => ⟨S1x128, .f32⟩
  | .local _ .vmem, ⟨54, _⟩ => ⟨S400x128, .bf16⟩
  | .local _ .vmem, ⟨55, _⟩ => ⟨S400x128, .bf16⟩
  | .local _ .vmem, ⟨56, _⟩ => ⟨S2000x128, .bf16⟩
  | .local _ .vmem, ⟨57, _⟩ => ⟨S2000x128, .bf16⟩
  | .local _ .vmem, ⟨58, _⟩ => ⟨S128x64, .bf16⟩
  | .local _ .vmem, ⟨59, _⟩ => ⟨S2000x64, .bf16⟩
  | .local _ .vmem, ⟨60, _⟩ => ⟨S2000x64, .bf16⟩
  | .local _ .vmem, ⟨61, _⟩ => ⟨S2000x128, .bf16⟩
  | .local _ .vmem, ⟨62, _⟩ => ⟨S2000x128, .bf16⟩
  | .local _ .vmem, ⟨63, _⟩ => ⟨S128x64, .bf16⟩
  | .local _ .vmem, ⟨64, _⟩ => ⟨S2000x64, .bf16⟩
  | .local _ .vmem, ⟨65, _⟩ => ⟨S2000x64, .bf16⟩
  | .local _ .vmem, ⟨66, _⟩ => ⟨S1000x10000, .bf16⟩
  | .local _ .vmem, ⟨67, _⟩ => ⟨S1000x10000, .bf16⟩
  | .local _ .vmem, ⟨68, _⟩ => ⟨S10000x64, .bf16⟩
  | .local _ .vmem, ⟨69, _⟩ => ⟨S1x64, .f32⟩
  | .local _ .vmem, ⟨70, _⟩ => ⟨S1000x64, .f32⟩
  | .local _ .vmem, ⟨71, _⟩ => ⟨S1000x64, .f32⟩
  | .local _ .vmem, ⟨72, _⟩ => ⟨S400x20000, .bf16⟩
  | .local _ .vmem, ⟨73, _⟩ => ⟨S400x20000, .bf16⟩
  | .local _ .vmem, ⟨74, _⟩ => ⟨S20000x64, .bf16⟩
  | .local _ .vmem, ⟨75, _⟩ => ⟨S1x64, .f32⟩
  | .local _ .vmem, ⟨76, _⟩ => ⟨S400x64, .f32⟩
  | .local _ .vmem, ⟨77, _⟩ => ⟨S400x64, .f32⟩
  | _, _ => ⟨S10000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v4 : Ref sig .tc := ⟨.hbm, 31, rfl⟩
abbrev main_cst_2 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v8 : Ref sig .tc := ⟨.hbm, 39, rfl⟩
abbrev main_v9 : Ref sig .tc := ⟨.hbm, 40, rfl⟩
abbrev main_c : Ref sig .tc := ⟨.hbm, 41, rfl⟩
abbrev main_v10 : Ref sig .tc := ⟨.hbm, 42, rfl⟩
abbrev main_v11 : Ref sig .tc := ⟨.hbm, 43, rfl⟩
abbrev main_c_4 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_c_5 : Ref sig .tc := ⟨.hbm, 51, rfl⟩
abbrev main_v18 : Ref sig .tc := ⟨.hbm, 52, rfl⟩
abbrev main_v19 : Ref sig .tc := ⟨.hbm, 53, rfl⟩
abbrev main_c_6 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_7 : Ref sig .tc := ⟨.hbm, 61, rfl⟩
abbrev main_v26 : Ref sig .tc := ⟨.hbm, 62, rfl⟩
abbrev main_c_8 : Ref sig .tc := ⟨.hbm, 63, rfl⟩
abbrev main_v27 : Ref sig .tc := ⟨.hbm, 64, rfl⟩
abbrev main_v28 : Ref sig .tc := ⟨.hbm, 65, rfl⟩
abbrev main_c_9 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_10 : Ref sig .tc := ⟨.hbm, 70, rfl⟩
abbrev main_v32 : Ref sig .tc := ⟨.hbm, 71, rfl⟩
abbrev main_v33 : Ref sig .tc := ⟨.hbm, 72, rfl⟩
abbrev main_c_11 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_12 : Ref sig .tc := ⟨.hbm, 82, rfl⟩
abbrev main_v42 : Ref sig .tc := ⟨.hbm, 83, rfl⟩
abbrev main_cst_13 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v46 : Ref sig .tc := ⟨.hbm, 91, rfl⟩
abbrev main_cst_15 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_16 : Ref sig .tc := ⟨.hbm, 96, rfl⟩
abbrev main_call3_v0 : Ref sig .tc := ⟨.hbm, 97, rfl⟩
abbrev main_call3_v1 : Ref sig .tc := ⟨.hbm, 98, rfl⟩
abbrev main_v50 : Ref sig .tc := ⟨.hbm, 99, rfl⟩
abbrev main_v51 : Ref sig .tc := ⟨.hbm, 100, rfl⟩
abbrev main_c_17 : Ref sig .tc := ⟨.hbm, 101, rfl⟩
abbrev main_v52 : Ref sig .tc := ⟨.hbm, 102, rfl⟩
abbrev main_v53 : Ref sig .tc := ⟨.hbm, 103, rfl⟩
abbrev main_c_18 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_c_19 : Ref sig .tc := ⟨.hbm, 111, rfl⟩
abbrev main_v60 : Ref sig .tc := ⟨.hbm, 112, rfl⟩
abbrev main_v61 : Ref sig .tc := ⟨.hbm, 113, rfl⟩
abbrev main_c_20 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_21 : Ref sig .tc := ⟨.hbm, 121, rfl⟩
abbrev main_v68 : Ref sig .tc := ⟨.hbm, 122, rfl⟩
abbrev main_c_22 : Ref sig .tc := ⟨.hbm, 123, rfl⟩
abbrev main_v69 : Ref sig .tc := ⟨.hbm, 124, rfl⟩
abbrev main_v70 : Ref sig .tc := ⟨.hbm, 125, rfl⟩
abbrev main_c_23 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_c_24 : Ref sig .tc := ⟨.hbm, 130, rfl⟩
abbrev main_v74 : Ref sig .tc := ⟨.hbm, 131, rfl⟩
abbrev main_v75 : Ref sig .tc := ⟨.hbm, 132, rfl⟩
abbrev main_c_25 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg3_0 : Ref sig .tc := ⟨.vmem, 48, rfl⟩
abbrev cc8_stg3_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg3_0 : Ref sig .tc := ⟨.vmem, 54, rfl⟩
abbrev cc9_stg3_1 : Ref sig .tc := ⟨.vmem, 55, rfl⟩
abbrev cc10_stg0_0 : Ref sig .tc := ⟨.vmem, 56, rfl⟩
abbrev cc10_stg0_1 : Ref sig .tc := ⟨.vmem, 57, rfl⟩
abbrev cc10_stg1_0 : Ref sig .tc := ⟨.vmem, 58, rfl⟩
abbrev cc10_stg2_0 : Ref sig .tc := ⟨.vmem, 59, rfl⟩
abbrev cc10_stg2_1 : Ref sig .tc := ⟨.vmem, 60, rfl⟩
abbrev cc11_stg0_0 : Ref sig .tc := ⟨.vmem, 61, rfl⟩
abbrev cc11_stg0_1 : Ref sig .tc := ⟨.vmem, 62, rfl⟩
abbrev cc11_stg1_0 : Ref sig .tc := ⟨.vmem, 63, rfl⟩
abbrev cc11_stg2_0 : Ref sig .tc := ⟨.vmem, 64, rfl⟩
abbrev cc11_stg2_1 : Ref sig .tc := ⟨.vmem, 65, rfl⟩
abbrev cc12_stg0_0 : Ref sig .tc := ⟨.vmem, 66, rfl⟩
abbrev cc12_stg0_1 : Ref sig .tc := ⟨.vmem, 67, rfl⟩
abbrev cc12_stg1_0 : Ref sig .tc := ⟨.vmem, 68, rfl⟩
abbrev cc12_stg2_0 : Ref sig .tc := ⟨.vmem, 69, rfl⟩
abbrev cc12_stg3_0 : Ref sig .tc := ⟨.vmem, 70, rfl⟩
abbrev cc12_stg3_1 : Ref sig .tc := ⟨.vmem, 71, rfl⟩
abbrev cc13_stg0_0 : Ref sig .tc := ⟨.vmem, 72, rfl⟩
abbrev cc13_stg0_1 : Ref sig .tc := ⟨.vmem, 73, rfl⟩
abbrev cc13_stg1_0 : Ref sig .tc := ⟨.vmem, 74, rfl⟩
abbrev cc13_stg2_0 : Ref sig .tc := ⟨.vmem, 75, rfl⟩
abbrev cc13_stg3_0 : Ref sig .tc := ⟨.vmem, 76, rfl⟩
abbrev cc13_stg3_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem3_0 : DmaSem sig := 48
abbrev cc8_sem3_1 : DmaSem sig := 49
abbrev cc9_sem0_0 : DmaSem sig := 50
abbrev cc9_sem0_1 : DmaSem sig := 51
abbrev cc9_sem1_0 : DmaSem sig := 52
abbrev cc9_sem2_0 : DmaSem sig := 53
abbrev cc9_sem3_0 : DmaSem sig := 54
abbrev cc9_sem3_1 : DmaSem sig := 55
abbrev cc10_sem0_0 : DmaSem sig := 56
abbrev cc10_sem0_1 : DmaSem sig := 57
abbrev cc10_sem1_0 : DmaSem sig := 58
abbrev cc10_sem2_0 : DmaSem sig := 59
abbrev cc10_sem2_1 : DmaSem sig := 60
abbrev cc11_sem0_0 : DmaSem sig := 61
abbrev cc11_sem0_1 : DmaSem sig := 62
abbrev cc11_sem1_0 : DmaSem sig := 63
abbrev cc11_sem2_0 : DmaSem sig := 64
abbrev cc11_sem2_1 : DmaSem sig := 65
abbrev cc12_sem0_0 : DmaSem sig := 66
abbrev cc12_sem0_1 : DmaSem sig := 67
abbrev cc12_sem1_0 : DmaSem sig := 68
abbrev cc12_sem2_0 : DmaSem sig := 69
abbrev cc12_sem3_0 : DmaSem sig := 70
abbrev cc12_sem3_1 : DmaSem sig := 71
abbrev cc13_sem0_0 : DmaSem sig := 72
abbrev cc13_sem0_1 : DmaSem sig := 73
abbrev cc13_sem1_0 : DmaSem sig := 74
abbrev cc13_sem2_0 : DmaSem sig := 75
abbrev cc13_sem3_0 : DmaSem sig := 76
abbrev cc13_sem3_1 : DmaSem sig := 77

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x500 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S500x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S400x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x20000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S20000x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S200x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S400x10000 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S10000x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S400x128 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S400x20000 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S20000x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S400x128 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x64 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x64 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x64 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S2000x64 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1000x10000 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S10000x64 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S1000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S400x20000 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S20000x64 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S400x64 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

class Facts₀ : Prop where
  bcast_S_S1000000 : S_.BroadcastsInDim S1000000 (![] : Fin 0 → Fin S1000000.rank)
  bcast_S_S10000 : S_.BroadcastsInDim S10000 (![] : Fin 0 → Fin S10000.rank)
  bcast_S1000000_S1000000x1_0 : S1000000.BroadcastsInDim S1000000x1 (![0] : Fin 1 → Fin S1000000x1.rank)
  bcast_S_S20000 : S_.BroadcastsInDim S20000 (![] : Fin 0 → Fin S20000.rank)
  bcast_S_S20000x10000 : S_.BroadcastsInDim S20000x10000 (![] : Fin 0 → Fin S20000x10000.rank)
  concatenates_S1000000x1_S1000000x1_S1000000x2_d1 : Shape.Concatenates [S1000000x1, S1000000x1] S1000000x2 1
  bitsLt_bf16_f32 : FTy.bits .bf16 < FTy.bits .f32
  bcast_S_S10000x20000 : S_.BroadcastsInDim S10000x20000 (![] : Fin 0 → Fin S10000x20000.rank)
  shapeCasts_S256_S1x256 : S256.ShapeCasts S1x256
  inb_S1000x2000_S1000x2000_0_0 : ∀ a, (![0, 0] : Fin 2 → Nat) a + S1000x2000.size a ≤ S1000x2000.size a
  h_S1000x2000 : 0 < S1000x2000.numel
  shapeCasts_S1000x2000_S1000x2000 : S1000x2000.ShapeCasts S1000x2000
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  inb_S2000x500_S2000x500_0_0 : ∀ a, (![0, 0] : Fin 2 → Nat) a + S2000x500.size a ≤ S2000x500.size a
  h_S2000x500 : 0 < S2000x500.numel
  shapeCasts_S2000x500_S2000x500 : S2000x500.ShapeCasts S2000x500
  inb_S500x256_S500x256_0_0 : ∀ a, (![0, 0] : Fin 2 → Nat) a + S500x256.size a ≤ S500x256.size a
  h_S500x256 : 0 < S500x256.numel
  shapeCasts_S500x256_S500x256 : S500x256.ShapeCasts S500x256
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  broadcasts_S1x256_S400x256 : S1x256.Broadcasts S400x256
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  inb_S200x20000_S200x20000_0_0 : ∀ a, (![0, 0] : Fin 2 → Nat) a + S200x20000.size a ≤ S200x20000.size a
  h_S200x20000 : 0 < S200x20000.numel
  shapeCasts_S200x20000_S200x20000 : S200x20000.ShapeCasts S200x20000
  inb_S20000x256_S20000x256_0_0 : ∀ a, (![0, 0] : Fin 2 → Nat) a + S20000x256.size a ≤ S20000x256.size a
  h_S20000x256 : 0 < S20000x256.numel
  shapeCasts_S20000x256_S20000x256 : S20000x256.ShapeCasts S20000x256
  broadcasts_S1x256_S200x256 : S1x256.Broadcasts S200x256
  inb_S200x256_S200x256_0_0 : ∀ a, (![0, 0] : Fin 2 → Nat) a + S200x256.size a ≤ S200x256.size a
  h_S200x256 : 0 < S200x256.numel
  packedbf16_S200x256_S200x256_0_0 : (Rect.unit (s := S200x256) ![0, 0] S200x256.size inb_S200x256_S200x256_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S400x20000_S400x20000_0_0 : ∀ a, (![0, 0] : Fin 2 → Nat) a + S400x20000.size a ≤ S400x20000.size a
  h_S400x20000 : 0 < S400x20000.numel
  shapeCasts_S400x20000_S400x20000 : S400x20000.ShapeCasts S400x20000
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  shapeCasts_S64_S1x64 : S64.ShapeCasts S1x64
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  broadcasts_S1x64_S400x64 : S1x64.Broadcasts S400x64
  inb_S400x64_S400x64_0_0 : ∀ a, (![0, 0] : Fin 2 → Nat) a + S400x64.size a ≤ S400x64.size a
  h_S400x64 : 0 < S400x64.numel
  scatter_S10000_S1000000x1_S1000000_n_0_0_1_wf : ScatterDims.WF S10000 S1000000x1 S1000000 [] [0] [0] 1
  scatter_S20000_S1000000x1_S1000000_n_0_0_1_wf : ScatterDims.WF S20000 S1000000x1 S1000000 [] [0] [0] 1
  gather_S20000_S1000000x1_S1000000_n_0_n_n_0_1_1_wf : GatherDims.WF S20000 S1000000x1 S1000000 [] [0] [] [0] [] 1 ![1]
  gather_S10000_S1000000x1_S1000000_n_0_n_n_0_1_1_wf : GatherDims.WF S10000 S1000000x1 S1000000 [] [0] [] [0] [] 1 ![1]
  scatter_S20000x10000_S1000000x2_S1000000_n_01_01_1_wf : ScatterDims.WF S20000x10000 S1000000x2 S1000000 [] [0, 1] [0, 1] 1
  scatter_S10000x20000_S1000000x2_S1000000_n_01_01_1_wf : ScatterDims.WF S10000x20000 S1000000x2 S1000000 [] [0, 1] [0, 1] 1
  dot_S1000x2000_S2000x256_S1000x256_1_0_0_1_n_n_wf : DotDims.WF S1000x2000 S2000x256 S1000x256 [1] [0] [0] [1] [] []
  dot_S2000x500_S500x256_S2000x256_1_0_0_1_n_n_wf : DotDims.WF S2000x500 S500x256 S2000x256 [1] [0] [0] [1] [] []
  dot_S2000x256_S256x256_S2000x256_1_0_0_1_n_n_wf : DotDims.WF S2000x256 S256x256 S2000x256 [1] [0] [0] [1] [] []
  dot_S400x10000_S10000x256_S400x256_1_0_0_1_n_n_wf : DotDims.WF S400x10000 S10000x256 S400x256 [1] [0] [0] [1] [] []
  dot_S200x20000_S20000x256_S200x256_1_0_0_1_n_n_wf : DotDims.WF S200x20000 S20000x256 S200x256 [1] [0] [0] [1] [] []
  dot_S2000x256_S256x128_S2000x128_1_0_0_1_n_n_wf : DotDims.WF S2000x256 S256x128 S2000x128 [1] [0] [0] [1] [] []
  dot_S400x10000_S10000x128_S400x128_1_0_0_1_n_n_wf : DotDims.WF S400x10000 S10000x128 S400x128 [1] [0] [0] [1] [] []
  dot_S400x20000_S20000x128_S400x128_1_0_0_1_n_n_wf : DotDims.WF S400x20000 S20000x128 S400x128 [1] [0] [0] [1] [] []
  dot_S2000x128_S128x64_S2000x64_1_0_0_1_n_n_wf : DotDims.WF S2000x128 S128x64 S2000x64 [1] [0] [0] [1] [] []
  dot_S1000x10000_S10000x64_S1000x64_1_0_0_1_n_n_wf : DotDims.WF S1000x10000 S10000x64 S1000x64 [1] [0] [0] [1] [] []
  dot_S400x20000_S20000x64_S400x64_1_0_0_1_n_n_wf : DotDims.WF S400x20000 S20000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2000.size a ≤ S10000x2000.size a
  hwx0_0 : ∀ i : grid0.Coords, EltTy.bits .bf16 = 32 ∨ (Rect.block (s := S10000x2000) S1000x2000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S2000x256.size a
  hwx0_1 : ∀ i : grid0.Coords, EltTy.bits .bf16 = 32 ∨ (Rect.block (s := S2000x256) S2000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .bf16 = 32 ∨ (Rect.block (s := S10000x256) S1000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x500.size a ≤ S20000x500.size a
  hwx1_0 : ∀ i : grid1.Coords, EltTy.bits .bf16 = 32 ∨ (Rect.block (s := S20000x500) S2000x500.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S500x256.size a ≤ S500x256.size a
  hwx1_1 : ∀ i : grid1.Coords, EltTy.bits .bf16 = 32 ∨ (Rect.block (s := S500x256) S500x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S20000x256.size a
  hwx1_3 : ∀ i : grid1.Coords, EltTy.bits .bf16 = 32 ∨ (Rect.block (s := S20000x256) S2000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .bf16 = 32 ∨ (Rect.block (s := S10000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S10000x256.size a
  hwx2_2 : ∀ i : grid2.Coords, EltTy.bits .bf16 = 32 ∨ (Rect.block (s := S10000x256) S2000x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .bf16 = 32 ∨ (Rect.block (s := S20000x256) S2000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .bf16 = 32 ∨ (Rect.block (s := S256x256) S256x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S20000x256.size a
  hwx3_2 : ∀ i : grid3.Coords, EltTy.bits .bf16 = 32 ∨ (Rect.block (s := S20000x256) S2000x256.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S20000x10000.size a
  hwx4_0 : ∀ i : grid4.Coords, EltTy.bits .bf16 = 32 ∨ (Rect.block (s := S20000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x256.size a ≤ S10000x256.size a
  hwx4_1 : ∀ i : grid4.Coords, EltTy.bits .bf16 = 32 ∨ (Rect.block (s := S10000x256) S10000x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x256.size a ≤ S20000x256.size a
  hwx4_3 : ∀ i : grid4.Coords, EltTy.bits .bf16 = 32 ∨ (Rect.block (s := S20000x256) S400x256.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x20000.size a ≤ S10000x20000.size a
  hwx5_0 : ∀ i : grid5.Coords, EltTy.bits .bf16 = 32 ∨ (Rect.block (s := S10000x20000) S200x20000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S20000x256.size a ≤ S20000x256.size a
  hwx5_1 : ∀ i : grid5.Coords, EltTy.bits .bf16 = 32 ∨ (Rect.block (s := S20000x256) S20000x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S200x256.size a ≤ S10000x256.size a
  hwx5_3 : ∀ i : grid5.Coords, EltTy.bits .bf16 = 32 ∨ (Rect.block (s := S10000x256) S200x256.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S10000x256.size a
  hwx6_0 : ∀ i : grid6.Coords, EltTy.bits .bf16 = 32 ∨ (Rect.block (s := S10000x256) S2000x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .bf16 = 32 ∨ (Rect.block (s := S256x128) S256x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S10000x128.size a
  hwx6_2 : ∀ i : grid6.Coords, EltTy.bits .bf16 = 32 ∨ (Rect.block (s := S10000x128) S2000x128.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S20000x256.size a
  hwx7_0 : ∀ i : grid7.Coords, EltTy.bits .bf16 = 32 ∨ (Rect.block (s := S20000x256) S2000x256.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .bf16 = 32 ∨ (Rect.block (s := S256x128) S256x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S20000x128.size a
  hwx7_2 : ∀ i : grid7.Coords, EltTy.bits .bf16 = 32 ∨ (Rect.block (s := S20000x128) S2000x128.size (cc7_transform_2 i) (hinb7_2 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S400x10000.size a ≤ S20000x10000.size a
  hwx8_0 : ∀ i : grid8.Coords, EltTy.bits .bf16 = 32 ∨ (Rect.block (s := S20000x10000) S400x10000.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S10000x128.size a ≤ S10000x128.size a
  hwx8_1 : ∀ i : grid8.Coords, EltTy.bits .bf16 = 32 ∨ (Rect.block (s := S10000x128) S10000x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S400x128.size a ≤ S20000x128.size a
  hwx8_3 : ∀ i : grid8.Coords, EltTy.bits .bf16 = 32 ∨ (Rect.block (s := S20000x128) S400x128.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S400x20000.size a ≤ S10000x20000.size a
  hwx9_0 : ∀ i : grid9.Coords, EltTy.bits .bf16 = 32 ∨ (Rect.block (s := S10000x20000) S400x20000.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S20000x128.size a ≤ S20000x128.size a
  hwx9_1 : ∀ i : grid9.Coords, EltTy.bits .bf16 = 32 ∨ (Rect.block (s := S20000x128) S20000x128.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S400x128.size a ≤ S10000x128.size a
  hwx9_3 : ∀ i : grid9.Coords, EltTy.bits .bf16 = 32 ∨ (Rect.block (s := S10000x128) S400x128.size (cc9_transform_3 i) (hinb9_3 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S10000x128.size a
  hwx10_0 : ∀ i : grid10.Coords, EltTy.bits .bf16 = 32 ∨ (Rect.block (s := S10000x128) S2000x128.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x64.size a ≤ S128x64.size a
  hwx10_1 : ∀ i : grid10.Coords, EltTy.bits .bf16 = 32 ∨ (Rect.block (s := S128x64) S128x64.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x64.size a ≤ S10000x64.size a
  hwx10_2 : ∀ i : grid10.Coords, EltTy.bits .bf16 = 32 ∨ (Rect.block (s := S10000x64) S2000x64.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S20000x128.size a
  hwx11_0 : ∀ i : grid11.Coords, EltTy.bits .bf16 = 32 ∨ (Rect.block (s := S20000x128) S2000x128.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x64.size a ≤ S128x64.size a
  hwx11_1 : ∀ i : grid11.Coords, EltTy.bits .bf16 = 32 ∨ (Rect.block (s := S128x64) S128x64.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x64.size a ≤ S20000x64.size a
  hwx11_2 : ∀ i : grid11.Coords, EltTy.bits .bf16 = 32 ∨ (Rect.block (s := S20000x64) S2000x64.size (cc11_transform_2 i) (hinb11_2 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1000x10000.size a ≤ S20000x10000.size a
  hwx12_0 : ∀ i : grid12.Coords, EltTy.bits .bf16 = 32 ∨ (Rect.block (s := S20000x10000) S1000x10000.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S10000x64.size a ≤ S10000x64.size a
  hwx12_1 : ∀ i : grid12.Coords, EltTy.bits .bf16 = 32 ∨ (Rect.block (s := S10000x64) S10000x64.size (cc12_transform_1 i) (hinb12_1 i)).WholeWords (EltTy.packing .bf16)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S1000x64.size a ≤ S20000x64.size a
  hwx12_3 : ∀ i : grid12.Coords, EltTy.bits .f32 = 32 ∨ (Rect.block (s := S20000x64) S1000x64.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S400x20000.size a ≤ S10000x20000.size a
  hwx13_0 : ∀ i : grid13.Coords, EltTy.bits .bf16 = 32 ∨ (Rect.block (s := S10000x20000) S400x20000.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S20000x64.size a ≤ S20000x64.size a
  hwx13_1 : ∀ i : grid13.Coords, EltTy.bits .bf16 = 32 ∨ (Rect.block (s := S20000x64) S20000x64.size (cc13_transform_1 i) (hinb13_1 i)).WholeWords (EltTy.packing .bf16)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S400x64.size a ≤ S10000x64.size a
  hwx13_3 : ∀ i : grid13.Coords, EltTy.bits .f32 = 32 ∨ (Rect.block (s := S10000x64) S400x64.size (cc13_transform_3 i) (hinb13_3 i)).WholeWords (EltTy.packing .f32)

variable [Facts₀]

def scatter_S10000_S1000000x1_S1000000_n_0_0_1 : ScatterDims S10000 S1000000x1 S1000000 where
  updateWindowDims := []
  insertedWindowDims := [0]
  scatterDimsToOperandDims := [0]
  indexVectorDim := 1
  wf := scatter_S10000_S1000000x1_S1000000_n_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def gather_S20000_S1000000x1_S1000000_n_0_n_n_0_1_1 : GatherDims S20000 S1000000x1 S1000000 where
  offsetDims := []
  collapsedSliceDims := [0]
  operandBatchingDims := []
  startIndicesBatchingDims := []
  startIndexMap := [0]
  indexVectorDim := 1
  sliceSizes := ![1]
  wf := gather_S20000_S1000000x1_S1000000_n_0_n_n_0_1_1_wf
def gather_S10000_S1000000x1_S1000000_n_0_n_n_0_1_1 : GatherDims S10000 S1000000x1 S1000000 where
  offsetDims := []
  collapsedSliceDims := [0]
  operandBatchingDims := []
  startIndicesBatchingDims := []
  startIndexMap := [0]
  indexVectorDim := 1
  sliceSizes := ![1]
  wf := gather_S10000_S1000000x1_S1000000_n_0_n_n_0_1_1_wf
def scatter_S20000x10000_S1000000x2_S1000000_n_01_01_1 : ScatterDims S20000x10000 S1000000x2 S1000000 where
  updateWindowDims := []
  insertedWindowDims := [0, 1]
  scatterDimsToOperandDims := [0, 1]
  indexVectorDim := 1
  wf := scatter_S20000x10000_S1000000x2_S1000000_n_01_01_1_wf
def scatter_S10000x20000_S1000000x2_S1000000_n_01_01_1 : ScatterDims S10000x20000 S1000000x2 S1000000 where
  updateWindowDims := []
  insertedWindowDims := [0, 1]
  scatterDimsToOperandDims := [0, 1]
  indexVectorDim := 1
  wf := scatter_S10000x20000_S1000000x2_S1000000_n_01_01_1_wf
def dot_S1000x2000_S2000x256_S1000x256_1_0_0_1_n_n : DotDims S1000x2000 S2000x256 S1000x256 where
  lhsContracting := [1]
  rhsContracting := [0]
  lhsNonContracting := [0]
  rhsNonContracting := [1]
  lhsBatch := []
  rhsBatch := []
  wf := dot_S1000x2000_S2000x256_S1000x256_1_0_0_1_n_n_wf
def dot_S2000x500_S500x256_S2000x256_1_0_0_1_n_n : DotDims S2000x500 S500x256 S2000x256 where
  lhsContracting := [1]
  rhsContracting := [0]
  lhsNonContracting := [0]
  rhsNonContracting := [1]
  lhsBatch := []
  rhsBatch := []
  wf := dot_S2000x500_S500x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S200x20000_S20000x256_S200x256_1_0_0_1_n_n : DotDims S200x20000 S20000x256 S200x256 where
  lhsContracting := [1]
  rhsContracting := [0]
  lhsNonContracting := [0]
  rhsNonContracting := [1]
  lhsBatch := []
  rhsBatch := []
  wf := dot_S200x20000_S20000x256_S200x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x20000_S20000x128_S400x128_1_0_0_1_n_n : DotDims S400x20000 S20000x128 S400x128 where
  lhsContracting := [1]
  rhsContracting := [0]
  lhsNonContracting := [0]
  rhsNonContracting := [1]
  lhsBatch := []
  rhsBatch := []
  wf := dot_S400x20000_S20000x128_S400x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S1000x10000_S10000x64_S1000x64_1_0_0_1_n_n : DotDims S1000x10000 S10000x64 S1000x64 where
  lhsContracting := [1]
  rhsContracting := [0]
  lhsNonContracting := [0]
  rhsNonContracting := [1]
  lhsBatch := []
  rhsBatch := []
  wf := dot_S1000x10000_S10000x64_S1000x64_1_0_0_1_n_n_wf
def dot_S400x20000_S20000x64_S400x64_1_0_0_1_n_n : DotDims S400x20000 S20000x64 S400x64 where
  lhsContracting := [1]
  rhsContracting := [0]
  lhsNonContracting := [0]
  rhsNonContracting := [1]
  lhsBatch := []
  rhsBatch := []
  wf := dot_S400x20000_S20000x64_S400x64_1_0_0_1_n_n_wf

abbrev win0_0 : Pipeline.Window sig grid0 :=
  Pipeline.Window.ofSpec (Memref.whole main_v84) S1000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S2000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v86) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v87) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v88) S2000x500.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v89) S500x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v90) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v91) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v87) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v92) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v93) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v91) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v95) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v41) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S10000x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S400x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v83) S200x20000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S20000x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S200x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v99) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v100) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v101) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v97) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v102) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v103) S2000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v41) S400x10000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v101) S10000x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v104) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v105) S400x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v83) S400x20000.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v103) S20000x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v106) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v107) S400x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v107) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v108) S128x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v109) S2000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v105) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v110) S128x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v111) S2000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v41) S1000x10000.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v109) S10000x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v112) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v113) S1000x64.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v83) S400x20000.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v111) S20000x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v114) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v115) S400x64.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

class Facts : Prop extends Facts₀ where

variable [Facts]
-- ==== ReferenceIdeal.lean ====
abbrev S10000x2000 : Shape := ⟨2, ![10000, 2000]⟩
abbrev S20000x500 : Shape := ⟨2, ![20000, 500]⟩
abbrev S1000000 : Shape := ⟨1, ![1000000]⟩
abbrev S2000x256 : Shape := ⟨2, ![2000, 256]⟩
abbrev S256 : Shape := ⟨1, ![256]⟩
abbrev S500x256 : Shape := ⟨2, ![500, 256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S10000x256 : Shape := ⟨2, ![10000, 256]⟩
abbrev S1x256 : Shape := ⟨2, ![1, 256]⟩
abbrev S20000x256 : Shape := ⟨2, ![20000, 256]⟩
abbrev S_ : Shape := ⟨0, ![]⟩
abbrev S10000 : Shape := ⟨1, ![10000]⟩
abbrev S1000000x1 : Shape := ⟨2, ![1000000, 1]⟩
abbrev S20000 : Shape := ⟨1, ![20000]⟩
abbrev S10000x1 : Shape := ⟨2, ![10000, 1]⟩
abbrev S1000000x256 : Shape := ⟨2, ![1000000, 256]⟩
abbrev S20000x1 : Shape := ⟨2, ![20000, 1]⟩
abbrev S20000x128 : Shape := ⟨2, ![20000, 128]⟩
abbrev S1x128 : Shape := ⟨2, ![1, 128]⟩
abbrev S10000x128 : Shape := ⟨2, ![10000, 128]⟩
abbrev S1000000x128 : Shape := ⟨2, ![1000000, 128]⟩
abbrev S20000x64 : Shape := ⟨2, ![20000, 64]⟩
abbrev S1x64 : Shape := ⟨2, ![1, 64]⟩
abbrev S10000x64 : Shape := ⟨2, ![10000, 64]⟩

abbrev nBuf : Space → Nat
  | .hbm => 336
  | .vmem => 0
  | .smem => 0
  | _ => 0

abbrev hbmTy0_0 (i : Nat) : BufTy := match i % 128 with
  | 0 => ⟨S10000x2000, .f32⟩
  | 1 => ⟨S20000x500, .f32⟩
  | 2 => ⟨S1000000, .i32⟩
  | 3 => ⟨S1000000, .i32⟩
  | 4 => ⟨S1000000, .i32⟩
  | 5 => ⟨S1000000, .i32⟩
  | 6 => ⟨S2000x256, .f32⟩
  | 7 => ⟨S256, .f32⟩
  | 8 => ⟨S500x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x128, .f32⟩
  | 15 => ⟨S128, .f32⟩
  | 16 => ⟨S256x128, .f32⟩
  | 17 => ⟨S128, .f32⟩
  | 18 => ⟨S128x64, .f32⟩
  | 19 => ⟨S64, .f32⟩
  | 20 => ⟨S128x64, .f32⟩
  | 21 => ⟨S64, .f32⟩
  | 22 => ⟨S10000x256, .f32⟩
  | 23 => ⟨S1x256, .f32⟩
  | 24 => ⟨S10000x256, .f32⟩
  | 25 => ⟨S10000x256, .f32⟩
  | 26 => ⟨S20000x256, .f32⟩
  | 27 => ⟨S1x256, .f32⟩
  | 28 => ⟨S20000x256, .f32⟩
  | 29 => ⟨S20000x256, .f32⟩
  | 30 => ⟨S_, .f32⟩
  | 31 => ⟨S1000000, .f32⟩
  | 32 => ⟨S_, .f32⟩
  | 33 => ⟨S10000, .f32⟩
  | 34 => ⟨S1000000x1, .i32⟩
  | 35 => ⟨S10000, .f32⟩
  | 36 => ⟨S_, .f32⟩
  | 37 => ⟨S_, .f32⟩
  | 38 => ⟨S10000, .f32⟩
  | 39 => ⟨S10000, .f32⟩
  | 40 => ⟨S_, .f32⟩
  | 41 => ⟨S20000, .f32⟩
  | 42 => ⟨S1000000x1, .i32⟩
  | 43 => ⟨S20000, .f32⟩
  | 44 => ⟨S_, .f32⟩
  | 45 => ⟨S_, .f32⟩
  | 46 => ⟨S20000, .f32⟩
  | 47 => ⟨S20000, .f32⟩
  | 48 => ⟨S10000, .f32⟩
  | 49 => ⟨S10000x1, .f32⟩
  | 50 => ⟨S10000x256, .f32⟩
  | 51 => ⟨S10000x256, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x256, .f32⟩
  | 61 => ⟨S_, .f32⟩
  | 62 => ⟨S20000x256, .f32⟩
  | 63 => ⟨S1000000x1, .i32⟩
  | 64 => ⟨S20000x256, .f32⟩
  | 65 => ⟨S20000, .f32⟩
  | 66 => ⟨S20000x1, .f32⟩
  | 67 => ⟨S20000x256, .f32⟩
  | 68 => ⟨S20000x256, .f32⟩
  | 69 => ⟨S20000x256, .f32⟩
  | 70 => ⟨S1x256, .f32⟩
  | 71 => ⟨S20000x256, .f32⟩
  | 72 => ⟨S20000x256, .f32⟩
  | 73 => ⟨S_, .f32⟩
  | 74 => ⟨S1000000, .f32⟩
  | 75 => ⟨S_, .f32⟩
  | 76 => ⟨S20000, .f32⟩
  | 77 => ⟨S1000000x1, .i32⟩
  | 78 => ⟨S20000, .f32⟩
  | 79 => ⟨S_, .f32⟩
  | 80 => ⟨S_, .f32⟩
  | 81 => ⟨S20000, .f32⟩
  | 82 => ⟨S20000, .f32⟩
  | 83 => ⟨S_, .f32⟩
  | 84 => ⟨S10000, .f32⟩
  | 85 => ⟨S1000000x1, .i32⟩
  | 86 => ⟨S10000, .f32⟩
  | 87 => ⟨S_, .f32⟩
  | 88 => ⟨S_, .f32⟩
  | 89 => ⟨S10000, .f32⟩
  | 90 => ⟨S10000, .f32⟩
  | 91 => ⟨S20000, .f32⟩
  | 92 => ⟨S20000x1, .f32⟩
  | 93 => ⟨S20000x256, .f32⟩
  | 94 => ⟨S20000x256, .f32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000x256, .f32⟩
  | 104 => ⟨S_, .f32⟩
  | 105 => ⟨S10000x256, .f32⟩
  | 106 => ⟨S1000000x1, .i32⟩
  | 107 => ⟨S10000x256, .f32⟩
  | 108 => ⟨S10000, .f32⟩
  | 109 => ⟨S10000x1, .f32⟩
  | 110 => ⟨S10000x256, .f32⟩
  | 111 => ⟨S10000x256, .f32⟩
  | 112 => ⟨S10000x256, .f32⟩
  | 113 => ⟨S1x256, .f32⟩
  | 114 => ⟨S10000x256, .f32⟩
  | 115 => ⟨S10000x256, .f32⟩
  | 116 => ⟨S_, .f32⟩
  | 117 => ⟨S_, .f32⟩
  | 118 => ⟨S10000x256, .f32⟩
  | 119 => ⟨S10000x256, .i1⟩
  | 120 => ⟨S_, .f32⟩
  | 121 => ⟨S10000x256, .f32⟩
  | 122 => ⟨S10000x256, .f32⟩
  | 123 => ⟨S10000x256, .f32⟩
  | 124 => ⟨S_, .f32⟩
  | 125 => ⟨S_, .f32⟩
  | 126 => ⟨S20000x256, .f32⟩
  | 127 => ⟨S20000x256, .i1⟩
  | _ => ⟨S10000x2000, .f32⟩

abbrev hbmTy0_1 (i : Nat) : BufTy := match i % 128 with
  | 0 => ⟨S_, .f32⟩
  | 1 => ⟨S20000x256, .f32⟩
  | 2 => ⟨S20000x256, .f32⟩
  | 3 => ⟨S20000x256, .f32⟩
  | 4 => ⟨S_, .f32⟩
  | 5 => ⟨S1000000, .f32⟩
  | 6 => ⟨S_, .f32⟩
  | 7 => ⟨S10000, .f32⟩
  | 8 => ⟨S1000000x1, .i32⟩
  | 9 => ⟨S10000, .f32⟩
  | 10 => ⟨S_, .f32⟩
  | 11 => ⟨S_, .f32⟩
  | 12 => ⟨S10000, .f32⟩
  | 13 => ⟨S10000, .f32⟩
  | 14 => ⟨S_, .f32⟩
  | 15 => ⟨S20000, .f32⟩
  | 16 => ⟨S1000000x1, .i32⟩
  | 17 => ⟨S20000, .f32⟩
  | 18 => ⟨S_, .f32⟩
  | 19 => ⟨S_, .f32⟩
  | 20 => ⟨S20000, .f32⟩
  | 21 => ⟨S20000, .f32⟩
  | 22 => ⟨S10000, .f32⟩
  | 23 => ⟨S10000x1, .f32⟩
  | 24 => ⟨S10000x256, .f32⟩
  | 25 => ⟨S10000x256, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x256, .f32⟩
  | 35 => ⟨S_, .f32⟩
  | 36 => ⟨S20000x256, .f32⟩
  | 37 => ⟨S1000000x1, .i32⟩
  | 38 => ⟨S20000x256, .f32⟩
  | 39 => ⟨S20000, .f32⟩
  | 40 => ⟨S20000x1, .f32⟩
  | 41 => ⟨S20000x256, .f32⟩
  | 42 => ⟨S20000x256, .f32⟩
  | 43 => ⟨S20000x128, .f32⟩
  | 44 => ⟨S1x128, .f32⟩
  | 45 => ⟨S20000x128, .f32⟩
  | 46 => ⟨S20000x128, .f32⟩
  | 47 => ⟨S_, .f32⟩
  | 48 => ⟨S1000000, .f32⟩
  | 49 => ⟨S_, .f32⟩
  | 50 => ⟨S20000, .f32⟩
  | 51 => ⟨S1000000x1, .i32⟩
  | 52 => ⟨S20000, .f32⟩
  | 53 => ⟨S_, .f32⟩
  | 54 => ⟨S_, .f32⟩
  | 55 => ⟨S20000, .f32⟩
  | 56 => ⟨S20000, .f32⟩
  | 57 => ⟨S_, .f32⟩
  | 58 => ⟨S10000, .f32⟩
  | 59 => ⟨S1000000x1, .i32⟩
  | 60 => ⟨S10000, .f32⟩
  | 61 => ⟨S_, .f32⟩
  | 62 => ⟨S_, .f32⟩
  | 63 => ⟨S10000, .f32⟩
  | 64 => ⟨S10000, .f32⟩
  | 65 => ⟨S20000, .f32⟩
  | 66 => ⟨S20000x1, .f32⟩
  | 67 => ⟨S20000x256, .f32⟩
  | 68 => ⟨S20000x256, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000x256, .f32⟩
  | 78 => ⟨S_, .f32⟩
  | 79 => ⟨S10000x256, .f32⟩
  | 80 => ⟨S1000000x1, .i32⟩
  | 81 => ⟨S10000x256, .f32⟩
  | 82 => ⟨S10000, .f32⟩
  | 83 => ⟨S10000x1, .f32⟩
  | 84 => ⟨S10000x256, .f32⟩
  | 85 => ⟨S10000x256, .f32⟩
  | 86 => ⟨S10000x128, .f32⟩
  | 87 => ⟨S1x128, .f32⟩
  | 88 => ⟨S10000x128, .f32⟩
  | 89 => ⟨S10000x128, .f32⟩
  | 90 => ⟨S_, .f32⟩
  | 91 => ⟨S_, .f32⟩
  | 92 => ⟨S10000x128, .f32⟩
  | 93 => ⟨S10000x128, .i1⟩
  | 94 => ⟨S_, .f32⟩
  | 95 => ⟨S10000x128, .f32⟩
  | 96 => ⟨S10000x128, .f32⟩
  | 97 => ⟨S10000x128, .f32⟩
  | 98 => ⟨S_, .f32⟩
  | 99 => ⟨S_, .f32⟩
  | 100 => ⟨S20000x128, .f32⟩
  | 101 => ⟨S20000x128, .i1⟩
  | 102 => ⟨S_, .f32⟩
  | 103 => ⟨S20000x128, .f32⟩
  | 104 => ⟨S20000x128, .f32⟩
  | 105 => ⟨S20000x128, .f32⟩
  | 106 => ⟨S_, .f32⟩
  | 107 => ⟨S1000000, .f32⟩
  | 108 => ⟨S_, .f32⟩
  | 109 => ⟨S10000, .f32⟩
  | 110 => ⟨S1000000x1, .i32⟩
  | 111 => ⟨S10000, .f32⟩
  | 112 => ⟨S_, .f32⟩
  | 113 => ⟨S_, .f32⟩
  | 114 => ⟨S10000, .f32⟩
  | 115 => ⟨S10000, .f32⟩
  | 116 => ⟨S_, .f32⟩
  | 117 => ⟨S20000, .f32⟩
  | 118 => ⟨S1000000x1, .i32⟩
  | 119 => ⟨S20000, .f32⟩
  | 120 => ⟨S_, .f32⟩
  | 121 => ⟨S_, .f32⟩
  | 122 => ⟨S20000, .f32⟩
  | 123 => ⟨S20000, .f32⟩
  | 124 => ⟨S10000, .f32⟩
  | 125 => ⟨S10000x1, .f32⟩
  | 126 => ⟨S10000x128, .f32⟩
  | 127 => ⟨S10000x128, .f32⟩
  | _ => ⟨S10000x2000, .f32⟩

abbrev hbmTy0_2 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x128, .f32⟩
  | 9 => ⟨S_, .f32⟩
  | 10 => ⟨S20000x128, .f32⟩
  | 11 => ⟨S1000000x1, .i32⟩
  | 12 => ⟨S20000x128, .f32⟩
  | 13 => ⟨S20000, .f32⟩
  | 14 => ⟨S20000x1, .f32⟩
  | 15 => ⟨S20000x128, .f32⟩
  | 16 => ⟨S20000x128, .f32⟩
  | 17 => ⟨S20000x64, .f32⟩
  | 18 => ⟨S1x64, .f32⟩
  | 19 => ⟨S20000x64, .f32⟩
  | 20 => ⟨S20000x64, .f32⟩
  | 21 => ⟨S_, .f32⟩
  | 22 => ⟨S1000000, .f32⟩
  | 23 => ⟨S_, .f32⟩
  | 24 => ⟨S20000, .f32⟩
  | 25 => ⟨S1000000x1, .i32⟩
  | 26 => ⟨S20000, .f32⟩
  | 27 => ⟨S_, .f32⟩
  | 28 => ⟨S_, .f32⟩
  | 29 => ⟨S20000, .f32⟩
  | 30 => ⟨S20000, .f32⟩
  | 31 => ⟨S_, .f32⟩
  | 32 => ⟨S10000, .f32⟩
  | 33 => ⟨S1000000x1, .i32⟩
  | 34 => ⟨S10000, .f32⟩
  | 35 => ⟨S_, .f32⟩
  | 36 => ⟨S_, .f32⟩
  | 37 => ⟨S10000, .f32⟩
  | 38 => ⟨S10000, .f32⟩
  | 39 => ⟨S20000, .f32⟩
  | 40 => ⟨S20000x1, .f32⟩
  | 41 => ⟨S20000x128, .f32⟩
  | 42 => ⟨S20000x128, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000x128, .f32⟩
  | 52 => ⟨S_, .f32⟩
  | 53 => ⟨S10000x128, .f32⟩
  | 54 => ⟨S1000000x1, .i32⟩
  | 55 => ⟨S10000x128, .f32⟩
  | 56 => ⟨S10000, .f32⟩
  | 57 => ⟨S10000x1, .f32⟩
  | 58 => ⟨S10000x128, .f32⟩
  | 59 => ⟨S10000x128, .f32⟩
  | 60 => ⟨S10000x64, .f32⟩
  | 61 => ⟨S1x64, .f32⟩
  | 62 => ⟨S10000x64, .f32⟩
  | 63 => ⟨S10000x64, .f32⟩
  | 64 => ⟨S_, .f32⟩
  | 65 => ⟨S_, .f32⟩
  | 66 => ⟨S10000x64, .f32⟩
  | 67 => ⟨S10000x64, .i1⟩
  | 68 => ⟨S_, .f32⟩
  | 69 => ⟨S10000x64, .f32⟩
  | 70 => ⟨S10000x64, .f32⟩
  | 71 => ⟨S10000x64, .f32⟩
  | 72 => ⟨S_, .f32⟩
  | 73 => ⟨S_, .f32⟩
  | 74 => ⟨S20000x64, .f32⟩
  | 75 => ⟨S20000x64, .i1⟩
  | 76 => ⟨S_, .f32⟩
  | 77 => ⟨S20000x64, .f32⟩
  | 78 => ⟨S20000x64, .f32⟩
  | 79 => ⟨S20000x64, .f32⟩
  | _ => ⟨S10000x2000, .f32⟩

abbrev hbmTy (i : Nat) : BufTy := match i / 128 with
  | 0 => hbmTy0_0 i
  | 1 => hbmTy0_1 i
  | 2 => hbmTy0_2 i
  | _ => ⟨S10000x2000, .f32⟩

abbrev bufTy : (tb : Table) → Fin (tcTables nBuf tb) → BufTy
  | .hbm, ⟨i, _⟩ => hbmTy i
  | _, _ => ⟨S10000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_v12 : Ref sig .tc := ⟨.hbm, 39, rfl⟩
abbrev main_cst_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c : Ref sig .tc := ⟨.hbm, 52, rfl⟩
abbrev main_v21 : Ref sig .tc := ⟨.hbm, 53, rfl⟩
abbrev main_v22 : Ref sig .tc := ⟨.hbm, 54, rfl⟩
abbrev main_c_4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_5 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_6 : Ref sig .tc := ⟨.hbm, 73, rfl⟩
abbrev main_v39 : Ref sig .tc := ⟨.hbm, 74, rfl⟩
abbrev main_cst_7 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_8 : Ref sig .tc := ⟨.hbm, 79, rfl⟩
abbrev main_call2_v0 : Ref sig .tc := ⟨.hbm, 80, rfl⟩
abbrev main_call2_v1 : Ref sig .tc := ⟨.hbm, 81, rfl⟩
abbrev main_v43 : Ref sig .tc := ⟨.hbm, 82, rfl⟩
abbrev main_cst_9 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_10 : Ref sig .tc := ⟨.hbm, 87, rfl⟩
abbrev main_call3_v0 : Ref sig .tc := ⟨.hbm, 88, rfl⟩
abbrev main_call3_v1 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_c_11 : Ref sig .tc := ⟨.hbm, 95, rfl⟩
abbrev main_v52 : Ref sig .tc := ⟨.hbm, 96, rfl⟩
abbrev main_v53 : Ref sig .tc := ⟨.hbm, 97, rfl⟩
abbrev main_c_12 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_13 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_14 : Ref sig .tc := ⟨.hbm, 116, rfl⟩
abbrev main_call4_cst : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_v70 : Ref sig .tc := ⟨.hbm, 123, rfl⟩
abbrev main_cst_15 : Ref sig .tc := ⟨.hbm, 124, rfl⟩
abbrev main_call5_cst : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_v71 : Ref sig .tc := ⟨.hbm, 131, rfl⟩
abbrev main_cst_16 : Ref sig .tc := ⟨.hbm, 132, rfl⟩
abbrev main_v72 : Ref sig .tc := ⟨.hbm, 133, rfl⟩
abbrev main_cst_17 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_cst_18 : Ref sig .tc := ⟨.hbm, 138, rfl⟩
abbrev main_call6_v0 : Ref sig .tc := ⟨.hbm, 139, rfl⟩
abbrev main_call6_v1 : Ref sig .tc := ⟨.hbm, 140, rfl⟩
abbrev main_v76 : Ref sig .tc := ⟨.hbm, 141, rfl⟩
abbrev main_cst_19 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_20 : Ref sig .tc := ⟨.hbm, 146, rfl⟩
abbrev main_call7_v0 : Ref sig .tc := ⟨.hbm, 147, rfl⟩
abbrev main_call7_v1 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_c_21 : Ref sig .tc := ⟨.hbm, 154, rfl⟩
abbrev main_v85 : Ref sig .tc := ⟨.hbm, 155, rfl⟩
abbrev main_v86 : Ref sig .tc := ⟨.hbm, 156, rfl⟩
abbrev main_c_22 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_cst_23 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_cst_24 : Ref sig .tc := ⟨.hbm, 175, rfl⟩
abbrev main_v103 : Ref sig .tc := ⟨.hbm, 176, rfl⟩
abbrev main_cst_25 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_cst_26 : Ref sig .tc := ⟨.hbm, 181, rfl⟩
abbrev main_call8_v0 : Ref sig .tc := ⟨.hbm, 182, rfl⟩
abbrev main_call8_v1 : Ref sig .tc := ⟨.hbm, 183, rfl⟩
abbrev main_v107 : Ref sig .tc := ⟨.hbm, 184, rfl⟩
abbrev main_cst_27 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_cst_28 : Ref sig .tc := ⟨.hbm, 189, rfl⟩
abbrev main_call9_v0 : Ref sig .tc := ⟨.hbm, 190, rfl⟩
abbrev main_call9_v1 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_c_29 : Ref sig .tc := ⟨.hbm, 197, rfl⟩
abbrev main_v116 : Ref sig .tc := ⟨.hbm, 198, rfl⟩
abbrev main_v117 : Ref sig .tc := ⟨.hbm, 199, rfl⟩
abbrev main_c_30 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_cst_31 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_cst_32 : Ref sig .tc := ⟨.hbm, 218, rfl⟩
abbrev main_call10_cst : Ref sig .tc := ⟨.hbm, 219, rfl⟩
abbrev main_call10_v0 : Ref sig .tc := ⟨.hbm, 220, rfl⟩
abbrev main_call10_v1 : Ref sig .tc := ⟨.hbm, 221, rfl⟩
abbrev main_call10_v2 : Ref sig .tc := ⟨.hbm, 222, rfl⟩
abbrev main_call10_v3 : Ref sig .tc := ⟨.hbm, 223, rfl⟩
abbrev main_call10_v4 : Ref sig .tc := ⟨.hbm, 224, rfl⟩
abbrev main_v134 : Ref sig .tc := ⟨.hbm, 225, rfl⟩
abbrev main_cst_33 : Ref sig .tc := ⟨.hbm, 226, rfl⟩
abbrev main_call11_cst : Ref sig .tc := ⟨.hbm, 227, rfl⟩
abbrev main_call11_v0 : Ref sig .tc := ⟨.hbm, 228, rfl⟩
abbrev main_call11_v1 : Ref sig .tc := ⟨.hbm, 229, rfl⟩
abbrev main_call11_v2 : Ref sig .tc := ⟨.hbm, 230, rfl⟩
abbrev main_call11_v3 : Ref sig .tc := ⟨.hbm, 231, rfl⟩
abbrev main_call11_v4 : Ref sig .tc := ⟨.hbm, 232, rfl⟩
abbrev main_v135 : Ref sig .tc := ⟨.hbm, 233, rfl⟩
abbrev main_cst_34 : Ref sig .tc := ⟨.hbm, 234, rfl⟩
abbrev main_v136 : Ref sig .tc := ⟨.hbm, 235, rfl⟩
abbrev main_cst_35 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_cst_36 : Ref sig .tc := ⟨.hbm, 240, rfl⟩
abbrev main_call12_v0 : Ref sig .tc := ⟨.hbm, 241, rfl⟩
abbrev main_call12_v1 : Ref sig .tc := ⟨.hbm, 242, rfl⟩
abbrev main_v140 : Ref sig .tc := ⟨.hbm, 243, rfl⟩
abbrev main_cst_37 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_cst_38 : Ref sig .tc := ⟨.hbm, 248, rfl⟩
abbrev main_call13_v0 : Ref sig .tc := ⟨.hbm, 249, rfl⟩
abbrev main_call13_v1 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_c_39 : Ref sig .tc := ⟨.hbm, 256, rfl⟩
abbrev main_v149 : Ref sig .tc := ⟨.hbm, 257, rfl⟩
abbrev main_v150 : Ref sig .tc := ⟨.hbm, 258, rfl⟩
abbrev main_c_40 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_cst_41 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_cst_42 : Ref sig .tc := ⟨.hbm, 277, rfl⟩
abbrev main_v167 : Ref sig .tc := ⟨.hbm, 278, rfl⟩
abbrev main_cst_43 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_cst_44 : Ref sig .tc := ⟨.hbm, 283, rfl⟩
abbrev main_call14_v0 : Ref sig .tc := ⟨.hbm, 284, rfl⟩
abbrev main_call14_v1 : Ref sig .tc := ⟨.hbm, 285, rfl⟩
abbrev main_v171 : Ref sig .tc := ⟨.hbm, 286, rfl⟩
abbrev main_cst_45 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩
abbrev main_cst_46 : Ref sig .tc := ⟨.hbm, 291, rfl⟩
abbrev main_call15_v0 : Ref sig .tc := ⟨.hbm, 292, rfl⟩
abbrev main_call15_v1 : Ref sig .tc := ⟨.hbm, 293, rfl⟩
abbrev main_v175 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_v179 : Ref sig .tc := ⟨.hbm, 298, rfl⟩
abbrev main_c_47 : Ref sig .tc := ⟨.hbm, 299, rfl⟩
abbrev main_v180 : Ref sig .tc := ⟨.hbm, 300, rfl⟩
abbrev main_v181 : Ref sig .tc := ⟨.hbm, 301, rfl⟩
abbrev main_c_48 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_cst_49 : Ref sig .tc := ⟨.hbm, 308, rfl⟩
abbrev main_v187 : Ref sig .tc := ⟨.hbm, 309, rfl⟩
abbrev main_v188 : Ref sig .tc := ⟨.hbm, 310, rfl⟩
abbrev main_v189 : Ref sig .tc := ⟨.hbm, 311, rfl⟩
abbrev main_v190 : Ref sig .tc := ⟨.hbm, 312, rfl⟩
abbrev main_v191 : Ref sig .tc := ⟨.hbm, 313, rfl⟩
abbrev main_v192 : Ref sig .tc := ⟨.hbm, 314, rfl⟩
abbrev main_v193 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_v197 : Ref sig .tc := ⟨.hbm, 319, rfl⟩
abbrev main_cst_50 : Ref sig .tc := ⟨.hbm, 320, rfl⟩
abbrev main_call16_cst : Ref sig .tc := ⟨.hbm, 321, rfl⟩
abbrev main_call16_v0 : Ref sig .tc := ⟨.hbm, 322, rfl⟩
abbrev main_call16_v1 : Ref sig .tc := ⟨.hbm, 323, rfl⟩
abbrev main_call16_v2 : Ref sig .tc := ⟨.hbm, 324, rfl⟩
abbrev main_call16_v3 : Ref sig .tc := ⟨.hbm, 325, rfl⟩
abbrev main_call16_v4 : Ref sig .tc := ⟨.hbm, 326, rfl⟩
abbrev main_v198 : Ref sig .tc := ⟨.hbm, 327, rfl⟩
abbrev main_cst_51 : Ref sig .tc := ⟨.hbm, 328, rfl⟩
abbrev main_call17_cst : Ref sig .tc := ⟨.hbm, 329, rfl⟩
abbrev main_call17_v0 : Ref sig .tc := ⟨.hbm, 330, rfl⟩
abbrev main_call17_v1 : Ref sig .tc := ⟨.hbm, 331, rfl⟩
abbrev main_call17_v2 : Ref sig .tc := ⟨.hbm, 332, rfl⟩
abbrev main_call17_v3 : Ref sig .tc := ⟨.hbm, 333, rfl⟩
abbrev main_call17_v4 : Ref sig .tc := ⟨.hbm, 334, rfl⟩
abbrev main_v199 : Ref sig .tc := ⟨.hbm, 335, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S20000x256_0_1 : S1x256.BroadcastsInDim S20000x256 (![0, 1] : Fin 2 → Fin S20000x256.rank)
  bcast_S_S1000000 : S_.BroadcastsInDim S1000000 (![] : Fin 0 → Fin S1000000.rank)
  bcast_S_S10000 : S_.BroadcastsInDim S10000 (![] : Fin 0 → Fin S10000.rank)
  bcast_S1000000_S1000000x1_0 : S1000000.BroadcastsInDim S1000000x1 (![0] : Fin 1 → Fin S1000000x1.rank)
  bcast_S_S20000 : S_.BroadcastsInDim S20000 (![] : Fin 0 → Fin S20000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S20000x256 : S_.BroadcastsInDim S20000x256 (![] : Fin 0 → Fin S20000x256.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S10000x256 : S_.BroadcastsInDim S10000x256 (![] : Fin 0 → Fin S10000x256.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S_S20000x128 : S_.BroadcastsInDim S20000x128 (![] : Fin 0 → Fin S20000x128.rank)
  bcast_S10000x1_S10000x128_0_1 : S10000x1.BroadcastsInDim S10000x128 (![0, 1] : Fin 2 → Fin S10000x128.rank)
  bcast_S20000x1_S20000x128_0_1 : S20000x1.BroadcastsInDim S20000x128 (![0, 1] : Fin 2 → Fin S20000x128.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S_S20000x64 : S_.BroadcastsInDim S20000x64 (![] : Fin 0 → Fin S20000x64.rank)
  dot_S10000x2000_S2000x256_S10000x256_1_0_0_1_n_n_wf : DotDims.WF S10000x2000 S2000x256 S10000x256 [1] [0] [0] [1] [] []
  dot_S20000x500_S500x256_S20000x256_1_0_0_1_n_n_wf : DotDims.WF S20000x500 S500x256 S20000x256 [1] [0] [0] [1] [] []
  scatter_S10000_S1000000x1_S1000000_n_0_0_1_wf : ScatterDims.WF S10000 S1000000x1 S1000000 [] [0] [0] 1
  scatter_S20000_S1000000x1_S1000000_n_0_0_1_wf : ScatterDims.WF S20000 S1000000x1 S1000000 [] [0] [0] 1
  gather_S10000x256_S1000000x1_S1000000x256_1_0_n_n_0_1_1256_wf : GatherDims.WF S10000x256 S1000000x1 S1000000x256 [1] [0] [] [0] [] 1 ![1, 256]
  scatter_S20000x256_S1000000x1_S1000000x256_1_0_0_1_wf : ScatterDims.WF S20000x256 S1000000x1 S1000000x256 [1] [0] [0] 1
  dot_S20000x256_S256x256_S20000x256_1_0_0_1_n_n_wf : DotDims.WF S20000x256 S256x256 S20000x256 [1] [0] [0] [1] [] []
  gather_S20000x256_S1000000x1_S1000000x256_1_0_n_n_0_1_1256_wf : GatherDims.WF S20000x256 S1000000x1 S1000000x256 [1] [0] [] [0] [] 1 ![1, 256]
  scatter_S10000x256_S1000000x1_S1000000x256_1_0_0_1_wf : ScatterDims.WF S10000x256 S1000000x1 S1000000x256 [1] [0] [0] 1
  dot_S10000x256_S256x256_S10000x256_1_0_0_1_n_n_wf : DotDims.WF S10000x256 S256x256 S10000x256 [1] [0] [0] [1] [] []
  dot_S20000x256_S256x128_S20000x128_1_0_0_1_n_n_wf : DotDims.WF S20000x256 S256x128 S20000x128 [1] [0] [0] [1] [] []
  dot_S10000x256_S256x128_S10000x128_1_0_0_1_n_n_wf : DotDims.WF S10000x256 S256x128 S10000x128 [1] [0] [0] [1] [] []
  gather_S10000x128_S1000000x1_S1000000x128_1_0_n_n_0_1_1128_wf : GatherDims.WF S10000x128 S1000000x1 S1000000x128 [1] [0] [] [0] [] 1 ![1, 128]
  scatter_S20000x128_S1000000x1_S1000000x128_1_0_0_1_wf : ScatterDims.WF S20000x128 S1000000x1 S1000000x128 [1] [0] [0] 1
  dot_S20000x128_S128x64_S20000x64_1_0_0_1_n_n_wf : DotDims.WF S20000x128 S128x64 S20000x64 [1] [0] [0] [1] [] []
  gather_S20000x128_S1000000x1_S1000000x128_1_0_n_n_0_1_1128_wf : GatherDims.WF S20000x128 S1000000x1 S1000000x128 [1] [0] [] [0] [] 1 ![1, 128]
  scatter_S10000x128_S1000000x1_S1000000x128_1_0_0_1_wf : ScatterDims.WF S10000x128 S1000000x1 S1000000x128 [1] [0] [0] 1
  dot_S10000x128_S128x64_S10000x64_1_0_0_1_n_n_wf : DotDims.WF S10000x128 S128x64 S10000x64 [1] [0] [0] [1] [] []

variable [Facts₀]

def dot_S10000x2000_S2000x256_S10000x256_1_0_0_1_n_n : DotDims S10000x2000 S2000x256 S10000x256 where
  lhsContracting := [1]
  rhsContracting := [0]
  lhsNonContracting := [0]
  rhsNonContracting := [1]
  lhsBatch := []
  rhsBatch := []
  wf := dot_S10000x2000_S2000x256_S10000x256_1_0_0_1_n_n_wf
def dot_S20000x500_S500x256_S20000x256_1_0_0_1_n_n : DotDims S20000x500 S500x256 S20000x256 where
  lhsContracting := [1]
  rhsContracting := [0]
  lhsNonContracting := [0]
  rhsNonContracting := [1]
  lhsBatch := []
  rhsBatch := []
  wf := dot_S20000x500_S500x256_S20000x256_1_0_0_1_n_n_wf
def scatter_S10000_S1000000x1_S1000000_n_0_0_1 : ScatterDims S10000 S1000000x1 S1000000 where
  updateWindowDims := []
  insertedWindowDims := [0]
  scatterDimsToOperandDims := [0]
  indexVectorDim := 1
  wf := scatter_S10000_S1000000x1_S1000000_n_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def gather_S10000x256_S1000000x1_S1000000x256_1_0_n_n_0_1_1256 : GatherDims S10000x256 S1000000x1 S1000000x256 where
  offsetDims := [1]
  collapsedSliceDims := [0]
  operandBatchingDims := []
  startIndicesBatchingDims := []
  startIndexMap := [0]
  indexVectorDim := 1
  sliceSizes := ![1, 256]
  wf := gather_S10000x256_S1000000x1_S1000000x256_1_0_n_n_0_1_1256_wf
def scatter_S20000x256_S1000000x1_S1000000x256_1_0_0_1 : ScatterDims S20000x256 S1000000x1 S1000000x256 where
  updateWindowDims := [1]
  insertedWindowDims := [0]
  scatterDimsToOperandDims := [0]
  indexVectorDim := 1
  wf := scatter_S20000x256_S1000000x1_S1000000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S1000000x1_S1000000x256_1_0_n_n_0_1_1256 : GatherDims S20000x256 S1000000x1 S1000000x256 where
  offsetDims := [1]
  collapsedSliceDims := [0]
  operandBatchingDims := []
  startIndicesBatchingDims := []
  startIndexMap := [0]
  indexVectorDim := 1
  sliceSizes := ![1, 256]
  wf := gather_S20000x256_S1000000x1_S1000000x256_1_0_n_n_0_1_1256_wf
def scatter_S10000x256_S1000000x1_S1000000x256_1_0_0_1 : ScatterDims S10000x256 S1000000x1 S1000000x256 where
  updateWindowDims := [1]
  insertedWindowDims := [0]
  scatterDimsToOperandDims := [0]
  indexVectorDim := 1
  wf := scatter_S10000x256_S1000000x1_S1000000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S1000000x1_S1000000x128_1_0_n_n_0_1_1128 : GatherDims S10000x128 S1000000x1 S1000000x128 where
  offsetDims := [1]
  collapsedSliceDims := [0]
  operandBatchingDims := []
  startIndicesBatchingDims := []
  startIndexMap := [0]
  indexVectorDim := 1
  sliceSizes := ![1, 128]
  wf := gather_S10000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S10000x128_S1000000x1_S1000000x128_1_0_0_1 : ScatterDims S10000x128 S1000000x1 S1000000x128 where
  updateWindowDims := [1]
  insertedWindowDims := [0]
  scatterDimsToOperandDims := [0]
  indexVectorDim := 1
  wf := scatter_S10000x128_S1000000x1_S1000000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.Spec.lean ====
import Idealize.ShloMosaic.PureOps.Ideal
import Idealize.ShloMosaic.PureOps.Ideal.Laws

noncomputable section

open scoped BigOperators

namespace GCN

open Idealize.ShloMosaic

def Real2 {a b : ℕ} (M : Fin a → Fin b → EReal) : Prop := ∀ i j, ∃ x : ℝ, M i j = (x : EReal)

def Real1 {a : ℕ} (v : Fin a → EReal) : Prop := ∀ i, ∃ x : ℝ, v i = (x : EReal)

def lrelu (x : EReal) : EReal :=
  Scalar.select (Ideal.cmp .oge x (Ideal.ofBits .f32 0x00000000#32)) x (Ideal.ofBits .f32 0x3E800000#32 * x)

variable {E n k p q : ℕ}

def lin (X : Fin n → Fin p → EReal) (W : Fin p → Fin q → EReal) (b : Fin q → EReal) : Fin n → Fin q → EReal :=
  fun r j => (∑ c, X r c * W c j) + b j

def mm (X : Fin n → Fin p → EReal) (W : Fin p → Fin q → EReal) : Fin n → Fin q → EReal :=
  fun r j => ∑ c, X r c * W c j

def deg (f : Fin E → Fin n) (i : Fin n) : EReal :=
  Ideal.ofBits .f32 0x00000000#32 + ∑ _e ∈ Finset.univ.filter (fun e => f e = i), Ideal.ofBits .f32 0x3F800000#32

def rs (f : Fin E → Fin n) (i : Fin n) : EReal :=
  Ideal.rsqrt (max (Ideal.ofBits .f32 0x3F800000#32) (deg f i))

def adj (s : Fin E → Fin n) (t : Fin E → Fin k) (d : Fin k) (a : Fin n) : EReal :=
  Ideal.ofBits .f32 0x00000000#32 + ∑ e ∈ Finset.univ.filter (fun e => t e = d ∧ s e = a), rs t (t e) * rs s (s e)

def kgc (A : Fin k → Fin n → EReal) (H : Fin n → Fin p → EReal) (W : Fin p → Fin q → EReal) (b : Fin q → EReal) :
    Fin k → Fin q → EReal :=
  fun d j => lrelu ((∑ a, A d a * mm H W a j) + b j)

def agg (A : Fin k → Fin n → EReal) (HW : Fin n → Fin q → EReal) (b : Fin q → EReal) : Fin k → Fin q → EReal :=
  fun d j => lrelu ((∑ a, A d a * HW a j) + b j)

theorem kgc_eq_agg (A : Fin k → Fin n → EReal) (H : Fin n → Fin p → EReal) (W : Fin p → Fin q → EReal) (b : Fin q → EReal) :
    kgc A H W b = agg A (mm H W) b := rfl

def rgc (s : Fin E → Fin n) (t : Fin E → Fin k) (H : Fin n → Fin p → EReal) (W : Fin p → Fin q → EReal)
    (b : Fin q → EReal) : Fin k → Fin q → EReal :=
  fun d j => lrelu ((∑ c, ((Ideal.ofBits .f32 0x00000000#32
      + ∑ e ∈ Finset.univ.filter (fun e => t e = d), H (s e) c * rs s (s e)) * rs t d) * W c j) + b j)

theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem one_word : Ideal.ofBits .f32 0x3F800000#32 = 1 := by
  simp [Ideal.ofBits, Ideal.ieee, -EReal.coe_mul]; norm_num

theorem quarter_word_real : ∃ x : ℝ, Ideal.ofBits .f32 0x3E800000#32 = (x : EReal) := by
  refine ⟨1 / 4, ?_⟩
  simp [Ideal.ofBits, Ideal.ieee, -EReal.coe_mul]; norm_num

theorem lrelu_real (x : ℝ) : ∃ y : ℝ, lrelu (x : EReal) = (y : EReal) := by
  obtain ⟨c, hc⟩ := quarter_word_real
  unfold lrelu Scalar.select
  split
  · exact ⟨x, rfl⟩
  · exact ⟨c * x, by rw [hc, EReal.coe_mul]⟩

theorem deg_eq (f : Fin E → Fin n) (i : Fin n) :
    deg f i = (((Finset.univ.filter (fun e => f e = i)).card : ℝ) : EReal) := by
  unfold deg
  rw [Ideal.ofBits_zero_f32, zero_add, one_word, ← EReal.coe_one,
    ← coe_sum (Finset.univ.filter (fun e => f e = i)) (fun _ => (1 : ℝ)), Finset.sum_const, nsmul_eq_mul, mul_one]

def rgcPre (s : Fin E → Fin n) (t : Fin E → Fin k) (H : Fin n → Fin p → EReal) (W : Fin p → Fin q → EReal)
    (b : Fin q → EReal) : Fin k → Fin q → EReal :=
  fun d j => (∑ c, ((Ideal.ofBits .f32 0x00000000#32
      + ∑ e ∈ Finset.univ.filter (fun e => t e = d), H (s e) c * rs s (s e)) * rs t d) * W c j) + b j

theorem rgc_eq_lrelu (s : Fin E → Fin n) (t : Fin E → Fin k) (H : Fin n → Fin p → EReal) (W : Fin p → Fin q → EReal)
    (b : Fin q → EReal) (d : Fin k) (j : Fin q) : rgc s t H W b d j = lrelu (rgcPre s t H W b d j) := rfl

theorem rs_real (f : Fin E → Fin n) (i : Fin n) : ∃ x : ℝ, rs f i = (x : EReal) := by
  unfold rs
  rw [deg_eq, one_word, ← EReal.coe_one, ← EReal.coe_strictMono.monotone.map_max]
  have hr : (1 : ℝ) ≤ max 1 ((Finset.univ.filter (fun e => f e = i)).card : ℝ) := le_max_left _ _
  refine ⟨(Real.sqrt (max 1 ((Finset.univ.filter (fun e => f e = i)).card : ℝ)))⁻¹, ?_⟩
  rw [Ideal.rsqrt_coe, if_neg (by linarith), if_neg (by linarith)]

theorem lin_real {X : Fin n → Fin p → EReal} {W : Fin p → Fin q → EReal} {b : Fin q → EReal}
    (hX : Real2 X) (hW : Real2 W) (hb : Real1 b) : Real2 (lin X W b) := by
  have hX' : ∀ i c, ∃ x : ℝ, X i c = (x : EReal) := hX
  have hW' : ∀ c j, ∃ x : ℝ, W c j = (x : EReal) := hW
  have hb' : ∀ j, ∃ x : ℝ, b j = (x : EReal) := hb
  choose x hx using hX'
  choose w hw using hW'
  choose β hβ using hb'
  intro r j
  refine ⟨(∑ c, x r c * w c j) + β j, ?_⟩
  unfold lin
  simp only [hx, hw, hβ, ← EReal.coe_mul, ← coe_sum, ← EReal.coe_add]

theorem rgc_real (s : Fin E → Fin n) (t : Fin E → Fin k) {H : Fin n → Fin p → EReal} {W : Fin p → Fin q → EReal}
    {b : Fin q → EReal} (hH : Real2 H) (hW : Real2 W) (hb : Real1 b) : Real2 (rgc s t H W b) := by
  have hH' : ∀ i c, ∃ x : ℝ, H i c = (x : EReal) := hH
  have hW' : ∀ c j, ∃ x : ℝ, W c j = (x : EReal) := hW
  have hb' : ∀ j, ∃ x : ℝ, b j = (x : EReal) := hb
  choose h hh using hH'
  choose w hw using hW'
  choose β hβ using hb'
  choose ro hro using rs_real s
  choose ri hri using rs_real t
  intro d j
  have harg : (∑ c, ((Ideal.ofBits .f32 0x00000000#32
        + ∑ e ∈ Finset.univ.filter (fun e => t e = d), H (s e) c * rs s (s e)) * rs t d) * W c j) + b j
      = (((∑ c, ((∑ e ∈ Finset.univ.filter (fun e => t e = d), h (s e) c * ro (s e)) * ri d) * w c j) + β j : ℝ) : EReal) := by
    simp only [hh, hw, hβ, hro, hri, Ideal.ofBits_zero_f32, zero_add, ← EReal.coe_mul, ← coe_sum, ← EReal.coe_add]
  show ∃ x : ℝ, lrelu ((∑ c, ((Ideal.ofBits .f32 0x00000000#32
        + ∑ e ∈ Finset.univ.filter (fun e => t e = d), H (s e) c * rs s (s e)) * rs t d) * W c j) + b j) = (x : EReal)
  rw [harg]
  exact lrelu_real _

theorem real_law (s : Fin E → Fin n) (t : Fin E → Fin k) (h : Fin n → Fin p → ℝ) (w : Fin p → Fin q → ℝ)
    (ri : Fin k → ℝ) (ro : Fin n → ℝ) (d : Fin k) (j : Fin q) :
    ∑ a, (∑ e ∈ Finset.univ.filter (fun e => t e = d ∧ s e = a), ri (t e) * ro (s e)) * ∑ c, h a c * w c j
      = ∑ c, ((∑ e ∈ Finset.univ.filter (fun e => t e = d), h (s e) c * ro (s e)) * ri d) * w c j := by
  have hL : ∀ a, (∑ e ∈ Finset.univ.filter (fun e => t e = d ∧ s e = a), ri (t e) * ro (s e)) * ∑ c, h a c * w c j
      = ∑ e ∈ (Finset.univ.filter (fun e => t e = d)).filter (fun e => s e = a),
          ri d * ro (s e) * ∑ c, h (s e) c * w c j := by
    intro a
    rw [Finset.filter_filter, Finset.sum_mul]
    refine Finset.sum_congr rfl fun e he => ?_
    obtain ⟨hd, ha⟩ := (Finset.mem_filter.mp he).2
    rw [hd, ha]
  rw [Finset.sum_congr rfl fun a _ => hL a, Finset.sum_fiberwise]
  simp only [Finset.sum_mul]
  conv_rhs => rw [Finset.sum_comm]
  refine Finset.sum_congr rfl fun e _ => ?_
  rw [Finset.mul_sum]
  refine Finset.sum_congr rfl fun c _ => ?_
  ring

theorem kgc_eq_rgc (s : Fin E → Fin n) (t : Fin E → Fin k) {H : Fin n → Fin p → EReal} {W : Fin p → Fin q → EReal}
    (b : Fin q → EReal) (hH : Real2 H) (hW : Real2 W) : kgc (adj s t) H W b = rgc s t H W b := by
  have hH' : ∀ i c, ∃ x : ℝ, H i c = (x : EReal) := hH
  have hW' : ∀ c j, ∃ x : ℝ, W c j = (x : EReal) := hW
  choose h hh using hH'
  choose w hw using hW'
  choose ro hro using rs_real s
  choose ri hri using rs_real t
  funext d j
  show lrelu ((∑ a, (Ideal.ofBits .f32 0x00000000#32
        + ∑ e ∈ Finset.univ.filter (fun e => t e = d ∧ s e = a), rs t (t e) * rs s (s e)) * ∑ c, H a c * W c j) + b j)
    = lrelu ((∑ c, ((Ideal.ofBits .f32 0x00000000#32
        + ∑ e ∈ Finset.univ.filter (fun e => t e = d), H (s e) c * rs s (s e)) * rs t d) * W c j) + b j)
  refine congrArg (fun z => lrelu (z + b j)) ?_
  simp only [hh, hw, hro, hri, Ideal.ofBits_zero_f32, zero_add, ← EReal.coe_mul, ← coe_sum]
  exact congrArg _ (real_law s t h w ri ro d j)

end GCN

end
-- ==== Proof.Chain.lean ====
import proofs.«426696_j34600256537155_2_alg».proof.Proof.Spec
import Idealize.ShloMosaic.Lib.ValueIdx

noncomputable section

namespace GCN

structure Inp where
  xs : Fin 10000 → Fin 2000 → EReal
  xg : Fin 20000 → Fin 500 → EReal
  ssg : Fin 1000000 → Fin 10000
  tsg : Fin 1000000 → Fin 20000
  sgs : Fin 1000000 → Fin 20000
  tgs : Fin 1000000 → Fin 10000
  l1W : Fin 2000 → Fin 256 → EReal
  l1b : Fin 256 → EReal
  l2W : Fin 500 → Fin 256 → EReal
  l2b : Fin 256 → EReal
  W1sg : Fin 256 → Fin 256 → EReal
  b1sg : Fin 256 → EReal
  W1gs : Fin 256 → Fin 256 → EReal
  b1gs : Fin 256 → EReal
  W2sg : Fin 256 → Fin 128 → EReal
  b2sg : Fin 128 → EReal
  W2gs : Fin 256 → Fin 128 → EReal
  b2gs : Fin 128 → EReal
  W3sg : Fin 128 → Fin 64 → EReal
  b3sg : Fin 64 → EReal
  W3gs : Fin 128 → Fin 64 → EReal
  b3gs : Fin 64 → EReal

structure Inp.Real (I : Inp) : Prop where
  xs : Real2 I.xs
  xg : Real2 I.xg
  l1W : Real2 I.l1W
  l1b : Real1 I.l1b
  l2W : Real2 I.l2W
  l2b : Real1 I.l2b
  W1sg : Real2 I.W1sg
  b1sg : Real1 I.b1sg
  W1gs : Real2 I.W1gs
  b1gs : Real1 I.b1gs
  W2sg : Real2 I.W2sg
  b2sg : Real1 I.b2sg
  W2gs : Real2 I.W2gs
  b2gs : Real1 I.b2gs
  W3sg : Real2 I.W3sg
  b3sg : Real1 I.b3sg
  W3gs : Real2 I.W3gs
  b3gs : Real1 I.b3gs

def Inp.ofArrays (ssg : Fin 1000000 → Fin 10000) (tsg : Fin 1000000 → Fin 20000) (sgs : Fin 1000000 → Fin 20000)
    (tgs : Fin 1000000 → Fin 10000)
    (a0 : (⟨2, ![10000, 2000]⟩ : Idealize.ShloMosaic.Shape).Idx → EReal) (a1 : (⟨2, ![20000, 500]⟩ : Idealize.ShloMosaic.Shape).Idx → EReal)
    (a6 : (⟨2, ![2000, 256]⟩ : Idealize.ShloMosaic.Shape).Idx → EReal) (a7 : (⟨1, ![256]⟩ : Idealize.ShloMosaic.Shape).Idx → EReal)
    (a8 : (⟨2, ![500, 256]⟩ : Idealize.ShloMosaic.Shape).Idx → EReal) (a9 : (⟨1, ![256]⟩ : Idealize.ShloMosaic.Shape).Idx → EReal)
    (a10 : (⟨2, ![256, 256]⟩ : Idealize.ShloMosaic.Shape).Idx → EReal) (a11 : (⟨1, ![256]⟩ : Idealize.ShloMosaic.Shape).Idx → EReal)
    (a12 : (⟨2, ![256, 256]⟩ : Idealize.ShloMosaic.Shape).Idx → EReal) (a13 : (⟨1, ![256]⟩ : Idealize.ShloMosaic.Shape).Idx → EReal)
    (a14 : (⟨2, ![256, 128]⟩ : Idealize.ShloMosaic.Shape).Idx → EReal) (a15 : (⟨1, ![128]⟩ : Idealize.ShloMosaic.Shape).Idx → EReal)
    (a16 : (⟨2, ![256, 128]⟩ : Idealize.ShloMosaic.Shape).Idx → EReal) (a17 : (⟨1, ![128]⟩ : Idealize.ShloMosaic.Shape).Idx → EReal)
    (a18 : (⟨2, ![128, 64]⟩ : Idealize.ShloMosaic.Shape).Idx → EReal) (a19 : (⟨1, ![64]⟩ : Idealize.ShloMosaic.Shape).Idx → EReal)
    (a20 : (⟨2, ![128, 64]⟩ : Idealize.ShloMosaic.Shape).Idx → EReal) (a21 : (⟨1, ![64]⟩ : Idealize.ShloMosaic.Shape).Idx → EReal) : Inp where
  xs := fun r c => a0 (Idealize.ShloMosaic.ValueIdx.ix2 r c)
  xg := fun r c => a1 (Idealize.ShloMosaic.ValueIdx.ix2 r c)
  ssg := ssg
  tsg := tsg
  sgs := sgs
  tgs := tgs
  l1W := fun r c => a6 (Idealize.ShloMosaic.ValueIdx.ix2 r c)
  l1b := fun j => a7 (Idealize.ShloMosaic.ValueIdx.ix1 j)
  l2W := fun r c => a8 (Idealize.ShloMosaic.ValueIdx.ix2 r c)
  l2b := fun j => a9 (Idealize.ShloMosaic.ValueIdx.ix1 j)
  W1sg := fun r c => a10 (Idealize.ShloMosaic.ValueIdx.ix2 r c)
  b1sg := fun j => a11 (Idealize.ShloMosaic.ValueIdx.ix1 j)
  W1gs := fun r c => a12 (Idealize.ShloMosaic.ValueIdx.ix2 r c)
  b1gs := fun j => a13 (Idealize.ShloMosaic.ValueIdx.ix1 j)
  W2sg := fun r c => a14 (Idealize.ShloMosaic.ValueIdx.ix2 r c)
  b2sg := fun j => a15 (Idealize.ShloMosaic.ValueIdx.ix1 j)
  W2gs := fun r c => a16 (Idealize.ShloMosaic.ValueIdx.ix2 r c)
  b2gs := fun j => a17 (Idealize.ShloMosaic.ValueIdx.ix1 j)
  W3sg := fun r c => a18 (Idealize.ShloMosaic.ValueIdx.ix2 r c)
  b3sg := fun j => a19 (Idealize.ShloMosaic.ValueIdx.ix1 j)
  W3gs := fun r c => a20 (Idealize.ShloMosaic.ValueIdx.ix2 r c)
  b3gs := fun j => a21 (Idealize.ShloMosaic.ValueIdx.ix1 j)

variable (I : Inp)

def hs0 : Fin 10000 → Fin 256 → EReal := lin I.xs I.l1W I.l1b
def hg0 : Fin 20000 → Fin 256 → EReal := lin I.xg I.l2W I.l2b

def khw_s1 : Fin 10000 → Fin 256 → EReal := mm (hs0 I) I.W1sg
def khw_g1 : Fin 20000 → Fin 256 → EReal := mm (hg0 I) I.W1gs
def khg1 : Fin 20000 → Fin 256 → EReal := agg (adj I.ssg I.tsg) (khw_s1 I) I.b1sg
def khs1 : Fin 10000 → Fin 256 → EReal := agg (adj I.sgs I.tgs) (khw_g1 I) I.b1gs
def khw_s2 : Fin 10000 → Fin 128 → EReal := mm (khs1 I) I.W2sg
def khw_g2 : Fin 20000 → Fin 128 → EReal := mm (khg1 I) I.W2gs
def khg2 : Fin 20000 → Fin 128 → EReal := agg (adj I.ssg I.tsg) (khw_s2 I) I.b2sg
def khs2 : Fin 10000 → Fin 128 → EReal := agg (adj I.sgs I.tgs) (khw_g2 I) I.b2gs
def khw_s3 : Fin 10000 → Fin 64 → EReal := mm (khs2 I) I.W3sg
def khw_g3 : Fin 20000 → Fin 64 → EReal := mm (khg2 I) I.W3gs
def khg3 : Fin 20000 → Fin 64 → EReal := agg (adj I.ssg I.tsg) (khw_s3 I) I.b3sg
def khs3 : Fin 10000 → Fin 64 → EReal := agg (adj I.sgs I.tgs) (khw_g3 I) I.b3gs

def rhg1 : Fin 20000 → Fin 256 → EReal := rgc I.ssg I.tsg (hs0 I) I.W1sg I.b1sg
def rhs1 : Fin 10000 → Fin 256 → EReal := rgc I.sgs I.tgs (hg0 I) I.W1gs I.b1gs
def rhg2 : Fin 20000 → Fin 128 → EReal := rgc I.ssg I.tsg (rhs1 I) I.W2sg I.b2sg
def rhs2 : Fin 10000 → Fin 128 → EReal := rgc I.sgs I.tgs (rhg1 I) I.W2gs I.b2gs
def rhg3 : Fin 20000 → Fin 64 → EReal := rgc I.ssg I.tsg (rhs2 I) I.W3sg I.b3sg
def rhs3 : Fin 10000 → Fin 64 → EReal := rgc I.sgs I.tgs (rhg2 I) I.W3gs I.b3gs

theorem chain_eq (hI : I.Real) : khs3 I = rhs3 I ∧ khg3 I = rhg3 I := by

  have r0s : Real2 (hs0 I) := lin_real hI.xs hI.l1W hI.l1b
  have r0g : Real2 (hg0 I) := lin_real hI.xg hI.l2W hI.l2b

  have e1g : khg1 I = rhg1 I :=
    (kgc_eq_agg (adj I.ssg I.tsg) (hs0 I) I.W1sg I.b1sg).symm.trans (kgc_eq_rgc I.ssg I.tsg I.b1sg r0s hI.W1sg)
  have e1s : khs1 I = rhs1 I :=
    (kgc_eq_agg (adj I.sgs I.tgs) (hg0 I) I.W1gs I.b1gs).symm.trans (kgc_eq_rgc I.sgs I.tgs I.b1gs r0g hI.W1gs)
  have r1g : Real2 (rhg1 I) := rgc_real I.ssg I.tsg r0s hI.W1sg hI.b1sg
  have r1s : Real2 (rhs1 I) := rgc_real I.sgs I.tgs r0g hI.W1gs hI.b1gs

  have e2g : khg2 I = rhg2 I := by
    show agg (adj I.ssg I.tsg) (mm (khs1 I) I.W2sg) I.b2sg = rgc I.ssg I.tsg (rhs1 I) I.W2sg I.b2sg
    rw [e1s]
    exact (kgc_eq_agg (adj I.ssg I.tsg) (rhs1 I) I.W2sg I.b2sg).symm.trans (kgc_eq_rgc I.ssg I.tsg I.b2sg r1s hI.W2sg)
  have e2s : khs2 I = rhs2 I := by
    show agg (adj I.sgs I.tgs) (mm (khg1 I) I.W2gs) I.b2gs = rgc I.sgs I.tgs (rhg1 I) I.W2gs I.b2gs
    rw [e1g]
    exact (kgc_eq_agg (adj I.sgs I.tgs) (rhg1 I) I.W2gs I.b2gs).symm.trans (kgc_eq_rgc I.sgs I.tgs I.b2gs r1g hI.W2gs)
  have r2g : Real2 (rhg2 I) := rgc_real I.ssg I.tsg r1s hI.W2sg hI.b2sg
  have r2s : Real2 (rhs2 I) := rgc_real I.sgs I.tgs r1g hI.W2gs hI.b2gs

  have e3g : khg3 I = rhg3 I := by
    show agg (adj I.ssg I.tsg) (mm (khs2 I) I.W3sg) I.b3sg = rgc I.ssg I.tsg (rhs2 I) I.W3sg I.b3sg
    rw [e2s]
    exact (kgc_eq_agg (adj I.ssg I.tsg) (rhs2 I) I.W3sg I.b3sg).symm.trans (kgc_eq_rgc I.ssg I.tsg I.b3sg r2s hI.W3sg)
  have e3s : khs3 I = rhs3 I := by
    show agg (adj I.sgs I.tgs) (mm (khg2 I) I.W3gs) I.b3gs = rgc I.sgs I.tgs (rhg2 I) I.W3gs I.b3gs
    rw [e2g]
    exact (kgc_eq_agg (adj I.sgs I.tgs) (rhg2 I) I.W3gs I.b3gs).symm.trans (kgc_eq_rgc I.sgs I.tgs I.b3gs r2g hI.W3gs)
  exact ⟨e3s, e3g⟩

end GCN

end
-- ==== Proof.KLib.lean ====
import proofs.«426696_j34600256537155_2_alg».proof.Proof.Spec
import Idealize.ShloMosaic.Lib.StackMember
import Idealize.ShloMosaic.Lib.ValueLayout

noncomputable section

open scoped BigOperators

namespace GCN

open Idealize.ShloMosaic Idealize.ShloMosaic.ValueIdx

/-- A matrix product accumulated from zero, read at an index: the sum over the contracted coordinate. -/
theorem mm_zero_apply {M K N : ℕ} {φ₁ φ₂ : FTy} (x0 : FVec Ideal ⟨2, ![M, K]⟩ φ₁) (x1 : FVec Ideal ⟨2, ![K, N]⟩ φ₂)
    (p : Fin M) (q : Fin N) :
    matmul (DotDims.plain M K N) none x0 x1 (constant (F := Ideal) ⟨2, ![M, N]⟩ .f32 0x00000000#32) (ix2 p q)
      = ∑ k : Fin K, x0 (ix2 p k) * x1 (ix2 k q) := by
  rw [matmul_zero_eq_dotGeneral]
  exact StackMember.dotGeneral_plain_apply none x0 x1 p q

/-- The comparison with zero, the product by a quarter and the choice between the two are the rectifier. -/
theorem lrelu_spelt (z : EReal) :
    Scalar.select (FloatOps.cmpf (F := Ideal) (φ := .f32) .oge z (FloatOps.ofBits (F := Ideal) .f32 0x00000000#32)) z
      ((FloatOps.ofBits (F := Ideal) .f32 0x3E800000#32 : EReal) * z) = lrelu z := rfl

theorem hz2 : (![0, 0] : Fin 2 → ℕ) = fun _ => 0 := funext fun a => by fin_cases a <;> rfl

/-- An index of a rank-2 shape is named by its two coordinates' values. -/
theorem ix2_of_val {n0 n1 : ℕ} (i : (⟨2, ![n0, n1]⟩ : Shape).Idx) (a : Fin n0) (b : Fin n1)
    (h0 : (i 0).val = a.val) (h1 : (i 1).val = b.val) : i = ix2 a b := by
  funext d; apply Fin.ext
  match d with
  | ⟨0, _⟩ => exact h0
  | ⟨1, _⟩ => exact h1

end GCN

end
-- ==== Proof.KReg0.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's value at an index of its block: the rows of the features against the weight, plus the bias. -/
theorem reg0_pay (x0 : Vec Ideal S1000x2000 .bf16) (x1 : Vec Ideal S2000x256 .bf16) (x2 : Vec Ideal S1x256 .f32)
    (p : Fin 1000) (q : Fin 256) :
    (k0_pay1 (F := Ideal) x0 x1 x2 : S1000x256.Idx → EReal) (ix2 p q)
      = ((∑ k : Fin 2000, x0 (ix2 p k) * x1 (ix2 k q)) + x2 (ix2 (0 : Fin 1) q)) := by
  unfold k0_pay1
  simp only [shapeCast_self, truncf_apply, select_apply, cmpf_apply, mulf_apply, addf_apply, broadcast_apply]
  rw [broadcastTo_1b_ab_apply x2 broadcasts_S1x256_S1000x256 p q,
    show matmul dot_S1000x2000_S2000x256_S1000x256_1_0_0_1_n_n none x0 x1 (constant (F := Ideal) S1000x256 .f32 0x00000000#32) (ix2 p q)
      = ∑ k : Fin 2000, x0 (ix2 p k) * x1 (ix2 k q) from GCN.mm_zero_apply x0 x1 p q]

/-- What the region leaves in its result array, index by index. -/
def reg0_G (c : Dev nD) : S10000x256.Idx → EReal :=
  fun i => GCN.lin (fun r k => V c main_v84 (ix2 r k)) (fun k j => V c main_v85 (ix2 k j)) (fun j => V c main_v86 (ix2 (0 : Fin 1) j)) (i 0) (i 1)

/-- A grid point's block of the body's values is its block of rows of the result. -/
theorem reg0_block (c : Dev nD) (t : Fin cfg0.N) (y : S1000x256.Idx) :
    (k0_pay1 (F := Ideal) (iblk0 V c 0 t) (iblk0 V c 1 t) (iblk0 V c 2 t) : S1000x256.Idx → EReal) y
      = reg0_G V c (((cfg0.win 3).blk t).view.emb y) := by
  obtain ⟨e0, e1, e2, e3, e4, e5, e6, e7⟩ := reg0_idx t
  obtain ⟨p, q, rfl⟩ : ∃ (p : Fin 1000) (q : Fin 256), y = ix2 p q := ⟨y 0, y 1, eq_ix2 y⟩
  refine (reg0_pay (iblk0 V c 0 t) (iblk0 V c 1 t) (iblk0 V c 2 t) p q).trans ?_
  simp only [reg0_G, GCN.lin]
  refine congrArg₂ (· + ·) (Finset.sum_congr rfl fun k _ =>
    congrArg₂ (· * ·) (congrArg (V c main_v84) ?_) (congrArg (V c main_v85) ?_)) (congrArg (V c main_v86) ?_)
  · refine GCN.ix2_of_val _ _ _ ?_ ?_
    · show win0_0.index t (0 : Fin 2) * 1000 + 1 * p.val = win0_3.index t (0 : Fin 2) * 1000 + 1 * p.val; omega
    · show win0_0.index t (1 : Fin 2) * 2000 + 1 * k.val = k.val; omega
  · refine GCN.ix2_of_val _ _ _ ?_ ?_
    · show win0_1.index t (0 : Fin 2) * 2000 + 1 * k.val = k.val; omega
    · show win0_1.index t (1 : Fin 2) * 256 + 1 * q.val = win0_3.index t (1 : Fin 2) * 256 + 1 * q.val; omega
  · refine GCN.ix2_of_val _ _ _ ?_ ?_
    · show win0_2.index t (0 : Fin 2) * 1 + 1 * 0 = 0; omega
    · show win0_2.index t (1 : Fin 2) * 256 + 1 * q.val = win0_3.index t (1 : Fin 2) * 256 + 1 * q.val; omega

/-- A block read off an array is the array at the block's own indices. -/
theorem reg0_read (G : S10000x256.Idx → EReal) (t : Fin cfg0.N) (y : ((cfg0.win 3).xblock (grid0.coords t)).Idx) :
    ((cfg0.win 3).blk t).view.read (Elt Ideal) G y = G (((cfg0.win 3).blk t).view.emb y) := rfl

theorem reg0_flushed (c : Dev nD) (t : Fin cfg0.N) :
    (dat0 V c).flushed 3 t = ((cfg0.win 3).blk t).view.read (Elt Ideal) (reg0_G V c) := by
  show (cfg0.win 3).cut (grid0.coords t) ((dat0 V c).after 3 t) = _
  rw [after0_3]
  unfold out0_3
  rw [View.canon_unit_zero GCN.hz2]
  simp only [View.ld_unit_zero (S := S1000x2000) GCN.hz2, View.ld_unit_zero (S := S2000x256) GCN.hz2,
    View.ld_unit_zero (S := S1x256) GCN.hz2]
  funext y
  exact (reg0_block V c t ((cfg0.win 3).xinj (grid0.coords t) y)).trans (reg0_read (reg0_G V c) t y).symm

/-- Row `r` lies in the block of grid point `r / 1000`, so the result array ends holding the region's function there. -/
theorem reg0_val (c : Dev nD) (d : Fin 10000) (j : Fin 256) :
    (Gen.dat0 V c).arrAt 3 cfg0.N (ix2 d j)
      = GCN.lin (fun d a => V c main_v84 (ix2 d a)) (fun a j => V c main_v85 (ix2 a j))
          (fun j => V c main_v86 (ix2 (0 : Fin 1) j)) d j := by
  have hd := d.isLt
  obtain ⟨t, ht⟩ : ∃ t : Fin cfg0.N, t.val = d.val / 1000 := ⟨⟨d.val / 1000, by rw [show cfg0.N = 10 from N_0]; omega⟩, rfl⟩
  obtain ⟨-, -, -, -, -, -, e6, e7⟩ := reg0_idx t
  obtain ⟨y, hy⟩ : ∃ y : S1000x256.Idx, ((cfg0.win 3).blk t).view.emb y = (ix2 d j : S10000x256.Idx) :=
    ⟨ix2 ⟨d.val % 1000, Nat.mod_lt _ (by decide)⟩ j, GCN.ix2_of_val _ _ _
      (by show win0_3.index t (0 : Fin 2) * 1000 + 1 * (d.val % 1000) = d.val; omega)
      (by show win0_3.index t (1 : Fin 2) * 256 + 1 * j.val = j.val; omega)⟩
  have h := (dat0 V c).arrAt_apply_of_mem 3 (reg0_G V c) (fun t _ => reg0_flushed V c t) cfg0.N t _ t.isLt (flush0_3 t)
    (((cfg0.win 3).blk t).view.emb_mem_set y)
  rw [hy] at h
  exact h

end Cert.KernelIdeal.Val

end
-- ==== Proof.KReg1.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's value at an index of its block: the rows of the features against the weight, plus the bias. -/
theorem reg1_pay (x0 : Vec Ideal S2000x500 .bf16) (x1 : Vec Ideal S500x256 .bf16) (x2 : Vec Ideal S1x256 .f32)
    (p : Fin 2000) (q : Fin 256) :
    (k1_pay1 (F := Ideal) x0 x1 x2 : S2000x256.Idx → EReal) (ix2 p q)
      = ((∑ k : Fin 500, x0 (ix2 p k) * x1 (ix2 k q)) + x2 (ix2 (0 : Fin 1) q)) := by
  unfold k1_pay1
  simp only [shapeCast_self, truncf_apply, select_apply, cmpf_apply, mulf_apply, addf_apply, broadcast_apply]
  rw [broadcastTo_1b_ab_apply x2 broadcasts_S1x256_S2000x256 p q,
    show matmul dot_S2000x500_S500x256_S2000x256_1_0_0_1_n_n none x0 x1 (constant (F := Ideal) S2000x256 .f32 0x00000000#32) (ix2 p q)
      = ∑ k : Fin 500, x0 (ix2 p k) * x1 (ix2 k q) from GCN.mm_zero_apply x0 x1 p q]

/-- What the region leaves in its result array, index by index. -/
def reg1_G (c : Dev nD) : S20000x256.Idx → EReal :=
  fun i => GCN.lin (fun r k => V c main_v88 (ix2 r k)) (fun k j => V c main_v89 (ix2 k j)) (fun j => V c main_v90 (ix2 (0 : Fin 1) j)) (i 0) (i 1)

/-- A grid point's block of the body's values is its block of rows of the result. -/
theorem reg1_block (c : Dev nD) (t : Fin cfg1.N) (y : S2000x256.Idx) :
    (k1_pay1 (F := Ideal) (iblk1 V c 0 t) (iblk1 V c 1 t) (iblk1 V c 2 t) : S2000x256.Idx → EReal) y
      = reg1_G V c (((cfg1.win 3).blk t).view.emb y) := by
  obtain ⟨e0, e1, e2, e3, e4, e5, e6, e7⟩ := reg1_idx t
  obtain ⟨p, q, rfl⟩ : ∃ (p : Fin 2000) (q : Fin 256), y = ix2 p q := ⟨y 0, y 1, eq_ix2 y⟩
  refine (reg1_pay (iblk1 V c 0 t) (iblk1 V c 1 t) (iblk1 V c 2 t) p q).trans ?_
  simp only [reg1_G, GCN.lin]
  refine congrArg₂ (· + ·) (Finset.sum_congr rfl fun k _ =>
    congrArg₂ (· * ·) (congrArg (V c main_v88) ?_) (congrArg (V c main_v89) ?_)) (congrArg (V c main_v90) ?_)
  · refine GCN.ix2_of_val _ _ _ ?_ ?_
    · show win1_0.index t (0 : Fin 2) * 2000 + 1 * p.val = win1_3.index t (0 : Fin 2) * 2000 + 1 * p.val; omega
    · show win1_0.index t (1 : Fin 2) * 500 + 1 * k.val = k.val; omega
  · refine GCN.ix2_of_val _ _ _ ?_ ?_
    · show win1_1.index t (0 : Fin 2) * 500 + 1 * k.val = k.val; omega
    · show win1_1.index t (1 : Fin 2) * 256 + 1 * q.val = win1_3.index t (1 : Fin 2) * 256 + 1 * q.val; omega
  · refine GCN.ix2_of_val _ _ _ ?_ ?_
    · show win1_2.index t (0 : Fin 2) * 1 + 1 * 0 = 0; omega
    · show win1_2.index t (1 : Fin 2) * 256 + 1 * q.val = win1_3.index t (1 : Fin 2) * 256 + 1 * q.val; omega

/-- A block read off an array is the array at the block's own indices. -/
theorem reg1_read (G : S20000x256.Idx → EReal) (t : Fin cfg1.N) (y : ((cfg1.win 3).xblock (grid1.coords t)).Idx) :
    ((cfg1.win 3).blk t).view.read (Elt Ideal) G y = G (((cfg1.win 3).blk t).view.emb y) := rfl

theorem reg1_flushed (c : Dev nD) (t : Fin cfg1.N) :
    (dat1 V c).flushed 3 t = ((cfg1.win 3).blk t).view.read (Elt Ideal) (reg1_G V c) := by
  show (cfg1.win 3).cut (grid1.coords t) ((dat1 V c).after 3 t) = _
  rw [after1_3]
  unfold out1_3
  rw [View.canon_unit_zero GCN.hz2]
  simp only [View.ld_unit_zero (S := S2000x500) GCN.hz2, View.ld_unit_zero (S := S500x256) GCN.hz2,
    View.ld_unit_zero (S := S1x256) GCN.hz2]
  funext y
  exact (reg1_block V c t ((cfg1.win 3).xinj (grid1.coords t) y)).trans (reg1_read (reg1_G V c) t y).symm

/-- Row `r` lies in the block of grid point `r / 2000`, so the result array ends holding the region's function there. -/
theorem reg1_val (c : Dev nD) (d : Fin 20000) (j : Fin 256) :
    (Gen.dat1 V c).arrAt 3 cfg1.N (ix2 d j)
      = GCN.lin (fun d a => V c main_v88 (ix2 d a)) (fun a j => V c main_v89 (ix2 a j))
          (fun j => V c main_v90 (ix2 (0 : Fin 1) j)) d j := by
  have hd := d.isLt
  obtain ⟨t, ht⟩ : ∃ t : Fin cfg1.N, t.val = d.val / 2000 := ⟨⟨d.val / 2000, by rw [show cfg1.N = 10 from N_1]; omega⟩, rfl⟩
  obtain ⟨-, -, -, -, -, -, e6, e7⟩ := reg1_idx t
  obtain ⟨y, hy⟩ : ∃ y : S2000x256.Idx, ((cfg1.win 3).blk t).view.emb y = (ix2 d j : S20000x256.Idx) :=
    ⟨ix2 ⟨d.val % 2000, Nat.mod_lt _ (by decide)⟩ j, GCN.ix2_of_val _ _ _
      (by show win1_3.index t (0 : Fin 2) * 2000 + 1 * (d.val % 2000) = d.val; omega)
      (by show win1_3.index t (1 : Fin 2) * 256 + 1 * j.val = j.val; omega)⟩
  have h := (dat1 V c).arrAt_apply_of_mem 3 (reg1_G V c) (fun t _ => reg1_flushed V c t) cfg1.N t _ t.isLt (flush1_3 t)
    (((cfg1.win 3).blk t).view.emb_mem_set y)
  rw [hy] at h
  exact h

end Cert.KernelIdeal.Val

end
-- ==== Proof.KReg2.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The product of the region's two entry arrays, index by index. -/
def reg2_G (c : Dev nD) : S10000x256.Idx → EReal :=
  fun i => GCN.mm (fun r k => V c main_v87 (ix2 r k)) (fun k j => V c main_v92 (ix2 k j)) (i 0) (i 1)

/-- A grid point's block of rows of the left operand against the whole weight is its block of rows of the product. -/
theorem reg2_block (c : Dev nD) (t : Fin cfg2.N) (y : S2000x256.Idx) :
    (k2_pay1 (F := Ideal) (iblk2 V c 0 t) (iblk2 V c 1 t) : S2000x256.Idx → EReal) y
      = reg2_G V c (((cfg2.win 2).blk t).view.emb y) := by
  obtain ⟨e0, e1, e2, e3, e4, e5⟩ := reg2_idx t
  obtain ⟨p, q, rfl⟩ : ∃ (p : Fin 2000) (q : Fin 256), y = ix2 p q := ⟨y 0, y 1, eq_ix2 y⟩
  unfold k2_pay1
  rw [truncf_apply]
  simp only [shapeCast_self]
  refine (GCN.mm_zero_apply (M := 2000) (K := 256) (N := 256) (φ₁ := .bf16) (φ₂ := .bf16) (iblk2 V c 0 t) (iblk2 V c 1 t) p q).trans ?_
  simp only [reg2_G, GCN.mm]
  refine Finset.sum_congr rfl fun k _ => congrArg₂ (· * ·) (congrArg (V c main_v87) ?_) (congrArg (V c main_v92) ?_)
  · refine GCN.ix2_of_val _ _ _ ?_ ?_
    · show win2_0.index t (0 : Fin 2) * 2000 + 1 * p.val = win2_2.index t (0 : Fin 2) * 2000 + 1 * p.val; omega
    · show win2_0.index t (1 : Fin 2) * 256 + 1 * k.val = k.val; omega
  · refine GCN.ix2_of_val _ _ _ ?_ ?_
    · show win2_1.index t (0 : Fin 2) * 256 + 1 * k.val = k.val; omega
    · show win2_1.index t (1 : Fin 2) * 256 + 1 * q.val = win2_2.index t (1 : Fin 2) * 256 + 1 * q.val; omega

theorem reg2_flushed (c : Dev nD) (t : Fin cfg2.N) :
    (dat2 V c).flushed 2 t = ((cfg2.win 2).blk t).view.read (Elt Ideal) (reg2_G V c) := by
  show (cfg2.win 2).cut (grid2.coords t) ((dat2 V c).after 2 t) = _
  rw [after2_2]
  unfold out2_2
  rw [View.canon_unit_zero GCN.hz2]
  simp only [View.ld_unit_zero (S := S2000x256) GCN.hz2, View.ld_unit_zero (S := S256x256) GCN.hz2]
  exact funext (reg2_block V c t)

/-- Row `r` lies in the block of grid point `r / 2000`, so the result array ends holding the product there. -/
theorem reg2_val (c : Dev nD) (r : Fin 10000) (j : Fin 256) :
    (Gen.dat2 V c).arrAt 2 cfg2.N (ix2 r j)
      = GCN.mm (fun r c' => V c main_v87 (ix2 r c')) (fun c' j => V c main_v92 (ix2 c' j)) r j := by
  have hr := r.isLt
  obtain ⟨t, ht⟩ : ∃ t : Fin cfg2.N, t.val = r.val / 2000 := ⟨⟨r.val / 2000, by rw [show cfg2.N = 5 from N_2]; omega⟩, rfl⟩
  obtain ⟨-, -, -, -, e4, e5⟩ := reg2_idx t
  obtain ⟨y, hy⟩ : ∃ y : S2000x256.Idx, ((cfg2.win 2).blk t).view.emb y = (ix2 r j : S10000x256.Idx) :=
    ⟨ix2 ⟨r.val % 2000, Nat.mod_lt _ (by decide)⟩ j, GCN.ix2_of_val _ _ _
      (by show win2_2.index t (0 : Fin 2) * 2000 + 1 * (r.val % 2000) = r.val; omega)
      (by show win2_2.index t (1 : Fin 2) * 256 + 1 * j.val = j.val; omega)⟩
  have h := (dat2 V c).arrAt_apply_of_mem 2 (reg2_G V c) (fun t _ => reg2_flushed V c t) cfg2.N t _ t.isLt (flush2_2 t)
    (((cfg2.win 2).blk t).view.emb_mem_set y)
  rw [hy] at h
  exact h

end Cert.KernelIdeal.Val

end
-- ==== Proof.KReg3.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg3_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The product of the region's two entry arrays, index by index. -/
def reg3_G (c : Dev nD) : S20000x256.Idx → EReal :=
  fun i => GCN.mm (fun r k => V c main_v91 (ix2 r k)) (fun k j => V c main_v94 (ix2 k j)) (i 0) (i 1)

/-- A grid point's block of rows of the left operand against the whole weight is its block of rows of the product. -/
theorem reg3_block (c : Dev nD) (t : Fin cfg3.N) (y : S2000x256.Idx) :
    (k3_pay1 (F := Ideal) (iblk3 V c 0 t) (iblk3 V c 1 t) : S2000x256.Idx → EReal) y
      = reg3_G V c (((cfg3.win 2).blk t).view.emb y) := by
  obtain ⟨e0, e1, e2, e3, e4, e5⟩ := reg3_idx t
  obtain ⟨p, q, rfl⟩ : ∃ (p : Fin 2000) (q : Fin 256), y = ix2 p q := ⟨y 0, y 1, eq_ix2 y⟩
  unfold k3_pay1
  rw [truncf_apply]
  simp only [shapeCast_self]
  refine (GCN.mm_zero_apply (M := 2000) (K := 256) (N := 256) (φ₁ := .bf16) (φ₂ := .bf16) (iblk3 V c 0 t) (iblk3 V c 1 t) p q).trans ?_
  simp only [reg3_G, GCN.mm]
  refine Finset.sum_congr rfl fun k _ => congrArg₂ (· * ·) (congrArg (V c main_v91) ?_) (congrArg (V c main_v94) ?_)
  · refine GCN.ix2_of_val _ _ _ ?_ ?_
    · show win3_0.index t (0 : Fin 2) * 2000 + 1 * p.val = win3_2.index t (0 : Fin 2) * 2000 + 1 * p.val; omega
    · show win3_0.index t (1 : Fin 2) * 256 + 1 * k.val = k.val; omega
  · refine GCN.ix2_of_val _ _ _ ?_ ?_
    · show win3_1.index t (0 : Fin 2) * 256 + 1 * k.val = k.val; omega
    · show win3_1.index t (1 : Fin 2) * 256 + 1 * q.val = win3_2.index t (1 : Fin 2) * 256 + 1 * q.val; omega

theorem reg3_flushed (c : Dev nD) (t : Fin cfg3.N) :
    (dat3 V c).flushed 2 t = ((cfg3.win 2).blk t).view.read (Elt Ideal) (reg3_G V c) := by
  show (cfg3.win 2).cut (grid3.coords t) ((dat3 V c).after 2 t) = _
  rw [after3_2]
  unfold out3_2
  rw [View.canon_unit_zero GCN.hz2]
  simp only [View.ld_unit_zero (S := S2000x256) GCN.hz2, View.ld_unit_zero (S := S256x256) GCN.hz2]
  exact funext (reg3_block V c t)

/-- Row `r` lies in the block of grid point `r / 2000`, so the result array ends holding the product there. -/
theorem reg3_val (c : Dev nD) (r : Fin 20000) (j : Fin 256) :
    (Gen.dat3 V c).arrAt 2 cfg3.N (ix2 r j)
      = GCN.mm (fun r c' => V c main_v91 (ix2 r c')) (fun c' j => V c main_v94 (ix2 c' j)) r j := by
  have hr := r.isLt
  obtain ⟨t, ht⟩ : ∃ t : Fin cfg3.N, t.val = r.val / 2000 := ⟨⟨r.val / 2000, by rw [show cfg3.N = 10 from N_3]; omega⟩, rfl⟩
  obtain ⟨-, -, -, -, e4, e5⟩ := reg3_idx t
  obtain ⟨y, hy⟩ : ∃ y : S2000x256.Idx, ((cfg3.win 2).blk t).view.emb y = (ix2 r j : S20000x256.Idx) :=
    ⟨ix2 ⟨r.val % 2000, Nat.mod_lt _ (by decide)⟩ j, GCN.ix2_of_val _ _ _
      (by show win3_2.index t (0 : Fin 2) * 2000 + 1 * (r.val % 2000) = r.val; omega)
      (by show win3_2.index t (1 : Fin 2) * 256 + 1 * j.val = j.val; omega)⟩
  have h := (dat3 V c).arrAt_apply_of_mem 2 (reg3_G V c) (fun t _ => reg3_flushed V c t) cfg3.N t _ t.isLt (flush3_2 t)
    (((cfg3.win 2).blk t).view.emb_mem_set y)
  rw [hy] at h
  exact h

end Cert.KernelIdeal.Val

end
-- ==== Proof.KReg4.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The body's value at an index of its block: the rectifier of the adjacency's rows against the projected features, plus the bias. -/
theorem reg4_pay (x0 : Vec Ideal S400x10000 .bf16) (x1 : Vec Ideal S10000x256 .bf16) (x2 : Vec Ideal S1x256 .f32)
    (p : Fin 400) (q : Fin 256) :
    (k4_pay1 (F := Ideal) x0 x1 x2 : S400x256.Idx → EReal) (ix2 p q)
      = GCN.lrelu ((∑ k : Fin 10000, x0 (ix2 p k) * x1 (ix2 k q)) + x2 (ix2 (0 : Fin 1) q)) := by
  unfold k4_pay1
  simp only [shapeCast_self, truncf_apply, select_apply, cmpf_apply, mulf_apply, addf_apply, broadcast_apply]
  rw [broadcastTo_1b_ab_apply x2 broadcasts_S1x256_S400x256 p q,
    show matmul dot_S400x10000_S10000x256_S400x256_1_0_0_1_n_n none x0 x1 (constant (F := Ideal) S400x256 .f32 0x00000000#32) (ix2 p q)
      = ∑ k : Fin 10000, x0 (ix2 p k) * x1 (ix2 k q) from GCN.mm_zero_apply x0 x1 p q]
  exact GCN.lrelu_spelt _

/-- What the region leaves in its result array, index by index. -/
def reg4_G (c : Dev nD) : S20000x256.Idx → EReal :=
  fun i => GCN.agg (fun r k => V c main_v41 (ix2 r k)) (fun k j => V c main_v93 (ix2 k j)) (fun j => V c main_v96 (ix2 (0 : Fin 1) j)) (i 0) (i 1)

/-- A grid point's block of the body's values is its block of rows of the result. -/
theorem reg4_block (c : Dev nD) (t : Fin cfg4.N) (y : S400x256.Idx) :
    (k4_pay1 (F := Ideal) (iblk4 V c 0 t) (iblk4 V c 1 t) (iblk4 V c 2 t) : S400x256.Idx → EReal) y
      = reg4_G V c (((cfg4.win 3).blk t).view.emb y) := by
  obtain ⟨e0, e1, e2, e3, e4, e5, e6, e7⟩ := reg4_idx t
  obtain ⟨p, q, rfl⟩ : ∃ (p : Fin 400) (q : Fin 256), y = ix2 p q := ⟨y 0, y 1, eq_ix2 y⟩
  refine (reg4_pay (iblk4 V c 0 t) (iblk4 V c 1 t) (iblk4 V c 2 t) p q).trans ?_
  simp only [reg4_G, GCN.agg]
  refine congrArg GCN.lrelu (congrArg₂ (· + ·) (Finset.sum_congr rfl fun k _ =>
    congrArg₂ (· * ·) (congrArg (V c main_v41) ?_) (congrArg (V c main_v93) ?_)) (congrArg (V c main_v96) ?_))
  · refine GCN.ix2_of_val _ _ _ ?_ ?_
    · show win4_0.index t (0 : Fin 2) * 400 + 1 * p.val = win4_3.index t (0 : Fin 2) * 400 + 1 * p.val; omega
    · show win4_0.index t (1 : Fin 2) * 10000 + 1 * k.val = k.val; omega
  · refine GCN.ix2_of_val _ _ _ ?_ ?_
    · show win4_1.index t (0 : Fin 2) * 10000 + 1 * k.val = k.val; omega
    · show win4_1.index t (1 : Fin 2) * 256 + 1 * q.val = win4_3.index t (1 : Fin 2) * 256 + 1 * q.val; omega
  · refine GCN.ix2_of_val _ _ _ ?_ ?_
    · show win4_2.index t (0 : Fin 2) * 1 + 1 * 0 = 0; omega
    · show win4_2.index t (1 : Fin 2) * 256 + 1 * q.val = win4_3.index t (1 : Fin 2) * 256 + 1 * q.val; omega

/-- A block read off an array is the array at the block's own indices. -/
theorem reg4_read (G : S20000x256.Idx → EReal) (t : Fin cfg4.N) (y : ((cfg4.win 3).xblock (grid4.coords t)).Idx) :
    ((cfg4.win 3).blk t).view.read (Elt Ideal) G y = G (((cfg4.win 3).blk t).view.emb y) := rfl

theorem reg4_flushed (c : Dev nD) (t : Fin cfg4.N) :
    (dat4 V c).flushed 3 t = ((cfg4.win 3).blk t).view.read (Elt Ideal) (reg4_G V c) := by
  show (cfg4.win 3).cut (grid4.coords t) ((dat4 V c).after 3 t) = _
  rw [after4_3]
  unfold out4_3
  rw [View.canon_unit_zero GCN.hz2]
  simp only [View.ld_unit_zero (S := S400x10000) GCN.hz2, View.ld_unit_zero (S := S10000x256) GCN.hz2,
    View.ld_unit_zero (S := S1x256) GCN.hz2]
  funext y
  exact (reg4_block V c t ((cfg4.win 3).xinj (grid4.coords t) y)).trans (reg4_read (reg4_G V c) t y).symm

/-- Row `r` lies in the block of grid point `r / 400`, so the result array ends holding the region's function there. -/
theorem reg4_val (c : Dev nD) (d : Fin 20000) (j : Fin 256) :
    (Gen.dat4 V c).arrAt 3 cfg4.N (ix2 d j)
      = GCN.agg (fun d a => V c main_v41 (ix2 d a)) (fun a j => V c main_v93 (ix2 a j))
          (fun j => V c main_v96 (ix2 (0 : Fin 1) j)) d j := by
  have hd := d.isLt
  obtain ⟨t, ht⟩ : ∃ t : Fin cfg4.N, t.val = d.val / 400 := ⟨⟨d.val / 400, by rw [show cfg4.N = 50 from N_4]; omega⟩, rfl⟩
  obtain ⟨-, -, -, -, -, -, e6, e7⟩ := reg4_idx t
  obtain ⟨y, hy⟩ : ∃ y : S400x256.Idx, ((cfg4.win 3).blk t).view.emb y = (ix2 d j : S20000x256.Idx) :=
    ⟨ix2 ⟨d.val % 400, Nat.mod_lt _ (by decide)⟩ j, GCN.ix2_of_val _ _ _
      (by show win4_3.index t (0 : Fin 2) * 400 + 1 * (d.val % 400) = d.val; omega)
      (by show win4_3.index t (1 : Fin 2) * 256 + 1 * j.val = j.val; omega)⟩
  have h := (dat4 V c).arrAt_apply_of_mem 3 (reg4_G V c) (fun t _ => reg4_flushed V c t) cfg4.N t _ t.isLt (flush4_3 t)
    (((cfg4.win 3).blk t).view.emb_mem_set y)
  rw [hy] at h
  exact h

end Cert.KernelIdeal.Val

end
-- ==== Proof.KReg5.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg5_idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The body's value at an index of its block: the rectifier of the adjacency's rows against the projected features, plus the bias. -/
theorem reg5_pay (x0 : Vec Ideal S200x20000 .bf16) (x1 : Vec Ideal S20000x256 .bf16) (x2 : Vec Ideal S1x256 .f32)
    (p : Fin 200) (q : Fin 256) :
    (k5_pay1 (F := Ideal) x0 x1 x2 : S200x256.Idx → EReal) (ix2 p q)
      = GCN.lrelu ((∑ k : Fin 20000, x0 (ix2 p k) * x1 (ix2 k q)) + x2 (ix2 (0 : Fin 1) q)) := by
  unfold k5_pay1
  simp only [shapeCast_self, truncf_apply, select_apply, cmpf_apply, mulf_apply, addf_apply, broadcast_apply]
  rw [broadcastTo_1b_ab_apply x2 broadcasts_S1x256_S200x256 p q,
    show matmul dot_S200x20000_S20000x256_S200x256_1_0_0_1_n_n none x0 x1 (constant (F := Ideal) S200x256 .f32 0x00000000#32) (ix2 p q)
      = ∑ k : Fin 20000, x0 (ix2 p k) * x1 (ix2 k q) from GCN.mm_zero_apply x0 x1 p q]
  exact GCN.lrelu_spelt _

/-- What the region leaves in its result array, index by index. -/
def reg5_G (c : Dev nD) : S10000x256.Idx → EReal :=
  fun i => GCN.agg (fun r k => V c main_v83 (ix2 r k)) (fun k j => V c main_v95 (ix2 k j)) (fun j => V c main_v98 (ix2 (0 : Fin 1) j)) (i 0) (i 1)

/-- A grid point's block of the body's values is its block of rows of the result. -/
theorem reg5_block (c : Dev nD) (t : Fin cfg5.N) (y : S200x256.Idx) :
    (k5_pay1 (F := Ideal) (iblk5 V c 0 t) (iblk5 V c 1 t) (iblk5 V c 2 t) : S200x256.Idx → EReal) y
      = reg5_G V c (((cfg5.win 3).blk t).view.emb y) := by
  obtain ⟨e0, e1, e2, e3, e4, e5, e6, e7⟩ := reg5_idx t
  obtain ⟨p, q, rfl⟩ : ∃ (p : Fin 200) (q : Fin 256), y = ix2 p q := ⟨y 0, y 1, eq_ix2 y⟩
  refine (reg5_pay (iblk5 V c 0 t) (iblk5 V c 1 t) (iblk5 V c 2 t) p q).trans ?_
  simp only [reg5_G, GCN.agg]
  refine congrArg GCN.lrelu (congrArg₂ (· + ·) (Finset.sum_congr rfl fun k _ =>
    congrArg₂ (· * ·) (congrArg (V c main_v83) ?_) (congrArg (V c main_v95) ?_)) (congrArg (V c main_v98) ?_))
  · refine GCN.ix2_of_val _ _ _ ?_ ?_
    · show win5_0.index t (0 : Fin 2) * 200 + 1 * p.val = win5_3.index t (0 : Fin 2) * 200 + 1 * p.val; omega
    · show win5_0.index t (1 : Fin 2) * 20000 + 1 * k.val = k.val; omega
  · refine GCN.ix2_of_val _ _ _ ?_ ?_
    · show win5_1.index t (0 : Fin 2) * 20000 + 1 * k.val = k.val; omega
    · show win5_1.index t (1 : Fin 2) * 256 + 1 * q.val = win5_3.index t (1 : Fin 2) * 256 + 1 * q.val; omega
  · refine GCN.ix2_of_val _ _ _ ?_ ?_
    · show win5_2.index t (0 : Fin 2) * 1 + 1 * 0 = 0; omega
    · show win5_2.index t (1 : Fin 2) * 256 + 1 * q.val = win5_3.index t (1 : Fin 2) * 256 + 1 * q.val; omega

/-- A block read off an array is the array at the block's own indices. -/
theorem reg5_read (G : S10000x256.Idx → EReal) (t : Fin cfg5.N) (y : ((cfg5.win 3).xblock (grid5.coords t)).Idx) :
    ((cfg5.win 3).blk t).view.read (Elt Ideal) G y = G (((cfg5.win 3).blk t).view.emb y) := rfl

theorem reg5_flushed (c : Dev nD) (t : Fin cfg5.N) :
    (dat5 V c).flushed 3 t = ((cfg5.win 3).blk t).view.read (Elt Ideal) (reg5_G V c) := by
  show (cfg5.win 3).cut (grid5.coords t) ((dat5 V c).after 3 t) = _
  rw [after5_3]
  unfold out5_3
  rw [View.canon_unit_zero GCN.hz2]
  simp only [View.ld_unit_zero (S := S200x20000) GCN.hz2, View.ld_unit_zero (S := S20000x256) GCN.hz2,
    View.ld_unit_zero (S := S1x256) GCN.hz2]
  funext y
  exact (reg5_block V c t ((cfg5.win 3).xinj (grid5.coords t) y)).trans (reg5_read (reg5_G V c) t y).symm

/-- Row `r` lies in the block of grid point `r / 200`, so the result array ends holding the region's function there. -/
theorem reg5_val (c : Dev nD) (d : Fin 10000) (j : Fin 256) :
    (Gen.dat5 V c).arrAt 3 cfg5.N (ix2 d j)
      = GCN.agg (fun d a => V c main_v83 (ix2 d a)) (fun a j => V c main_v95 (ix2 a j))
          (fun j => V c main_v98 (ix2 (0 : Fin 1) j)) d j := by
  have hd := d.isLt
  obtain ⟨t, ht⟩ : ∃ t : Fin cfg5.N, t.val = d.val / 200 := ⟨⟨d.val / 200, by rw [show cfg5.N = 50 from N_5]; omega⟩, rfl⟩
  obtain ⟨-, -, -, -, -, -, e6, e7⟩ := reg5_idx t
  obtain ⟨y, hy⟩ : ∃ y : S200x256.Idx, ((cfg5.win 3).blk t).view.emb y = (ix2 d j : S10000x256.Idx) :=
    ⟨ix2 ⟨d.val % 200, Nat.mod_lt _ (by decide)⟩ j, GCN.ix2_of_val _ _ _
      (by show win5_3.index t (0 : Fin 2) * 200 + 1 * (d.val % 200) = d.val; omega)
      (by show win5_3.index t (1 : Fin 2) * 256 + 1 * j.val = j.val; omega)⟩
  have h := (dat5 V c).arrAt_apply_of_mem 3 (reg5_G V c) (fun t _ => reg5_flushed V c t) cfg5.N t _ t.isLt (flush5_3 t)
    (((cfg5.win 3).blk t).view.emb_mem_set y)
  rw [hy] at h
  exact h

end Cert.KernelIdeal.Val

end
-- ==== Proof.KReg6.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The product of the region's two entry arrays, index by index. -/
def reg6_G (c : Dev nD) : S10000x128.Idx → EReal :=
  fun i => GCN.mm (fun r k => V c main_v99 (ix2 r k)) (fun k j => V c main_v100 (ix2 k j)) (i 0) (i 1)

/-- A grid point's block of rows of the left operand against the whole weight is its block of rows of the product. -/
theorem reg6_block (c : Dev nD) (t : Fin cfg6.N) (y : S2000x128.Idx) :
    (k6_pay1 (F := Ideal) (iblk6 V c 0 t) (iblk6 V c 1 t) : S2000x128.Idx → EReal) y
      = reg6_G V c (((cfg6.win 2).blk t).view.emb y) := by
  obtain ⟨e0, e1, e2, e3, e4, e5⟩ := reg6_idx t
  obtain ⟨p, q, rfl⟩ : ∃ (p : Fin 2000) (q : Fin 128), y = ix2 p q := ⟨y 0, y 1, eq_ix2 y⟩
  unfold k6_pay1
  rw [truncf_apply]
  simp only [shapeCast_self]
  refine (GCN.mm_zero_apply (M := 2000) (K := 256) (N := 128) (φ₁ := .bf16) (φ₂ := .bf16) (iblk6 V c 0 t) (iblk6 V c 1 t) p q).trans ?_
  simp only [reg6_G, GCN.mm]
  refine Finset.sum_congr rfl fun k _ => congrArg₂ (· * ·) (congrArg (V c main_v99) ?_) (congrArg (V c main_v100) ?_)
  · refine GCN.ix2_of_val _ _ _ ?_ ?_
    · show win6_0.index t (0 : Fin 2) * 2000 + 1 * p.val = win6_2.index t (0 : Fin 2) * 2000 + 1 * p.val; omega
    · show win6_0.index t (1 : Fin 2) * 256 + 1 * k.val = k.val; omega
  · refine GCN.ix2_of_val _ _ _ ?_ ?_
    · show win6_1.index t (0 : Fin 2) * 256 + 1 * k.val = k.val; omega
    · show win6_1.index t (1 : Fin 2) * 128 + 1 * q.val = win6_2.index t (1 : Fin 2) * 128 + 1 * q.val; omega

theorem reg6_flushed (c : Dev nD) (t : Fin cfg6.N) :
    (dat6 V c).flushed 2 t = ((cfg6.win 2).blk t).view.read (Elt Ideal) (reg6_G V c) := by
  show (cfg6.win 2).cut (grid6.coords t) ((dat6 V c).after 2 t) = _
  rw [after6_2]
  unfold out6_2
  rw [View.canon_unit_zero GCN.hz2]
  simp only [View.ld_unit_zero (S := S2000x256) GCN.hz2, View.ld_unit_zero (S := S256x128) GCN.hz2]
  exact funext (reg6_block V c t)

/-- Row `r` lies in the block of grid point `r / 2000`, so the result array ends holding the product there. -/
theorem reg6_val (c : Dev nD) (r : Fin 10000) (j : Fin 128) :
    (Gen.dat6 V c).arrAt 2 cfg6.N (ix2 r j)
      = GCN.mm (fun r c' => V c main_v99 (ix2 r c')) (fun c' j => V c main_v100 (ix2 c' j)) r j := by
  have hr := r.isLt
  obtain ⟨t, ht⟩ : ∃ t : Fin cfg6.N, t.val = r.val / 2000 := ⟨⟨r.val / 2000, by rw [show cfg6.N = 5 from N_6]; omega⟩, rfl⟩
  obtain ⟨-, -, -, -, e4, e5⟩ := reg6_idx t
  obtain ⟨y, hy⟩ : ∃ y : S2000x128.Idx, ((cfg6.win 2).blk t).view.emb y = (ix2 r j : S10000x128.Idx) :=
    ⟨ix2 ⟨r.val % 2000, Nat.mod_lt _ (by decide)⟩ j, GCN.ix2_of_val _ _ _
      (by show win6_2.index t (0 : Fin 2) * 2000 + 1 * (r.val % 2000) = r.val; omega)
      (by show win6_2.index t (1 : Fin 2) * 128 + 1 * j.val = j.val; omega)⟩
  have h := (dat6 V c).arrAt_apply_of_mem 2 (reg6_G V c) (fun t _ => reg6_flushed V c t) cfg6.N t _ t.isLt (flush6_2 t)
    (((cfg6.win 2).blk t).view.emb_mem_set y)
  rw [hy] at h
  exact h

end Cert.KernelIdeal.Val

end
-- ==== Proof.KReg7.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg7_idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The product of the region's two entry arrays, index by index. -/
def reg7_G (c : Dev nD) : S20000x128.Idx → EReal :=
  fun i => GCN.mm (fun r k => V c main_v97 (ix2 r k)) (fun k j => V c main_v102 (ix2 k j)) (i 0) (i 1)

/-- A grid point's block of rows of the left operand against the whole weight is its block of rows of the product. -/
theorem reg7_block (c : Dev nD) (t : Fin cfg7.N) (y : S2000x128.Idx) :
    (k7_pay1 (F := Ideal) (iblk7 V c 0 t) (iblk7 V c 1 t) : S2000x128.Idx → EReal) y
      = reg7_G V c (((cfg7.win 2).blk t).view.emb y) := by
  obtain ⟨e0, e1, e2, e3, e4, e5⟩ := reg7_idx t
  obtain ⟨p, q, rfl⟩ : ∃ (p : Fin 2000) (q : Fin 128), y = ix2 p q := ⟨y 0, y 1, eq_ix2 y⟩
  unfold k7_pay1
  rw [truncf_apply]
  simp only [shapeCast_self]
  refine (GCN.mm_zero_apply (M := 2000) (K := 256) (N := 128) (φ₁ := .bf16) (φ₂ := .bf16) (iblk7 V c 0 t) (iblk7 V c 1 t) p q).trans ?_
  simp only [reg7_G, GCN.mm]
  refine Finset.sum_congr rfl fun k _ => congrArg₂ (· * ·) (congrArg (V c main_v97) ?_) (congrArg (V c main_v102) ?_)
  · refine GCN.ix2_of_val _ _ _ ?_ ?_
    · show win7_0.index t (0 : Fin 2) * 2000 + 1 * p.val = win7_2.index t (0 : Fin 2) * 2000 + 1 * p.val; omega
    · show win7_0.index t (1 : Fin 2) * 256 + 1 * k.val = k.val; omega
  · refine GCN.ix2_of_val _ _ _ ?_ ?_
    · show win7_1.index t (0 : Fin 2) * 256 + 1 * k.val = k.val; omega
    · show win7_1.index t (1 : Fin 2) * 128 + 1 * q.val = win7_2.index t (1 : Fin 2) * 128 + 1 * q.val; omega

theorem reg7_flushed (c : Dev nD) (t : Fin cfg7.N) :
    (dat7 V c).flushed 2 t = ((cfg7.win 2).blk t).view.read (Elt Ideal) (reg7_G V c) := by
  show (cfg7.win 2).cut (grid7.coords t) ((dat7 V c).after 2 t) = _
  rw [after7_2]
  unfold out7_2
  rw [View.canon_unit_zero GCN.hz2]
  simp only [View.ld_unit_zero (S := S2000x256) GCN.hz2, View.ld_unit_zero (S := S256x128) GCN.hz2]
  exact funext (reg7_block V c t)

/-- Row `r` lies in the block of grid point `r / 2000`, so the result array ends holding the product there. -/
theorem reg7_val (c : Dev nD) (r : Fin 20000) (j : Fin 128) :
    (Gen.dat7 V c).arrAt 2 cfg7.N (ix2 r j)
      = GCN.mm (fun r c' => V c main_v97 (ix2 r c')) (fun c' j => V c main_v102 (ix2 c' j)) r j := by
  have hr := r.isLt
  obtain ⟨t, ht⟩ : ∃ t : Fin cfg7.N, t.val = r.val / 2000 := ⟨⟨r.val / 2000, by rw [show cfg7.N = 10 from N_7]; omega⟩, rfl⟩
  obtain ⟨-, -, -, -, e4, e5⟩ := reg7_idx t
  obtain ⟨y, hy⟩ : ∃ y : S2000x128.Idx, ((cfg7.win 2).blk t).view.emb y = (ix2 r j : S20000x128.Idx) :=
    ⟨ix2 ⟨r.val % 2000, Nat.mod_lt _ (by decide)⟩ j, GCN.ix2_of_val _ _ _
      (by show win7_2.index t (0 : Fin 2) * 2000 + 1 * (r.val % 2000) = r.val; omega)
      (by show win7_2.index t (1 : Fin 2) * 128 + 1 * j.val = j.val; omega)⟩
  have h := (dat7 V c).arrAt_apply_of_mem 2 (reg7_G V c) (fun t _ => reg7_flushed V c t) cfg7.N t _ t.isLt (flush7_2 t)
    (((cfg7.win 2).blk t).view.emb_mem_set y)
  rw [hy] at h
  exact h

end Cert.KernelIdeal.Val

end
-- ==== Proof.KReg8.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg8_idx : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- The body's value at an index of its block: the rectifier of the adjacency's rows against the projected features, plus the bias. -/
theorem reg8_pay (x0 : Vec Ideal S400x10000 .bf16) (x1 : Vec Ideal S10000x128 .bf16) (x2 : Vec Ideal S1x128 .f32)
    (p : Fin 400) (q : Fin 128) :
    (k8_pay1 (F := Ideal) x0 x1 x2 : S400x128.Idx → EReal) (ix2 p q)
      = GCN.lrelu ((∑ k : Fin 10000, x0 (ix2 p k) * x1 (ix2 k q)) + x2 (ix2 (0 : Fin 1) q)) := by
  unfold k8_pay1
  simp only [shapeCast_self, truncf_apply, select_apply, cmpf_apply, mulf_apply, addf_apply, broadcast_apply]
  rw [broadcastTo_1b_ab_apply x2 broadcasts_S1x128_S400x128 p q,
    show matmul dot_S400x10000_S10000x128_S400x128_1_0_0_1_n_n none x0 x1 (constant (F := Ideal) S400x128 .f32 0x00000000#32) (ix2 p q)
      = ∑ k : Fin 10000, x0 (ix2 p k) * x1 (ix2 k q) from GCN.mm_zero_apply x0 x1 p q]
  exact GCN.lrelu_spelt _

/-- What the region leaves in its result array, index by index. -/
def reg8_G (c : Dev nD) : S20000x128.Idx → EReal :=
  fun i => GCN.agg (fun r k => V c main_v41 (ix2 r k)) (fun k j => V c main_v101 (ix2 k j)) (fun j => V c main_v104 (ix2 (0 : Fin 1) j)) (i 0) (i 1)

/-- A grid point's block of the body's values is its block of rows of the result. -/
theorem reg8_block (c : Dev nD) (t : Fin cfg8.N) (y : S400x128.Idx) :
    (k8_pay1 (F := Ideal) (iblk8 V c 0 t) (iblk8 V c 1 t) (iblk8 V c 2 t) : S400x128.Idx → EReal) y
      = reg8_G V c (((cfg8.win 3).blk t).view.emb y) := by
  obtain ⟨e0, e1, e2, e3, e4, e5, e6, e7⟩ := reg8_idx t
  obtain ⟨p, q, rfl⟩ : ∃ (p : Fin 400) (q : Fin 128), y = ix2 p q := ⟨y 0, y 1, eq_ix2 y⟩
  refine (reg8_pay (iblk8 V c 0 t) (iblk8 V c 1 t) (iblk8 V c 2 t) p q).trans ?_
  simp only [reg8_G, GCN.agg]
  refine congrArg GCN.lrelu (congrArg₂ (· + ·) (Finset.sum_congr rfl fun k _ =>
    congrArg₂ (· * ·) (congrArg (V c main_v41) ?_) (congrArg (V c main_v101) ?_)) (congrArg (V c main_v104) ?_))
  · refine GCN.ix2_of_val _ _ _ ?_ ?_
    · show win8_0.index t (0 : Fin 2) * 400 + 1 * p.val = win8_3.index t (0 : Fin 2) * 400 + 1 * p.val; omega
    · show win8_0.index t (1 : Fin 2) * 10000 + 1 * k.val = k.val; omega
  · refine GCN.ix2_of_val _ _ _ ?_ ?_
    · show win8_1.index t (0 : Fin 2) * 10000 + 1 * k.val = k.val; omega
    · show win8_1.index t (1 : Fin 2) * 128 + 1 * q.val = win8_3.index t (1 : Fin 2) * 128 + 1 * q.val; omega
  · refine GCN.ix2_of_val _ _ _ ?_ ?_
    · show win8_2.index t (0 : Fin 2) * 1 + 1 * 0 = 0; omega
    · show win8_2.index t (1 : Fin 2) * 128 + 1 * q.val = win8_3.index t (1 : Fin 2) * 128 + 1 * q.val; omega

/-- A block read off an array is the array at the block's own indices. -/
theorem reg8_read (G : S20000x128.Idx → EReal) (t : Fin cfg8.N) (y : ((cfg8.win 3).xblock (grid8.coords t)).Idx) :
    ((cfg8.win 3).blk t).view.read (Elt Ideal) G y = G (((cfg8.win 3).blk t).view.emb y) := rfl

theorem reg8_flushed (c : Dev nD) (t : Fin cfg8.N) :
    (dat8 V c).flushed 3 t = ((cfg8.win 3).blk t).view.read (Elt Ideal) (reg8_G V c) := by
  show (cfg8.win 3).cut (grid8.coords t) ((dat8 V c).after 3 t) = _
  rw [after8_3]
  unfold out8_3
  rw [View.canon_unit_zero GCN.hz2]
  simp only [View.ld_unit_zero (S := S400x10000) GCN.hz2, View.ld_unit_zero (S := S10000x128) GCN.hz2,
    View.ld_unit_zero (S := S1x128) GCN.hz2]
  funext y
  exact (reg8_block V c t ((cfg8.win 3).xinj (grid8.coords t) y)).trans (reg8_read (reg8_G V c) t y).symm

/-- Row `r` lies in the block of grid point `r / 400`, so the result array ends holding the region's function there. -/
theorem reg8_val (c : Dev nD) (d : Fin 20000) (j : Fin 128) :
    (Gen.dat8 V c).arrAt 3 cfg8.N (ix2 d j)
      = GCN.agg (fun d a => V c main_v41 (ix2 d a)) (fun a j => V c main_v101 (ix2 a j))
          (fun j => V c main_v104 (ix2 (0 : Fin 1) j)) d j := by
  have hd := d.isLt
  obtain ⟨t, ht⟩ : ∃ t : Fin cfg8.N, t.val = d.val / 400 := ⟨⟨d.val / 400, by rw [show cfg8.N = 50 from N_8]; omega⟩, rfl⟩
  obtain ⟨-, -, -, -, -, -, e6, e7⟩ := reg8_idx t
  obtain ⟨y, hy⟩ : ∃ y : S400x128.Idx, ((cfg8.win 3).blk t).view.emb y = (ix2 d j : S20000x128.Idx) :=
    ⟨ix2 ⟨d.val % 400, Nat.mod_lt _ (by decide)⟩ j, GCN.ix2_of_val _ _ _
      (by show win8_3.index t (0 : Fin 2) * 400 + 1 * (d.val % 400) = d.val; omega)
      (by show win8_3.index t (1 : Fin 2) * 128 + 1 * j.val = j.val; omega)⟩
  have h := (dat8 V c).arrAt_apply_of_mem 3 (reg8_G V c) (fun t _ => reg8_flushed V c t) cfg8.N t _ t.isLt (flush8_3 t)
    (((cfg8.win 3).blk t).view.emb_mem_set y)
  rw [hy] at h
  exact h

end Cert.KernelIdeal.Val

end
-- ==== Proof.KReg9.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg9_idx : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The body's value at an index of its block: the rectifier of the adjacency's rows against the projected features, plus the bias. -/
theorem reg9_pay (x0 : Vec Ideal S400x20000 .bf16) (x1 : Vec Ideal S20000x128 .bf16) (x2 : Vec Ideal S1x128 .f32)
    (p : Fin 400) (q : Fin 128) :
    (k9_pay1 (F := Ideal) x0 x1 x2 : S400x128.Idx → EReal) (ix2 p q)
      = GCN.lrelu ((∑ k : Fin 20000, x0 (ix2 p k) * x1 (ix2 k q)) + x2 (ix2 (0 : Fin 1) q)) := by
  unfold k9_pay1
  simp only [shapeCast_self, truncf_apply, select_apply, cmpf_apply, mulf_apply, addf_apply, broadcast_apply]
  rw [broadcastTo_1b_ab_apply x2 broadcasts_S1x128_S400x128 p q,
    show matmul dot_S400x20000_S20000x128_S400x128_1_0_0_1_n_n none x0 x1 (constant (F := Ideal) S400x128 .f32 0x00000000#32) (ix2 p q)
      = ∑ k : Fin 20000, x0 (ix2 p k) * x1 (ix2 k q) from GCN.mm_zero_apply x0 x1 p q]
  exact GCN.lrelu_spelt _

/-- What the region leaves in its result array, index by index. -/
def reg9_G (c : Dev nD) : S10000x128.Idx → EReal :=
  fun i => GCN.agg (fun r k => V c main_v83 (ix2 r k)) (fun k j => V c main_v103 (ix2 k j)) (fun j => V c main_v106 (ix2 (0 : Fin 1) j)) (i 0) (i 1)

/-- A grid point's block of the body's values is its block of rows of the result. -/
theorem reg9_block (c : Dev nD) (t : Fin cfg9.N) (y : S400x128.Idx) :
    (k9_pay1 (F := Ideal) (iblk9 V c 0 t) (iblk9 V c 1 t) (iblk9 V c 2 t) : S400x128.Idx → EReal) y
      = reg9_G V c (((cfg9.win 3).blk t).view.emb y) := by
  obtain ⟨e0, e1, e2, e3, e4, e5, e6, e7⟩ := reg9_idx t
  obtain ⟨p, q, rfl⟩ : ∃ (p : Fin 400) (q : Fin 128), y = ix2 p q := ⟨y 0, y 1, eq_ix2 y⟩
  refine (reg9_pay (iblk9 V c 0 t) (iblk9 V c 1 t) (iblk9 V c 2 t) p q).trans ?_
  simp only [reg9_G, GCN.agg]
  refine congrArg GCN.lrelu (congrArg₂ (· + ·) (Finset.sum_congr rfl fun k _ =>
    congrArg₂ (· * ·) (congrArg (V c main_v83) ?_) (congrArg (V c main_v103) ?_)) (congrArg (V c main_v106) ?_))
  · refine GCN.ix2_of_val _ _ _ ?_ ?_
    · show win9_0.index t (0 : Fin 2) * 400 + 1 * p.val = win9_3.index t (0 : Fin 2) * 400 + 1 * p.val; omega
    · show win9_0.index t (1 : Fin 2) * 20000 + 1 * k.val = k.val; omega
  · refine GCN.ix2_of_val _ _ _ ?_ ?_
    · show win9_1.index t (0 : Fin 2) * 20000 + 1 * k.val = k.val; omega
    · show win9_1.index t (1 : Fin 2) * 128 + 1 * q.val = win9_3.index t (1 : Fin 2) * 128 + 1 * q.val; omega
  · refine GCN.ix2_of_val _ _ _ ?_ ?_
    · show win9_2.index t (0 : Fin 2) * 1 + 1 * 0 = 0; omega
    · show win9_2.index t (1 : Fin 2) * 128 + 1 * q.val = win9_3.index t (1 : Fin 2) * 128 + 1 * q.val; omega

/-- A block read off an array is the array at the block's own indices. -/
theorem reg9_read (G : S10000x128.Idx → EReal) (t : Fin cfg9.N) (y : ((cfg9.win 3).xblock (grid9.coords t)).Idx) :
    ((cfg9.win 3).blk t).view.read (Elt Ideal) G y = G (((cfg9.win 3).blk t).view.emb y) := rfl

theorem reg9_flushed (c : Dev nD) (t : Fin cfg9.N) :
    (dat9 V c).flushed 3 t = ((cfg9.win 3).blk t).view.read (Elt Ideal) (reg9_G V c) := by
  show (cfg9.win 3).cut (grid9.coords t) ((dat9 V c).after 3 t) = _
  rw [after9_3]
  unfold out9_3
  rw [View.canon_unit_zero GCN.hz2]
  simp only [View.ld_unit_zero (S := S400x20000) GCN.hz2, View.ld_unit_zero (S := S20000x128) GCN.hz2,
    View.ld_unit_zero (S := S1x128) GCN.hz2]
  funext y
  exact (reg9_block V c t ((cfg9.win 3).xinj (grid9.coords t) y)).trans (reg9_read (reg9_G V c) t y).symm

/-- Row `r` lies in the block of grid point `r / 400`, so the result array ends holding the region's function there. -/
theorem reg9_val (c : Dev nD) (d : Fin 10000) (j : Fin 128) :
    (Gen.dat9 V c).arrAt 3 cfg9.N (ix2 d j)
      = GCN.agg (fun d a => V c main_v83 (ix2 d a)) (fun a j => V c main_v103 (ix2 a j))
          (fun j => V c main_v106 (ix2 (0 : Fin 1) j)) d j := by
  have hd := d.isLt
  obtain ⟨t, ht⟩ : ∃ t : Fin cfg9.N, t.val = d.val / 400 := ⟨⟨d.val / 400, by rw [show cfg9.N = 25 from N_9]; omega⟩, rfl⟩
  obtain ⟨-, -, -, -, -, -, e6, e7⟩ := reg9_idx t
  obtain ⟨y, hy⟩ : ∃ y : S400x128.Idx, ((cfg9.win 3).blk t).view.emb y = (ix2 d j : S10000x128.Idx) :=
    ⟨ix2 ⟨d.val % 400, Nat.mod_lt _ (by decide)⟩ j, GCN.ix2_of_val _ _ _
      (by show win9_3.index t (0 : Fin 2) * 400 + 1 * (d.val % 400) = d.val; omega)
      (by show win9_3.index t (1 : Fin 2) * 128 + 1 * j.val = j.val; omega)⟩
  have h := (dat9 V c).arrAt_apply_of_mem 3 (reg9_G V c) (fun t _ => reg9_flushed V c t) cfg9.N t _ t.isLt (flush9_3 t)
    (((cfg9.win 3).blk t).view.emb_mem_set y)
  rw [hy] at h
  exact h

end Cert.KernelIdeal.Val

end
-- ==== Proof.KReg10.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg10_idx : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- The product of the region's two entry arrays, index by index. -/
def reg10_G (c : Dev nD) : S10000x64.Idx → EReal :=
  fun i => GCN.mm (fun r k => V c main_v107 (ix2 r k)) (fun k j => V c main_v108 (ix2 k j)) (i 0) (i 1)

/-- A grid point's block of rows of the left operand against the whole weight is its block of rows of the product. -/
theorem reg10_block (c : Dev nD) (t : Fin cfg10.N) (y : S2000x64.Idx) :
    (k10_pay1 (F := Ideal) (iblk10 V c 0 t) (iblk10 V c 1 t) : S2000x64.Idx → EReal) y
      = reg10_G V c (((cfg10.win 2).blk t).view.emb y) := by
  obtain ⟨e0, e1, e2, e3, e4, e5⟩ := reg10_idx t
  obtain ⟨p, q, rfl⟩ : ∃ (p : Fin 2000) (q : Fin 64), y = ix2 p q := ⟨y 0, y 1, eq_ix2 y⟩
  unfold k10_pay1
  rw [truncf_apply]
  simp only [shapeCast_self]
  refine (GCN.mm_zero_apply (M := 2000) (K := 128) (N := 64) (φ₁ := .bf16) (φ₂ := .bf16) (iblk10 V c 0 t) (iblk10 V c 1 t) p q).trans ?_
  simp only [reg10_G, GCN.mm]
  refine Finset.sum_congr rfl fun k _ => congrArg₂ (· * ·) (congrArg (V c main_v107) ?_) (congrArg (V c main_v108) ?_)
  · refine GCN.ix2_of_val _ _ _ ?_ ?_
    · show win10_0.index t (0 : Fin 2) * 2000 + 1 * p.val = win10_2.index t (0 : Fin 2) * 2000 + 1 * p.val; omega
    · show win10_0.index t (1 : Fin 2) * 128 + 1 * k.val = k.val; omega
  · refine GCN.ix2_of_val _ _ _ ?_ ?_
    · show win10_1.index t (0 : Fin 2) * 128 + 1 * k.val = k.val; omega
    · show win10_1.index t (1 : Fin 2) * 64 + 1 * q.val = win10_2.index t (1 : Fin 2) * 64 + 1 * q.val; omega

theorem reg10_flushed (c : Dev nD) (t : Fin cfg10.N) :
    (dat10 V c).flushed 2 t = ((cfg10.win 2).blk t).view.read (Elt Ideal) (reg10_G V c) := by
  show (cfg10.win 2).cut (grid10.coords t) ((dat10 V c).after 2 t) = _
  rw [after10_2]
  unfold out10_2
  rw [View.canon_unit_zero GCN.hz2]
  simp only [View.ld_unit_zero (S := S2000x128) GCN.hz2, View.ld_unit_zero (S := S128x64) GCN.hz2]
  exact funext (reg10_block V c t)

/-- Row `r` lies in the block of grid point `r / 2000`, so the result array ends holding the product there. -/
theorem reg10_val (c : Dev nD) (r : Fin 10000) (j : Fin 64) :
    (Gen.dat10 V c).arrAt 2 cfg10.N (ix2 r j)
      = GCN.mm (fun r c' => V c main_v107 (ix2 r c')) (fun c' j => V c main_v108 (ix2 c' j)) r j := by
  have hr := r.isLt
  obtain ⟨t, ht⟩ : ∃ t : Fin cfg10.N, t.val = r.val / 2000 := ⟨⟨r.val / 2000, by rw [show cfg10.N = 5 from N_10]; omega⟩, rfl⟩
  obtain ⟨-, -, -, -, e4, e5⟩ := reg10_idx t
  obtain ⟨y, hy⟩ : ∃ y : S2000x64.Idx, ((cfg10.win 2).blk t).view.emb y = (ix2 r j : S10000x64.Idx) :=
    ⟨ix2 ⟨r.val % 2000, Nat.mod_lt _ (by decide)⟩ j, GCN.ix2_of_val _ _ _
      (by show win10_2.index t (0 : Fin 2) * 2000 + 1 * (r.val % 2000) = r.val; omega)
      (by show win10_2.index t (1 : Fin 2) * 64 + 1 * j.val = j.val; omega)⟩
  have h := (dat10 V c).arrAt_apply_of_mem 2 (reg10_G V c) (fun t _ => reg10_flushed V c t) cfg10.N t _ t.isLt (flush10_2 t)
    (((cfg10.win 2).blk t).view.emb_mem_set y)
  rw [hy] at h
  exact h

end Cert.KernelIdeal.Val

end
-- ==== Proof.KReg11.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg11_idx : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- The product of the region's two entry arrays, index by index. -/
def reg11_G (c : Dev nD) : S20000x64.Idx → EReal :=
  fun i => GCN.mm (fun r k => V c main_v105 (ix2 r k)) (fun k j => V c main_v110 (ix2 k j)) (i 0) (i 1)

/-- A grid point's block of rows of the left operand against the whole weight is its block of rows of the product. -/
theorem reg11_block (c : Dev nD) (t : Fin cfg11.N) (y : S2000x64.Idx) :
    (k11_pay1 (F := Ideal) (iblk11 V c 0 t) (iblk11 V c 1 t) : S2000x64.Idx → EReal) y
      = reg11_G V c (((cfg11.win 2).blk t).view.emb y) := by
  obtain ⟨e0, e1, e2, e3, e4, e5⟩ := reg11_idx t
  obtain ⟨p, q, rfl⟩ : ∃ (p : Fin 2000) (q : Fin 64), y = ix2 p q := ⟨y 0, y 1, eq_ix2 y⟩
  unfold k11_pay1
  rw [truncf_apply]
  simp only [shapeCast_self]
  refine (GCN.mm_zero_apply (M := 2000) (K := 128) (N := 64) (φ₁ := .bf16) (φ₂ := .bf16) (iblk11 V c 0 t) (iblk11 V c 1 t) p q).trans ?_
  simp only [reg11_G, GCN.mm]
  refine Finset.sum_congr rfl fun k _ => congrArg₂ (· * ·) (congrArg (V c main_v105) ?_) (congrArg (V c main_v110) ?_)
  · refine GCN.ix2_of_val _ _ _ ?_ ?_
    · show win11_0.index t (0 : Fin 2) * 2000 + 1 * p.val = win11_2.index t (0 : Fin 2) * 2000 + 1 * p.val; omega
    · show win11_0.index t (1 : Fin 2) * 128 + 1 * k.val = k.val; omega
  · refine GCN.ix2_of_val _ _ _ ?_ ?_
    · show win11_1.index t (0 : Fin 2) * 128 + 1 * k.val = k.val; omega
    · show win11_1.index t (1 : Fin 2) * 64 + 1 * q.val = win11_2.index t (1 : Fin 2) * 64 + 1 * q.val; omega

theorem reg11_flushed (c : Dev nD) (t : Fin cfg11.N) :
    (dat11 V c).flushed 2 t = ((cfg11.win 2).blk t).view.read (Elt Ideal) (reg11_G V c) := by
  show (cfg11.win 2).cut (grid11.coords t) ((dat11 V c).after 2 t) = _
  rw [after11_2]
  unfold out11_2
  rw [View.canon_unit_zero GCN.hz2]
  simp only [View.ld_unit_zero (S := S2000x128) GCN.hz2, View.ld_unit_zero (S := S128x64) GCN.hz2]
  exact funext (reg11_block V c t)

/-- Row `r` lies in the block of grid point `r / 2000`, so the result array ends holding the product there. -/
theorem reg11_val (c : Dev nD) (r : Fin 20000) (j : Fin 64) :
    (Gen.dat11 V c).arrAt 2 cfg11.N (ix2 r j)
      = GCN.mm (fun r c' => V c main_v105 (ix2 r c')) (fun c' j => V c main_v110 (ix2 c' j)) r j := by
  have hr := r.isLt
  obtain ⟨t, ht⟩ : ∃ t : Fin cfg11.N, t.val = r.val / 2000 := ⟨⟨r.val / 2000, by rw [show cfg11.N = 10 from N_11]; omega⟩, rfl⟩
  obtain ⟨-, -, -, -, e4, e5⟩ := reg11_idx t
  obtain ⟨y, hy⟩ : ∃ y : S2000x64.Idx, ((cfg11.win 2).blk t).view.emb y = (ix2 r j : S20000x64.Idx) :=
    ⟨ix2 ⟨r.val % 2000, Nat.mod_lt _ (by decide)⟩ j, GCN.ix2_of_val _ _ _
      (by show win11_2.index t (0 : Fin 2) * 2000 + 1 * (r.val % 2000) = r.val; omega)
      (by show win11_2.index t (1 : Fin 2) * 64 + 1 * j.val = j.val; omega)⟩
  have h := (dat11 V c).arrAt_apply_of_mem 2 (reg11_G V c) (fun t _ => reg11_flushed V c t) cfg11.N t _ t.isLt (flush11_2 t)
    (((cfg11.win 2).blk t).view.emb_mem_set y)
  rw [hy] at h
  exact h

end Cert.KernelIdeal.Val

end
-- ==== Proof.KReg12.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg12_idx : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- The body's value at an index of its block: the rectifier of the adjacency's rows against the projected features, plus the bias. -/
theorem reg12_pay (x0 : Vec Ideal S1000x10000 .bf16) (x1 : Vec Ideal S10000x64 .bf16) (x2 : Vec Ideal S1x64 .f32)
    (p : Fin 1000) (q : Fin 64) :
    (k12_pay1 (F := Ideal) x0 x1 x2 : S1000x64.Idx → EReal) (ix2 p q)
      = GCN.lrelu ((∑ k : Fin 10000, x0 (ix2 p k) * x1 (ix2 k q)) + x2 (ix2 (0 : Fin 1) q)) := by
  unfold k12_pay1
  simp only [shapeCast_self, truncf_apply, select_apply, cmpf_apply, mulf_apply, addf_apply, broadcast_apply]
  rw [broadcastTo_1b_ab_apply x2 broadcasts_S1x64_S1000x64 p q,
    show matmul dot_S1000x10000_S10000x64_S1000x64_1_0_0_1_n_n none x0 x1 (constant (F := Ideal) S1000x64 .f32 0x00000000#32) (ix2 p q)
      = ∑ k : Fin 10000, x0 (ix2 p k) * x1 (ix2 k q) from GCN.mm_zero_apply x0 x1 p q]
  exact GCN.lrelu_spelt _

/-- What the region leaves in its result array, index by index. -/
def reg12_G (c : Dev nD) : S20000x64.Idx → EReal :=
  fun i => GCN.agg (fun r k => V c main_v41 (ix2 r k)) (fun k j => V c main_v109 (ix2 k j)) (fun j => V c main_v112 (ix2 (0 : Fin 1) j)) (i 0) (i 1)

/-- A grid point's block of the body's values is its block of rows of the result. -/
theorem reg12_block (c : Dev nD) (t : Fin cfg12.N) (y : S1000x64.Idx) :
    (k12_pay1 (F := Ideal) (iblk12 V c 0 t) (iblk12 V c 1 t) (iblk12 V c 2 t) : S1000x64.Idx → EReal) y
      = reg12_G V c (((cfg12.win 3).blk t).view.emb y) := by
  obtain ⟨e0, e1, e2, e3, e4, e5, e6, e7⟩ := reg12_idx t
  obtain ⟨p, q, rfl⟩ : ∃ (p : Fin 1000) (q : Fin 64), y = ix2 p q := ⟨y 0, y 1, eq_ix2 y⟩
  refine (reg12_pay (iblk12 V c 0 t) (iblk12 V c 1 t) (iblk12 V c 2 t) p q).trans ?_
  simp only [reg12_G, GCN.agg]
  refine congrArg GCN.lrelu (congrArg₂ (· + ·) (Finset.sum_congr rfl fun k _ =>
    congrArg₂ (· * ·) (congrArg (V c main_v41) ?_) (congrArg (V c main_v109) ?_)) (congrArg (V c main_v112) ?_))
  · refine GCN.ix2_of_val _ _ _ ?_ ?_
    · show win12_0.index t (0 : Fin 2) * 1000 + 1 * p.val = win12_3.index t (0 : Fin 2) * 1000 + 1 * p.val; omega
    · show win12_0.index t (1 : Fin 2) * 10000 + 1 * k.val = k.val; omega
  · refine GCN.ix2_of_val _ _ _ ?_ ?_
    · show win12_1.index t (0 : Fin 2) * 10000 + 1 * k.val = k.val; omega
    · show win12_1.index t (1 : Fin 2) * 64 + 1 * q.val = win12_3.index t (1 : Fin 2) * 64 + 1 * q.val; omega
  · refine GCN.ix2_of_val _ _ _ ?_ ?_
    · show win12_2.index t (0 : Fin 2) * 1 + 1 * 0 = 0; omega
    · show win12_2.index t (1 : Fin 2) * 64 + 1 * q.val = win12_3.index t (1 : Fin 2) * 64 + 1 * q.val; omega

/-- A block read off an array is the array at the block's own indices. -/
theorem reg12_read (G : S20000x64.Idx → EReal) (t : Fin cfg12.N) (y : ((cfg12.win 3).xblock (grid12.coords t)).Idx) :
    ((cfg12.win 3).blk t).view.read (Elt Ideal) G y = G (((cfg12.win 3).blk t).view.emb y) := rfl

theorem reg12_flushed (c : Dev nD) (t : Fin cfg12.N) :
    (dat12 V c).flushed 3 t = ((cfg12.win 3).blk t).view.read (Elt Ideal) (reg12_G V c) := by
  show (cfg12.win 3).cut (grid12.coords t) ((dat12 V c).after 3 t) = _
  rw [after12_3]
  unfold out12_3
  rw [View.canon_unit_zero GCN.hz2]
  simp only [View.ld_unit_zero (S := S1000x10000) GCN.hz2, View.ld_unit_zero (S := S10000x64) GCN.hz2,
    View.ld_unit_zero (S := S1x64) GCN.hz2]
  funext y
  exact (reg12_block V c t ((cfg12.win 3).xinj (grid12.coords t) y)).trans (reg12_read (reg12_G V c) t y).symm

/-- Row `r` lies in the block of grid point `r / 1000`, so the result array ends holding the region's function there. -/
theorem reg12_val (c : Dev nD) (d : Fin 20000) (j : Fin 64) :
    (Gen.dat12 V c).arrAt 3 cfg12.N (ix2 d j)
      = GCN.agg (fun d a => V c main_v41 (ix2 d a)) (fun a j => V c main_v109 (ix2 a j))
          (fun j => V c main_v112 (ix2 (0 : Fin 1) j)) d j := by
  have hd := d.isLt
  obtain ⟨t, ht⟩ : ∃ t : Fin cfg12.N, t.val = d.val / 1000 := ⟨⟨d.val / 1000, by rw [show cfg12.N = 20 from N_12]; omega⟩, rfl⟩
  obtain ⟨-, -, -, -, -, -, e6, e7⟩ := reg12_idx t
  obtain ⟨y, hy⟩ : ∃ y : S1000x64.Idx, ((cfg12.win 3).blk t).view.emb y = (ix2 d j : S20000x64.Idx) :=
    ⟨ix2 ⟨d.val % 1000, Nat.mod_lt _ (by decide)⟩ j, GCN.ix2_of_val _ _ _
      (by show win12_3.index t (0 : Fin 2) * 1000 + 1 * (d.val % 1000) = d.val; omega)
      (by show win12_3.index t (1 : Fin 2) * 64 + 1 * j.val = j.val; omega)⟩
  have h := (dat12 V c).arrAt_apply_of_mem 3 (reg12_G V c) (fun t _ => reg12_flushed V c t) cfg12.N t _ t.isLt (flush12_3 t)
    (((cfg12.win 3).blk t).view.emb_mem_set y)
  rw [hy] at h
  exact h

end Cert.KernelIdeal.Val

end
-- ==== Proof.KReg13.lean ====
import proofs.«426696_j34600256537155_2_alg».proof.Proof.Gen.KernelIdeal.Frame
import proofs.«426696_j34600256537155_2_alg».proof.Proof.Spec
import proofs.«426696_j34600256537155_2_alg».proof.Proof.KLib

noncomputable section

namespace Cert.KernelIdeal.Val

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem reg13_idx : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- The body's value at an index of its block: the rectifier of the adjacency's rows against the projected features, plus the bias. -/
theorem reg13_pay (x0 : Vec Ideal S400x20000 .bf16) (x1 : Vec Ideal S20000x64 .bf16) (x2 : Vec Ideal S1x64 .f32)
    (p : Fin 400) (q : Fin 64) :
    (k13_pay1 (F := Ideal) x0 x1 x2 : S400x64.Idx → EReal) (ix2 p q)
      = GCN.lrelu ((∑ k : Fin 20000, x0 (ix2 p k) * x1 (ix2 k q)) + x2 (ix2 (0 : Fin 1) q)) := by
  unfold k13_pay1
  simp only [shapeCast_self, truncf_apply, select_apply, cmpf_apply, mulf_apply, addf_apply, broadcast_apply]
  rw [broadcastTo_1b_ab_apply x2 broadcasts_S1x64_S400x64 p q,
    show matmul dot_S400x20000_S20000x64_S400x64_1_0_0_1_n_n none x0 x1 (constant (F := Ideal) S400x64 .f32 0x00000000#32) (ix2 p q)
      = ∑ k : Fin 20000, x0 (ix2 p k) * x1 (ix2 k q) from GCN.mm_zero_apply x0 x1 p q]
  exact GCN.lrelu_spelt _

/-- What the region leaves in its result array, index by index. -/
def reg13_G (c : Dev nD) : S10000x64.Idx → EReal :=
  fun i => GCN.agg (fun r k => V c main_v83 (ix2 r k)) (fun k j => V c main_v111 (ix2 k j)) (fun j => V c main_v114 (ix2 (0 : Fin 1) j)) (i 0) (i 1)

/-- A grid point's block of the body's values is its block of rows of the result. -/
theorem reg13_block (c : Dev nD) (t : Fin cfg13.N) (y : S400x64.Idx) :
    (k13_pay1 (F := Ideal) (iblk13 V c 0 t) (iblk13 V c 1 t) (iblk13 V c 2 t) : S400x64.Idx → EReal) y
      = reg13_G V c (((cfg13.win 3).blk t).view.emb y) := by
  obtain ⟨e0, e1, e2, e3, e4, e5, e6, e7⟩ := reg13_idx t
  obtain ⟨p, q, rfl⟩ : ∃ (p : Fin 400) (q : Fin 64), y = ix2 p q := ⟨y 0, y 1, eq_ix2 y⟩
  refine (reg13_pay (iblk13 V c 0 t) (iblk13 V c 1 t) (iblk13 V c 2 t) p q).trans ?_
  simp only [reg13_G, GCN.agg]
  refine congrArg GCN.lrelu (congrArg₂ (· + ·) (Finset.sum_congr rfl fun k _ =>
    congrArg₂ (· * ·) (congrArg (V c main_v83) ?_) (congrArg (V c main_v111) ?_)) (congrArg (V c main_v114) ?_))
  · refine GCN.ix2_of_val _ _ _ ?_ ?_
    · show win13_0.index t (0 : Fin 2) * 400 + 1 * p.val = win13_3.index t (0 : Fin 2) * 400 + 1 * p.val; omega
    · show win13_0.index t (1 : Fin 2) * 20000 + 1 * k.val = k.val; omega
  · refine GCN.ix2_of_val _ _ _ ?_ ?_
    · show win13_1.index t (0 : Fin 2) * 20000 + 1 * k.val = k.val; omega
    · show win13_1.index t (1 : Fin 2) * 64 + 1 * q.val = win13_3.index t (1 : Fin 2) * 64 + 1 * q.val; omega
  · refine GCN.ix2_of_val _ _ _ ?_ ?_
    · show win13_2.index t (0 : Fin 2) * 1 + 1 * 0 = 0; omega
    · show win13_2.index t (1 : Fin 2) * 64 + 1 * q.val = win13_3.index t (1 : Fin 2) * 64 + 1 * q.val; omega

/-- A block read off an array is the array at the block's own indices. -/
theorem reg13_read (G : S10000x64.Idx → EReal) (t : Fin cfg13.N) (y : ((cfg13.win 3).xblock (grid13.coords t)).Idx) :
    ((cfg13.win 3).blk t).view.read (Elt Ideal) G y = G (((cfg13.win 3).blk t).view.emb y) := rfl

theorem reg13_flushed (c : Dev nD) (t : Fin cfg13.N) :
    (dat13 V c).flushed 3 t = ((cfg13.win 3).blk t).view.read (Elt Ideal) (reg13_G V c) := by
  show (cfg13.win 3).cut (grid13.coords t) ((dat13 V c).after 3 t) = _
  rw [after13_3]
  unfold out13_3
  rw [View.canon_unit_zero GCN.hz2]
  simp only [View.ld_unit_zero (S := S400x20000) GCN.hz2, View.ld_unit_zero (S := S20000x64) GCN.hz2,
    View.ld_unit_zero (S := S1x64) GCN.hz2]
  funext y
  exact (reg13_block V c t ((cfg13.win 3).xinj (grid13.coords t) y)).trans (reg13_read (reg13_G V c) t y).symm

/-- Row `r` lies in the block of grid point `r / 400`, so the result array ends holding the region's function there. -/
theorem reg13_val (c : Dev nD) (d : Fin 10000) (j : Fin 64) :
    (Gen.dat13 V c).arrAt 3 cfg13.N (ix2 d j)
      = GCN.agg (fun d a => V c main_v83 (ix2 d a)) (fun a j => V c main_v111 (ix2 a j))
          (fun j => V c main_v114 (ix2 (0 : Fin 1) j)) d j := by
  have hd := d.isLt
  obtain ⟨t, ht⟩ : ∃ t : Fin cfg13.N, t.val = d.val / 400 := ⟨⟨d.val / 400, by rw [show cfg13.N = 25 from N_13]; omega⟩, rfl⟩
  obtain ⟨-, -, -, -, -, -, e6, e7⟩ := reg13_idx t
  obtain ⟨y, hy⟩ : ∃ y : S400x64.Idx, ((cfg13.win 3).blk t).view.emb y = (ix2 d j : S10000x64.Idx) :=
    ⟨ix2 ⟨d.val % 400, Nat.mod_lt _ (by decide)⟩ j, GCN.ix2_of_val _ _ _
      (by show win13_3.index t (0 : Fin 2) * 400 + 1 * (d.val % 400) = d.val; omega)
      (by show win13_3.index t (1 : Fin 2) * 64 + 1 * j.val = j.val; omega)⟩
  have h := (dat13 V c).arrAt_apply_of_mem 3 (reg13_G V c) (fun t _ => reg13_flushed V c t) cfg13.N t _ t.isLt (flush13_3 t)
    (((cfg13.win 3).blk t).view.emb_mem_set y)
  rw [hy] at h
  exact h

end Cert.KernelIdeal.Val

end
-- ==== Proof.ScatterIdx.lean ====
import Idealize.ShloMosaic.PureOps.Ideal
import Idealize.ShloMosaic.PureOps.Ideal.Laws
import Idealize.ShloMosaic.PureOps.Contract
import Idealize.ShloMosaic.Lib.ValueIdx
import Idealize.ShloMosaic.Lib.ValueIdxRank1
import Idealize.ShloMosaic.Lib.StableHlo.Predicate

open scoped BigOperators

namespace GCN.Idx

open Idealize.ShloMosaic Idealize.ShloMosaic.ValueIdx Idealize.ShloMosaic.StableHlo.Predicate

noncomputable section

theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  constructor
  · intro he
    unfold ScatterDims.resultIdx? at he
    split at he
    · rename_i h
      have hi := Option.some.inj he
      intro a
      have ha := congrArg Fin.val (congrFun hi a)
      have h0 := (h a).1
      simp only at ha
      omega
    · cases he
  · intro hall
    have h : ∀ a, 0 ≤ d.start j idx a + (d.window j a : ℤ) ∧ d.start j idx a + (d.window j a : ℤ) < s.size a :=
      fun a => by rw [hall a]; exact ⟨Int.natCast_nonneg _, by exact_mod_cast (i a).isLt⟩
    unfold ScatterDims.resultIdx?
    rw [dif_pos h]
    congr 1
    funext a
    apply Fin.ext
    show (d.start j idx a + (d.window j a : ℤ)).toNat = (i a).val
    rw [hall a]; exact Int.toNat_natCast _

theorem getElem_of_eq_singleton {α : Type} {l : List α} {v : α} (hl : l = [v]) (k : ℕ) (h : k < l.length) :
    l[k]'h = v := by
  subst hl
  have hk : k = 0 := by simpa using h
  subst hk; rfl

section Seg

variable {n E w : ℕ} (d : ScatterDims ⟨1, ![n]⟩ ⟨2, ![E, 1]⟩ ⟨1, ![E]⟩)

theorem seg_window (hiw : d.insertedWindowDims = [0]) (j : (⟨1, ![E]⟩ : Shape).Idx) (a : Fin 1) :
    d.window j a = 0 := by
  have ha : a = 0 := Subsingleton.elim _ _
  subst ha
  have hk : (0 : Fin 1) ∉ d.sKept := by
    show (0 : Fin 1) ∉ Shape.kept _ d.insertedWindowDims
    rw [hiw]; simp [Shape.kept]
  unfold ScatterDims.window
  rw [dif_neg hk]

theorem seg_siIdx (hiv : d.indexVectorDim = 1) (j : (⟨1, ![E]⟩ : Shape).Idx)
    (c : Fin d.scatterDimsToOperandDims.length) (hc : c.val = 0) : d.siIdx j c = ixP (j 0) := by
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hiv])]
    apply Fin.ext
    exact hc

theorem seg_start (hsd : d.scatterDimsToOperandDims = [0]) (hiv : d.indexVectorDim = 1)
    (j : (⟨1, ![E]⟩ : Shape).Idx) (idx : IVec ⟨2, ![E, 1]⟩ w) (a : Fin 1) :
    d.start j idx a = (idx (ixP (j 0))).toInt := by
  have ha : a = 0 := Subsingleton.elim _ _
  subst ha
  have hm : (0 : Fin 1) ∈ d.scatterDimsToOperandDims := by rw [hsd]; exact List.mem_singleton.mpr rfl
  unfold ScatterDims.start
  rw [dif_pos hm]
  exact congrArg (fun q => (idx q).toInt)
    (seg_siIdx d hiv j _ (by show List.idxOf (0 : Fin 1) d.scatterDimsToOperandDims = 0; rw [hsd]; simp))

theorem seg_lands (hiw : d.insertedWindowDims = [0]) (hsd : d.scatterDimsToOperandDims = [0])
    (hiv : d.indexVectorDim = 1) (idx : IVec ⟨2, ![E, 1]⟩ w) (e : Fin E) (i : Fin n) :
    d.resultIdx? (ix1 e) idx = some (ix1 i) ↔ (idx (ixP e)).toInt = (i : ℤ) := by
  rw [resultIdx?_eq_some_iff]
  constructor
  · intro h
    have h0 := h 0
    rw [seg_start d hsd hiv, seg_window d hiw, Nat.cast_zero, add_zero] at h0
    exact h0
  · intro h a
    rw [seg_start d hsd hiv, seg_window d hiw, Nat.cast_zero, add_zero]
    have ha : a = 0 := Subsingleton.elim _ _
    subst ha
    exact h

end Seg

theorem scatterAdd_seg {φ : FTy} {n E w : ℕ} (d : ScatterDims ⟨1, ![n]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![n]⟩ φ) (idx : IVec ⟨2, ![E, 1]⟩ w)
    (upd : FVec Ideal ⟨1, ![E]⟩ φ) (i : Fin n) :
    Host.scatterAdd d x idx upd (ix1 i)
      = x (ix1 i) + ∑ e ∈ Finset.univ.filter (fun e : Fin E => (idx (ixP e)).toInt = (i : ℤ)), upd (ix1 e) := by
  show x (ix1 i) + ∑ j ∈ Finset.univ.filter (fun j => d.resultIdx? j idx = some (ix1 i)), upd j = _
  congr 1
  rw [Finset.sum_filter, Finset.sum_filter]
  refine (Equiv.sum_comp (idxEquiv1 (n := E)).symm _).symm.trans ?_
  refine Finset.sum_congr rfl fun e _ => ?_
  show (if d.resultIdx? (ix1 e) idx = some (ix1 i) then upd (ix1 e) else 0) = _
  simp only [seg_lands d hiw hsd hiv]

section Pt

variable {k n E w : ℕ} (d : ScatterDims ⟨2, ![k, n]⟩ ⟨2, ![E, 2]⟩ ⟨1, ![E]⟩)

theorem pt_window (hiw : d.insertedWindowDims = [0, 1]) (j : (⟨1, ![E]⟩ : Shape).Idx) (a : Fin 2) :
    d.window j a = 0 := by
  have hk : a ∉ d.sKept := by
    show a ∉ Shape.kept _ d.insertedWindowDims
    rw [hiw]
    match a with
    | ⟨0, _⟩ => simp [Shape.kept]
    | ⟨1, _⟩ => simp [Shape.kept]
  unfold ScatterDims.window
  rw [dif_neg hk]

theorem pt_siIdx (hiv : d.indexVectorDim = 1) (j : (⟨1, ![E]⟩ : Shape).Idx)
    (c : Fin d.scatterDimsToOperandDims.length) (q : Fin 2) (hc : c.val = q.val) : d.siIdx j c = ix2 (j 0) q := by
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hiv])]
    apply Fin.ext
    exact hc

theorem pt_start (hsd : d.scatterDimsToOperandDims = [0, 1]) (hiv : d.indexVectorDim = 1)
    (j : (⟨1, ![E]⟩ : Shape).Idx) (idx : IVec ⟨2, ![E, 2]⟩ w) (q : Fin 2) :
    d.start j idx q = (idx (ix2 (j 0) q)).toInt := by
  have hm : q ∈ d.scatterDimsToOperandDims := by
    rw [hsd]
    match q with
    | ⟨0, _⟩ => simp
    | ⟨1, _⟩ => simp
  unfold ScatterDims.start
  rw [dif_pos hm]
  refine congrArg (fun r => (idx r).toInt) (pt_siIdx d hiv j _ q ?_)
  show List.idxOf q d.scatterDimsToOperandDims = q.val
  rw [hsd]
  match q with
  | ⟨0, _⟩ => simp
  | ⟨1, _⟩ => rfl

theorem pt_lands (hiw : d.insertedWindowDims = [0, 1]) (hsd : d.scatterDimsToOperandDims = [0, 1])
    (hiv : d.indexVectorDim = 1) (idx : IVec ⟨2, ![E, 2]⟩ w) (e : Fin E) (a : Fin k) (b : Fin n) :
    d.resultIdx? (ix1 e) idx = some (ix2 a b)
      ↔ (idx (ix2 e (0 : Fin 2))).toInt = (a : ℤ) ∧ (idx (ix2 e (1 : Fin 2))).toInt = (b : ℤ) := by
  rw [resultIdx?_eq_some_iff]
  constructor
  · intro h
    have h0 := h 0
    have h1 := h 1
    rw [pt_start d hsd hiv, pt_window d hiw, Nat.cast_zero, add_zero] at h0 h1
    exact ⟨h0, h1⟩
  · intro h q
    rw [pt_start d hsd hiv, pt_window d hiw, Nat.cast_zero, add_zero]
    match q with
    | ⟨0, _⟩ => exact h.1
    | ⟨1, _⟩ => exact h.2

end Pt

theorem scatterAdd_pt {φ : FTy} {k n E w : ℕ} (d : ScatterDims ⟨2, ![k, n]⟩ ⟨2, ![E, 2]⟩ ⟨1, ![E]⟩)
    (huw : d.updateWindowDims = []) (hiw : d.insertedWindowDims = [0, 1])
    (hsd : d.scatterDimsToOperandDims = [0, 1]) (hiv : d.indexVectorDim = 1) (x : FVec Ideal ⟨2, ![k, n]⟩ φ)
    (idx : IVec ⟨2, ![E, 2]⟩ w) (upd : FVec Ideal ⟨1, ![E]⟩ φ) (a : Fin k) (b : Fin n) :
    Host.scatterAdd d x idx upd (ix2 a b)
      = x (ix2 a b) + ∑ e ∈ Finset.univ.filter (fun e : Fin E =>
          (idx (ix2 e (0 : Fin 2))).toInt = (a : ℤ) ∧ (idx (ix2 e (1 : Fin 2))).toInt = (b : ℤ)), upd (ix1 e) := by
  show x (ix2 a b) + ∑ j ∈ Finset.univ.filter (fun j => d.resultIdx? j idx = some (ix2 a b)), upd j = _
  congr 1
  rw [Finset.sum_filter, Finset.sum_filter]
  refine (Equiv.sum_comp (idxEquiv1 (n := E)).symm _).symm.trans ?_
  refine Finset.sum_congr rfl fun e _ => ?_
  show (if d.resultIdx? (ix1 e) idx = some (ix2 a b) then upd (ix1 e) else 0) = _
  simp only [pt_lands d hiw hsd hiv]

section Rows

variable {n p E w : ℕ} (d : ScatterDims ⟨2, ![n, p]⟩ ⟨2, ![E, 1]⟩ ⟨2, ![E, p]⟩)

theorem rows_sKept (hiw : d.insertedWindowDims = [0]) : d.sKept = [1] := by
  show Shape.kept _ d.insertedWindowDims = [1]
  rw [hiw]; rfl

theorem rows_uScatter (huw : d.updateWindowDims = [1]) : d.uScatter = [0] := by
  show Shape.kept _ d.updateWindowDims = [0]
  rw [huw]; rfl

theorem rows_window0 (hiw : d.insertedWindowDims = [0]) (j : (⟨2, ![E, p]⟩ : Shape).Idx) : d.window j 0 = 0 := by
  have hk : (0 : Fin 2) ∉ d.sKept := by
    rw [rows_sKept d hiw]
    exact fun h => Nat.zero_ne_one (congrArg Fin.val (List.mem_singleton.mp h))
  unfold ScatterDims.window
  rw [dif_neg hk]

theorem rows_window1 (huw : d.updateWindowDims = [1]) (hiw : d.insertedWindowDims = [0])
    (j : (⟨2, ![E, p]⟩ : Shape).Idx) : d.window j 1 = (j 1).val := by
  have hk : (1 : Fin 2) ∈ d.sKept := by rw [rows_sKept d hiw]; exact List.mem_singleton.mpr rfl
  unfold ScatterDims.window
  rw [dif_pos hk]
  exact congrArg (fun a => (j a).val) (getElem_of_eq_singleton huw _ _)

theorem rows_siIdx (huw : d.updateWindowDims = [1]) (hiv : d.indexVectorDim = 1) (j : (⟨2, ![E, p]⟩ : Shape).Idx)
    (c : Fin d.scatterDimsToOperandDims.length) (hc : c.val = 0) : d.siIdx j c = ixP (j 0) := by
  funext b
  match b with
  | ⟨0, _⟩ =>
    unfold ScatterDims.siIdx
    rw [dif_neg (by rw [hiv]; simp)]
    unfold ScatterDims.siCoord
    apply Fin.ext
    simp only [Fin.val_cast]
    exact congrArg (fun a => (j a).val) (getElem_of_eq_singleton (rows_uScatter d huw) _ _)
  | ⟨1, _⟩ =>
    unfold ScatterDims.siIdx
    rw [dif_pos (by rw [hiv])]
    apply Fin.ext
    exact hc

theorem rows_start0 (huw : d.updateWindowDims = [1]) (hsd : d.scatterDimsToOperandDims = [0])
    (hiv : d.indexVectorDim = 1) (j : (⟨2, ![E, p]⟩ : Shape).Idx) (idx : IVec ⟨2, ![E, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm]
  exact congrArg (fun q => (idx q).toInt)
    (rows_siIdx d huw hiv j _ (by show List.idxOf (0 : Fin 2) d.scatterDimsToOperandDims = 0; rw [hsd]; simp))

theorem rows_start1 (hsd : d.scatterDimsToOperandDims = [0]) (j : (⟨2, ![E, p]⟩ : Shape).Idx)
    (idx : IVec ⟨2, ![E, 1]⟩ w) : d.start j idx 1 = 0 := by
  have hm : (1 : Fin 2) ∉ d.scatterDimsToOperandDims := by
    rw [hsd]
    exact fun h => Nat.one_ne_zero (congrArg Fin.val (List.mem_singleton.mp h))
  unfold ScatterDims.start
  rw [dif_neg hm]

theorem rows_lands (huw : d.updateWindowDims = [1]) (hiw : d.insertedWindowDims = [0])
    (hsd : d.scatterDimsToOperandDims = [0]) (hiv : d.indexVectorDim = 1) (idx : IVec ⟨2, ![E, 1]⟩ w)
    (e : Fin E) (c' : Fin p) (i : Fin n) (c : Fin p) :
    d.resultIdx? (ix2 e c') idx = some (ix2 i c) ↔ (idx (ixP e)).toInt = (i : ℤ) ∧ c' = c := by
  rw [resultIdx?_eq_some_iff]
  constructor
  · intro h
    have h0 := h 0
    have h1 := h 1
    rw [rows_start0 d huw hsd hiv, rows_window0 d hiw, Nat.cast_zero, add_zero] at h0
    rw [rows_start1 d hsd, rows_window1 d huw hiw, zero_add] at h1
    exact ⟨h0, Fin.ext (by exact_mod_cast h1)⟩
  · intro h q
    match q with
    | ⟨0, _⟩ =>
      show d.start (ix2 e c') idx 0 + (d.window (ix2 e c') 0 : ℤ) = _
      rw [rows_start0 d huw hsd hiv, rows_window0 d hiw, Nat.cast_zero, add_zero]
      exact h.1
    | ⟨1, _⟩ =>
      show d.start (ix2 e c') idx 1 + (d.window (ix2 e c') 1 : ℤ) = _
      rw [rows_start1 d hsd, rows_window1 d huw hiw, zero_add, h.2]
      rfl

end Rows

theorem scatterAdd_rows {φ : FTy} {n p E w : ℕ} (d : ScatterDims ⟨2, ![n, p]⟩ ⟨2, ![E, 1]⟩ ⟨2, ![E, p]⟩)
    (huw : d.updateWindowDims = [1]) (hiw : d.insertedWindowDims = [0]) (hsd : d.scatterDimsToOperandDims = [0])
    (hiv : d.indexVectorDim = 1) (x : FVec Ideal ⟨2, ![n, p]⟩ φ) (idx : IVec ⟨2, ![E, 1]⟩ w)
    (upd : FVec Ideal ⟨2, ![E, p]⟩ φ) (i : Fin n) (c : Fin p) :
    Host.scatterAdd d x idx upd (ix2 i c)
      = x (ix2 i c) + ∑ e ∈ Finset.univ.filter (fun e : Fin E => (idx (ixP e)).toInt = (i : ℤ)), upd (ix2 e c) := by
  show x (ix2 i c) + ∑ j ∈ Finset.univ.filter (fun j => d.resultIdx? j idx = some (ix2 i c)), upd j = _
  congr 1
  rw [Finset.sum_filter, Finset.sum_filter, sum_idx2]
  refine Finset.sum_congr rfl fun e _ => ?_
  simp only [rows_lands d huw hiw hsd hiv]
  by_cases h : (idx (ixP e)).toInt = (i : ℤ)
  · simp only [h, true_and, if_true]
    rw [Finset.sum_ite_eq' Finset.univ c (fun c' => upd (ix2 e c')), if_pos (Finset.mem_univ c)]
  · simp only [h, false_and, if_false, Finset.sum_const_zero]

end

end GCN.Idx
-- ==== Proof.GatherIdx.lean ====
import Idealize.ShloMosaic.PureOps.Ideal
import Idealize.ShloMosaic.Lib.ValueIdx
import Idealize.ShloMosaic.Lib.ValueLayout
import Idealize.ShloMosaic.Lib.StableHlo.Predicate

noncomputable section

namespace GCN.Idx

open Idealize.ShloMosaic Idealize.ShloMosaic.ValueIdx Idealize.ShloMosaic.StableHlo.Predicate

theorem getElem_of_eq_single {r : ℕ} {l : List (Fin r)} {a : Fin r} (hl : l = [a]) (k : ℕ) (hk : k < l.length) :
    l[k] = a := by
  subst hl
  have hk0 : k = 0 := by simpa using hk
  subst hk0
  rfl

theorem gather_rows {α : Type} {n p E w : ℕ} (d : GatherDims ⟨2, ![n, p]⟩ ⟨2, ![E, 1]⟩ ⟨2, ![E, p]⟩)
    (hoff : d.offsetDims = [1]) (hcoll : d.collapsedSliceDims = [0]) (hob : d.operandBatchingDims = [])
    (hsim : d.startIndexMap = [0]) (hivd : d.indexVectorDim = 1) (hsl : d.sliceSizes = ![1, p]) (hn : 0 < n)
    (x : (⟨2, ![n, p]⟩ : Shape).Idx → α) (idx : IVec ⟨2, ![E, 1]⟩ w) (e : Fin E) (c : Fin p) :
    Host.gather d x idx (ix2 e c) = x (ix2 (⟨min (idx (ixP e)).toInt.toNat (n - 1), by omega⟩ : Fin n) c) := by
  unfold Host.gather
  congr 1
  funext a
  apply Fin.ext
  have hb : ∀ a : Fin 2, a ∉ d.operandBatchingDims := fun a => by rw [hob]; exact List.not_mem_nil
  have h10 : ¬ (1 : Fin 2) = 0 := fun h => Nat.one_ne_zero (congrArg Fin.val h)
  have hk0 : (0 : Fin 2) ∉ d.sKept := by rw [GatherDims.mem_sKept, hcoll]; simp
  have hk1 : (1 : Fin 2) ∈ d.sKept := by
    rw [GatherDims.mem_sKept, hcoll, hob]
    exact ⟨fun h => h10 (List.mem_singleton.mp h), List.not_mem_nil⟩
  match a with
  | ⟨0, _⟩ =>

    have hm : (0 : Fin 2) ∈ d.startIndexMap := by rw [hsim]; exact List.mem_singleton.mpr rfl
    have hs0 : d.sliceSizes 0 = 1 := d.slice_collapsed 0 (by rw [hcoll]; exact List.mem_singleton.mpr rfl)
    show d.start (ix2 e c) idx 0 + d.batchCoord (ix2 e c) 0 + d.offCoord (ix2 e c) 0 = min (idx (ixP e)).toInt.toNat (n - 1)
    rw [GatherDims.batchCoord_eq_zero _ _ _ (hb 0), GatherDims.offCoord_eq_zero _ _ _ hk0]
    simp only [Nat.add_zero, GatherDims.start, dif_pos hm]
    show min (idx _).toInt.toNat (n - d.sliceSizes 0) = _
    rw [hs0]
    congr 3
    congr 1
    funext b
    match b with
    | ⟨0, _⟩ =>

      unfold GatherDims.siIdx
      rw [dif_neg (by rw [hivd]; simp)]
      unfold GatherDims.siCoord
      apply Fin.ext
      simp only [Fin.val_cast]
      have hbd : d.batchDims = [0] := by
        show (⟨2, ![E, p]⟩ : Shape).kept d.offsetDims = [0]
        rw [hoff]; rfl
      exact congrArg (fun a : Fin 2 => ((ix2 e c : (⟨2, ![E, p]⟩ : Shape).Idx) a).val) (getElem_of_eq_single hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>

    have hm : (1 : Fin 2) ∉ d.startIndexMap := by rw [hsim]; exact fun h => h10 (List.mem_singleton.mp h)
    show d.start (ix2 e c) idx 1 + d.batchCoord (ix2 e c) 1 + d.offCoord (ix2 e c) 1 = c.val
    rw [GatherDims.batchCoord_eq_zero _ _ _ (hb 1)]
    simp only [GatherDims.start, dif_neg hm, Nat.add_zero, Nat.zero_add]
    unfold GatherDims.offCoord
    rw [dif_pos hk1]
    exact congrArg (fun a : Fin 2 => ((ix2 e c : (⟨2, ![E, p]⟩ : Shape).Idx) a).val) (getElem_of_eq_single hoff _ _)

theorem select_wrap {s : Shape} (x y z : IVec s 32) (e : s.Idx) (hz : z e = 0#32) (h : 0 ≤ (x e).toInt) :
    select (cmpi .slt x z) y x e = x e := by
  show Scalar.select (IntOp.cmpi .slt (x e) (z e)) (y e) (x e) = x e
  rw [hz]
  have hc : ¬ IntOp.cmpi .slt (x e) 0#32 = 1#1 := by
    show ¬ BitVec.ofBool ((x e).slt 0#32) = 1#1
    rw [ofBool_eq_one_iff]
    have h0 : (0#32 : BitVec 32).toInt = 0 := by decide
    simp only [BitVec.slt, h0, decide_eq_true_eq]
    omega
  exact if_neg hc

theorem bcast_col {α : Type} {E : ℕ} (h : (⟨1, ![E]⟩ : Shape).BroadcastsInDim ⟨2, ![E, 1]⟩ ![0])
    (x : (⟨1, ![E]⟩ : Shape).Idx → α) (e : Fin E) :
    broadcastInDim (⟨2, ![E, 1]⟩ : Shape) ![0] h x (ixP e) = x (ix1 e) := by
  simp only [broadcastInDim]
  congr 1
  funext a
  have ha : a = 0 := Subsingleton.elim _ _
  subst ha
  apply Fin.ext
  have he := e.isLt
  split
  · next h1 => change E = 1 at h1; show (0 : ℕ) = e.val; omega
  · rfl

theorem concat_col0 {α : Type} {E : ℕ} (a b : (⟨2, ![E, 1]⟩ : Shape).Idx → α)
    (h : Shape.Concatenates [(⟨2, ![E, 1]⟩ : Shape), ⟨2, ![E, 1]⟩] ⟨2, ![E, 2]⟩ 1) (e : Fin E) :
    concatenate (⟨2, ![E, 2]⟩ : Shape) 1 [⟨⟨2, ![E, 1]⟩, a⟩, ⟨⟨2, ![E, 1]⟩, b⟩] h (ix2 e (0 : Fin 2)) = a (ixP e) :=
  concatenate_pair_apply_left (1 : Fin 2) a b h (ix2 e (0 : Fin 2)) rfl (ixP e)
    (fun k => by match k with | ⟨0, _⟩ => rfl | ⟨1, _⟩ => rfl)

theorem concat_col1 {α : Type} {E : ℕ} (a b : (⟨2, ![E, 1]⟩ : Shape).Idx → α)
    (h : Shape.Concatenates [(⟨2, ![E, 1]⟩ : Shape), ⟨2, ![E, 1]⟩] ⟨2, ![E, 2]⟩ 1) (e : Fin E) :
    concatenate (⟨2, ![E, 2]⟩ : Shape) 1 [⟨⟨2, ![E, 1]⟩, a⟩, ⟨⟨2, ![E, 1]⟩, b⟩] h (ix2 e (1 : Fin 2)) = b (ixP e) :=
  concatenate_pair_apply_right (1 : Fin 2) a b h (ix2 e (1 : Fin 2)) rfl rfl (ixP e)
    (fun k hk => by match k, hk with | ⟨0, _⟩, _ => rfl | ⟨1, _⟩, hk => exact absurd rfl hk)
    rfl

end GCN.Idx

end
-- ==== Proof.GcRead.lean ====
import Idealize.ShloMosaic.PureOps.Ideal
import Idealize.ShloMosaic.PureOps.Ideal.Laws
import Idealize.ShloMosaic.PureOps.Contract
import Idealize.ShloMosaic.Lib.ValueIdx
import Idealize.ShloMosaic.Lib.ValueLayout
import Idealize.ShloMosaic.Lib.StableHlo.Predicate
import Idealize.ShloMosaic.Lib.StackMember
import proofs.«426696_j34600256537155_2_alg».proof.Proof.Spec
import proofs.«426696_j34600256537155_2_alg».proof.Proof.ScatterIdx
import proofs.«426696_j34600256537155_2_alg».proof.Proof.GatherIdx

noncomputable section

open scoped BigOperators

namespace GCN.Read

open Idealize.ShloMosaic Idealize.ShloMosaic.ValueIdx Idealize.ShloMosaic.StableHlo.Predicate

theorem ofFin_eq_ix1 {n : ℕ} (k : Fin n) : Shape.Idx.ofFin k = ix1 k := by
  funext a
  match a with
  | ⟨0, _⟩ => exact Fin.ext rfl

theorem ij_eq_ix2 {n m : ℕ} (p : Fin n) (q : Fin m) : ij p q = ix2 p q := by
  funext a
  match a with
  | ⟨0, _⟩ => rfl
  | ⟨1, _⟩ => rfl

section Deg

variable {n E : ℕ} (d : ScatterDims ⟨1, ![n]⟩ ⟨2, ![E, 1]⟩ ⟨1, ![E]⟩)

theorem deg_read (huw : d.updateWindowDims = []) (hiw : d.insertedWindowDims = [0])
    (hsd : d.scatterDimsToOperandDims = [0]) (hiv : d.indexVectorDim = 1)
    (h0 : (⟨0, ![]⟩ : Shape).BroadcastsInDim ⟨1, ![n]⟩ ![]) (h1 : (⟨0, ![]⟩ : Shape).BroadcastsInDim ⟨1, ![E]⟩ ![])
    (hc : (⟨1, ![E]⟩ : Shape).BroadcastsInDim ⟨2, ![E, 1]⟩ ![0])
    (a : IVec ⟨1, ![E]⟩ 32) (f : Fin E → Fin n) (hf : ∀ e, (a (ix1 e)).toInt = (f e : ℤ)) (i : Fin n) :
    Host.scatterAdd (F := Ideal) d (broadcastInDim ⟨1, ![n]⟩ ![] h0 (constant ⟨0, ![]⟩ .f32 0x00000000#32))
        (broadcastInDim ⟨2, ![E, 1]⟩ ![0] hc a)
        (broadcastInDim ⟨1, ![E]⟩ ![] h1 (constant ⟨0, ![]⟩ .f32 0x3F800000#32)) (ix1 i)
      = GCN.deg f i := by
  rw [GCN.Idx.scatterAdd_seg d huw hiw hsd hiv]
  unfold GCN.deg
  refine congrArg₂ (· + ·) rfl ?_
  refine Finset.sum_congr (Finset.filter_congr fun e _ => ?_) fun e _ => rfl
  rw [GCN.Idx.bcast_col hc a e, hf e]
  exact ⟨fun h => Fin.ext (by exact_mod_cast h), fun h => by rw [h]⟩

theorem rs_read (huw : d.updateWindowDims = []) (hiw : d.insertedWindowDims = [0])
    (hsd : d.scatterDimsToOperandDims = [0]) (hiv : d.indexVectorDim = 1)
    (h0 : (⟨0, ![]⟩ : Shape).BroadcastsInDim ⟨1, ![n]⟩ ![]) (h1 : (⟨0, ![]⟩ : Shape).BroadcastsInDim ⟨1, ![E]⟩ ![])
    (hc : (⟨1, ![E]⟩ : Shape).BroadcastsInDim ⟨2, ![E, 1]⟩ ![0])
    (a : IVec ⟨1, ![E]⟩ 32) (f : Fin E → Fin n) (hf : ∀ e, (a (ix1 e)).toInt = (f e : ℤ)) (i : Fin n) :
    Host.rsqrt (F := Ideal) (maximumf (broadcastInDim ⟨1, ![n]⟩ ![] h0 (id (constant ⟨0, ![]⟩ .f32 0x3F800000#32)))
        (Host.scatterAdd d (broadcastInDim ⟨1, ![n]⟩ ![] h0 (constant ⟨0, ![]⟩ .f32 0x00000000#32))
          (broadcastInDim ⟨2, ![E, 1]⟩ ![0] hc a)
          (broadcastInDim ⟨1, ![E]⟩ ![] h1 (constant ⟨0, ![]⟩ .f32 0x3F800000#32)))) (ix1 i)
      = GCN.rs f i := by
  show Ideal.rsqrt (max (Ideal.ofBits .f32 0x3F800000#32) (Host.scatterAdd (F := Ideal) d _ _ _ (ix1 i))) = _
  rw [deg_read d huw hiw hsd hiv h0 h1 hc a f hf i]
  rfl

end Deg

section Scale

variable {n p : ℕ}

theorem scale_rows_read (h₁ : (⟨1, ![n]⟩ : Shape).BroadcastsInDim ⟨2, ![n, 1]⟩ ![0])
    (h₂ : (⟨2, ![n, 1]⟩ : Shape).BroadcastsInDim ⟨2, ![n, p]⟩ ![0, 1])
    (X : FVec Ideal ⟨2, ![n, p]⟩ .f32) (v : FVec Ideal ⟨1, ![n]⟩ .f32) (a : Fin n) (c : Fin p) :
    mulf X (broadcastInDim ⟨2, ![n, p]⟩ ![0, 1] h₂ (broadcastInDim ⟨2, ![n, 1]⟩ ![0] h₁ v)) (ix2 a c)
      = X (ix2 a c) * v (ix1 a) := by
  show X (ix2 a c) * _ = _
  refine congrArg (X (ix2 a c) * ·) ?_
  rw [← ij_eq_ix2, bcast_rows h₁ h₂ v a c, ofFin_eq_ix1]

theorem bias_read (h₁ : (⟨1, ![p]⟩ : Shape).BroadcastsInDim ⟨2, ![1, p]⟩ ![1])
    (h₂ : (⟨2, ![1, p]⟩ : Shape).BroadcastsInDim ⟨2, ![n, p]⟩ ![0, 1])
    (v : FVec Ideal ⟨1, ![p]⟩ .f32) (a : Fin n) (c : Fin p) :
    broadcastInDim ⟨2, ![n, p]⟩ ![0, 1] h₂ (broadcastInDim ⟨2, ![1, p]⟩ ![1] h₁ v) (ix2 a c) = v (ix1 c) := by
  rw [← ij_eq_ix2, bcast_cols h₁ h₂ v a c, ofFin_eq_ix1]

end Scale

section Gather

variable {n p E : ℕ} (g : GatherDims ⟨2, ![n, p]⟩ ⟨2, ![E, 1]⟩ ⟨2, ![E, p]⟩)

theorem gather_read (hoff : g.offsetDims = [1]) (hcoll : g.collapsedSliceDims = [0]) (hob : g.operandBatchingDims = [])
    (hsim : g.startIndexMap = [0]) (hivd : g.indexVectorDim = 1) (hsl : g.sliceSizes = ![1, p])
    (hz : (⟨0, ![]⟩ : Shape).BroadcastsInDim ⟨1, ![E]⟩ ![])
    (hc : (⟨1, ![E]⟩ : Shape).BroadcastsInDim ⟨2, ![E, 1]⟩ ![0]) (w : BitVec 32)
    (X : FVec Ideal ⟨2, ![n, p]⟩ .f32) (a : IVec ⟨1, ![E]⟩ 32) (s : Fin E → Fin n)
    (hs : ∀ e, (a (ix1 e)).toInt = (s e : ℤ)) (e : Fin E) (c : Fin p) :
    Host.gather g X (broadcastInDim ⟨2, ![E, 1]⟩ ![0] hc
        (select (cmpi .slt a (broadcastInDim ⟨1, ![E]⟩ ![] hz (constantI ⟨0, ![]⟩ 32 0#32)))
          (addi a (broadcastInDim ⟨1, ![E]⟩ ![] hz (constantI ⟨0, ![]⟩ 32 w))) a)) (ix2 e c)
      = X (ix2 (s e) c) := by
  have hn : 0 < n := Fin.pos (s e)
  have hw : select (cmpi .slt a (broadcastInDim ⟨1, ![E]⟩ ![] hz (constantI ⟨0, ![]⟩ 32 0#32)))
      (addi a (broadcastInDim ⟨1, ![E]⟩ ![] hz (constantI ⟨0, ![]⟩ 32 w))) a (ix1 e) = a (ix1 e) :=
    GCN.Idx.select_wrap a _ _ (ix1 e) rfl (by rw [hs e]; exact Int.natCast_nonneg _)
  rw [GCN.Idx.gather_rows g hoff hcoll hob hsim hivd hsl hn]
  refine congrArg (fun r => X (ix2 r c)) (Fin.ext ?_)
  show min (_ : BitVec 32).toInt.toNat (n - 1) = (s e).val
  rw [GCN.Idx.bcast_col hc _ e, hw, hs e, Int.toNat_natCast]
  have := (s e).isLt
  omega

end Gather

section Dot

variable {k p q : ℕ} (D : DotDims ⟨2, ![k, p]⟩ ⟨2, ![p, q]⟩ ⟨2, ![k, q]⟩)

/-- A product of two matrices with the plain dimension numbers, read at an index: the sum over the contracted coordinate. -/
theorem dot_read (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (L : FVec Ideal ⟨2, ![k, p]⟩ .f32) (R : FVec Ideal ⟨2, ![p, q]⟩ .f32)
    (r : Fin k) (j : Fin q) :
    Host.dotGeneral D prec L R (ix2 r j) = ∑ c : Fin p, L (ix2 r c) * R (ix2 c j) := by
  obtain ⟨lc, rc, ln, rn, lb, rb, wf⟩ := D
  obtain rfl : lc = [1] := hlc
  obtain rfl : rc = [0] := hrc
  obtain rfl : ln = [0] := hln
  obtain rfl : rn = [1] := hrn
  obtain rfl : lb = [] := hlb
  obtain rfl : rb = [] := hrb
  exact StackMember.dotGeneral_plain_apply prec L R r j

end Dot

section Term

variable {F : FTy → Type} [FloatOps F] {n k E p q : ℕ}

def rsVec (d : ScatterDims ⟨1, ![n]⟩ ⟨2, ![E, 1]⟩ ⟨1, ![E]⟩)
    (h0 : (⟨0, ![]⟩ : Shape).BroadcastsInDim ⟨1, ![n]⟩ ![]) (h1 : (⟨0, ![]⟩ : Shape).BroadcastsInDim ⟨1, ![E]⟩ ![])
    (hc : (⟨1, ![E]⟩ : Shape).BroadcastsInDim ⟨2, ![E, 1]⟩ ![0]) (a : IVec ⟨1, ![E]⟩ 32) : FVec F ⟨1, ![n]⟩ .f32 :=
  Host.rsqrt (maximumf (broadcastInDim ⟨1, ![n]⟩ ![] h0 (id (constant ⟨0, ![]⟩ .f32 0x3F800000#32)))
    (Host.scatterAdd d (broadcastInDim ⟨1, ![n]⟩ ![] h0 (constant ⟨0, ![]⟩ .f32 0x00000000#32))
      (broadcastInDim ⟨2, ![E, 1]⟩ ![0] hc a)
      (broadcastInDim ⟨1, ![E]⟩ ![] h1 (constant ⟨0, ![]⟩ .f32 0x3F800000#32))))

def gcTerm (dS : ScatterDims ⟨1, ![n]⟩ ⟨2, ![E, 1]⟩ ⟨1, ![E]⟩) (dT : ScatterDims ⟨1, ![k]⟩ ⟨2, ![E, 1]⟩ ⟨1, ![E]⟩)
    (g : GatherDims ⟨2, ![n, p]⟩ ⟨2, ![E, 1]⟩ ⟨2, ![E, p]⟩) (dR : ScatterDims ⟨2, ![k, p]⟩ ⟨2, ![E, 1]⟩ ⟨2, ![E, p]⟩)
    (D : DotDims ⟨2, ![k, p]⟩ ⟨2, ![p, q]⟩ ⟨2, ![k, q]⟩)
    (b0n : (⟨0, ![]⟩ : Shape).BroadcastsInDim ⟨1, ![n]⟩ ![]) (b0k : (⟨0, ![]⟩ : Shape).BroadcastsInDim ⟨1, ![k]⟩ ![])
    (b0E : (⟨0, ![]⟩ : Shape).BroadcastsInDim ⟨1, ![E]⟩ ![]) (b0kp : (⟨0, ![]⟩ : Shape).BroadcastsInDim ⟨2, ![k, p]⟩ ![])
    (bcE : (⟨1, ![E]⟩ : Shape).BroadcastsInDim ⟨2, ![E, 1]⟩ ![0])
    (bn1 : (⟨1, ![n]⟩ : Shape).BroadcastsInDim ⟨2, ![n, 1]⟩ ![0]) (bnp : (⟨2, ![n, 1]⟩ : Shape).BroadcastsInDim ⟨2, ![n, p]⟩ ![0, 1])
    (bk1 : (⟨1, ![k]⟩ : Shape).BroadcastsInDim ⟨2, ![k, 1]⟩ ![0]) (bkp : (⟨2, ![k, 1]⟩ : Shape).BroadcastsInDim ⟨2, ![k, p]⟩ ![0, 1])
    (bq1 : (⟨1, ![q]⟩ : Shape).BroadcastsInDim ⟨2, ![1, q]⟩ ![1]) (bkq : (⟨2, ![1, q]⟩ : Shape).BroadcastsInDim ⟨2, ![k, q]⟩ ![0, 1])
    (w : BitVec 32) (H : FVec F ⟨2, ![n, p]⟩ .f32) (a2 a3 : IVec ⟨1, ![E]⟩ 32) (W : FVec F ⟨2, ![p, q]⟩ .f32)
    (b : FVec F ⟨1, ![q]⟩ .f32) : FVec F ⟨2, ![k, q]⟩ .f32 :=
  addf
    (Host.dotGeneral D none
      (mulf
        (Host.scatterAdd dR (broadcastInDim ⟨2, ![k, p]⟩ ![] b0kp (constant ⟨0, ![]⟩ .f32 0x00000000#32))
          (broadcastInDim ⟨2, ![E, 1]⟩ ![0] bcE a3)
          (Host.gather g
            (mulf H (broadcastInDim ⟨2, ![n, p]⟩ ![0, 1] bnp (broadcastInDim ⟨2, ![n, 1]⟩ ![0] bn1 (rsVec dS b0n b0E bcE a2))))
            (broadcastInDim ⟨2, ![E, 1]⟩ ![0] bcE
              (select (cmpi .slt a2 (broadcastInDim ⟨1, ![E]⟩ ![] b0E (constantI ⟨0, ![]⟩ 32 0#32)))
                (addi a2 (broadcastInDim ⟨1, ![E]⟩ ![] b0E (constantI ⟨0, ![]⟩ 32 w))) a2))))
        (broadcastInDim ⟨2, ![k, p]⟩ ![0, 1] bkp (broadcastInDim ⟨2, ![k, 1]⟩ ![0] bk1 (rsVec dT b0k b0E bcE a3))))
      W)
    (broadcastInDim ⟨2, ![k, q]⟩ ![0, 1] bkq (broadcastInDim ⟨2, ![1, q]⟩ ![1] bq1 b))

end Term

section Read

variable {n k E p q : ℕ}

theorem rsVec_read (d : ScatterDims ⟨1, ![n]⟩ ⟨2, ![E, 1]⟩ ⟨1, ![E]⟩) (huw : d.updateWindowDims = [])
    (hiw : d.insertedWindowDims = [0]) (hsd : d.scatterDimsToOperandDims = [0]) (hiv : d.indexVectorDim = 1)
    (h0 : (⟨0, ![]⟩ : Shape).BroadcastsInDim ⟨1, ![n]⟩ ![]) (h1 : (⟨0, ![]⟩ : Shape).BroadcastsInDim ⟨1, ![E]⟩ ![])
    (hc : (⟨1, ![E]⟩ : Shape).BroadcastsInDim ⟨2, ![E, 1]⟩ ![0])
    (a : IVec ⟨1, ![E]⟩ 32) (f : Fin E → Fin n) (hf : ∀ e, (a (ix1 e)).toInt = (f e : ℤ)) (i : Fin n) :
    rsVec (F := Ideal) d h0 h1 hc a (ix1 i) = GCN.rs f i :=
  rs_read d huw hiw hsd hiv h0 h1 hc a f hf i

theorem gc_read (dS : ScatterDims ⟨1, ![n]⟩ ⟨2, ![E, 1]⟩ ⟨1, ![E]⟩) (hS1 : dS.updateWindowDims = [])
    (hS2 : dS.insertedWindowDims = [0]) (hS3 : dS.scatterDimsToOperandDims = [0]) (hS4 : dS.indexVectorDim = 1)
    (dT : ScatterDims ⟨1, ![k]⟩ ⟨2, ![E, 1]⟩ ⟨1, ![E]⟩) (hT1 : dT.updateWindowDims = [])
    (hT2 : dT.insertedWindowDims = [0]) (hT3 : dT.scatterDimsToOperandDims = [0]) (hT4 : dT.indexVectorDim = 1)
    (g : GatherDims ⟨2, ![n, p]⟩ ⟨2, ![E, 1]⟩ ⟨2, ![E, p]⟩) (hG1 : g.offsetDims = [1]) (hG2 : g.collapsedSliceDims = [0])
    (hG3 : g.operandBatchingDims = []) (hG4 : g.startIndexMap = [0]) (hG5 : g.indexVectorDim = 1)
    (hG6 : g.sliceSizes = ![1, p])
    (dR : ScatterDims ⟨2, ![k, p]⟩ ⟨2, ![E, 1]⟩ ⟨2, ![E, p]⟩) (hR1 : dR.updateWindowDims = [1])
    (hR2 : dR.insertedWindowDims = [0]) (hR3 : dR.scatterDimsToOperandDims = [0]) (hR4 : dR.indexVectorDim = 1)
    (D : DotDims ⟨2, ![k, p]⟩ ⟨2, ![p, q]⟩ ⟨2, ![k, q]⟩) (hD1 : D.lhsContracting = [1]) (hD2 : D.rhsContracting = [0])
    (hD3 : D.lhsNonContracting = [0]) (hD4 : D.rhsNonContracting = [1]) (hD5 : D.lhsBatch = []) (hD6 : D.rhsBatch = [])
    (b0n : (⟨0, ![]⟩ : Shape).BroadcastsInDim ⟨1, ![n]⟩ ![]) (b0k : (⟨0, ![]⟩ : Shape).BroadcastsInDim ⟨1, ![k]⟩ ![])
    (b0E : (⟨0, ![]⟩ : Shape).BroadcastsInDim ⟨1, ![E]⟩ ![]) (b0kp : (⟨0, ![]⟩ : Shape).BroadcastsInDim ⟨2, ![k, p]⟩ ![])
    (bcE : (⟨1, ![E]⟩ : Shape).BroadcastsInDim ⟨2, ![E, 1]⟩ ![0])
    (bn1 : (⟨1, ![n]⟩ : Shape).BroadcastsInDim ⟨2, ![n, 1]⟩ ![0]) (bnp : (⟨2, ![n, 1]⟩ : Shape).BroadcastsInDim ⟨2, ![n, p]⟩ ![0, 1])
    (bk1 : (⟨1, ![k]⟩ : Shape).BroadcastsInDim ⟨2, ![k, 1]⟩ ![0]) (bkp : (⟨2, ![k, 1]⟩ : Shape).BroadcastsInDim ⟨2, ![k, p]⟩ ![0, 1])
    (bq1 : (⟨1, ![q]⟩ : Shape).BroadcastsInDim ⟨2, ![1, q]⟩ ![1]) (bkq : (⟨2, ![1, q]⟩ : Shape).BroadcastsInDim ⟨2, ![k, q]⟩ ![0, 1])
    (w : BitVec 32) (H : FVec Ideal ⟨2, ![n, p]⟩ .f32) (a2 a3 : IVec ⟨1, ![E]⟩ 32) (W : FVec Ideal ⟨2, ![p, q]⟩ .f32)
    (b : FVec Ideal ⟨1, ![q]⟩ .f32) (s : Fin E → Fin n) (t : Fin E → Fin k)
    (hs : ∀ e, (a2 (ix1 e)).toInt = (s e : ℤ)) (ht : ∀ e, (a3 (ix1 e)).toInt = (t e : ℤ)) (d : Fin k) (j : Fin q) :
    gcTerm (F := Ideal) dS dT g dR D b0n b0k b0E b0kp bcE bn1 bnp bk1 bkp bq1 bkq w H a2 a3 W b (ix2 d j)
      = GCN.rgcPre s t (fun a c => H (ix2 a c)) (fun c j => W (ix2 c j)) (fun j => b (ix1 j)) d j := by
  unfold gcTerm GCN.rgcPre
  rw [addf_apply, dot_read D hD1 hD2 hD3 hD4 hD5 hD6, bias_read bq1 bkq b d j]
  refine congrArg (· + b (ix1 j)) (Finset.sum_congr rfl fun c _ => ?_)
  refine congrArg (· * W (ix2 c j)) ?_
  rw [scale_rows_read bk1 bkp, rsVec_read dT hT1 hT2 hT3 hT4 b0k b0E bcE a3 t ht d]
  refine congrArg (· * GCN.rs t d) ?_
  rw [GCN.Idx.scatterAdd_rows dR hR1 hR2 hR3 hR4]
  refine congrArg₂ (· + ·) rfl (Finset.sum_congr (Finset.filter_congr fun e _ => ?_) fun e _ => ?_)
  · rw [GCN.Idx.bcast_col bcE a3 e, ht e]
    exact ⟨fun h => Fin.ext (by exact_mod_cast h), fun h => by rw [h]⟩
  · rw [gather_read g hG1 hG2 hG3 hG4 hG5 hG6 b0E bcE w _ a2 s hs e c, scale_rows_read bn1 bnp,
      rsVec_read dS hS1 hS2 hS3 hS4 b0n b0E bcE a2 s hs (s e)]

end Read

end GCN.Read

end
-- ==== Proof.AdjRead.lean ====
import proofs.«426696_j34600256537155_2_alg».proof.Proof.Spec
import proofs.«426696_j34600256537155_2_alg».proof.Proof.ScatterIdx
import proofs.«426696_j34600256537155_2_alg».proof.Proof.GatherIdx
import proofs.«426696_j34600256537155_2_alg».proof.Proof.GcRead
import Idealize.ShloMosaic.Lib.ValueIdx
import Idealize.ShloMosaic.Lib.StableHlo.Predicate
import Idealize.ShloMosaic.PureOps.Ideal.Laws

noncomputable section

namespace GCN.Read

open Idealize.ShloMosaic Idealize.ShloMosaic.ValueIdx Idealize.ShloMosaic.StableHlo.Predicate
open scoped BigOperators

section Entry

variable {n k E : ℕ}

theorem cast_eq_iff {n : ℕ} (x y : Fin n) : ((x : ℕ) : ℤ) = ((y : ℕ) : ℤ) ↔ x = y :=
  ⟨fun h => Fin.ext (by exact_mod_cast h), fun h => by rw [h]⟩

theorem rs_at (one dg : FVec Ideal ⟨1, ![n]⟩ .f32) (f : Fin E → Fin n) (i : Fin n)
    (h1 : one (ix1 i) = Ideal.ofBits .f32 0x3F800000#32) (hd : dg (ix1 i) = GCN.deg f i) :
    Host.rsqrt (maximumf one dg) (ix1 i) = GCN.rs f i := by
  show Ideal.rsqrt (max (one (ix1 i)) (dg (ix1 i))) = _
  rw [h1, hd]; rfl

theorem take_at {N : ℕ} (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (r : (⟨1, ![N]⟩ : Shape).Idx → EReal) (idx : IVec ⟨2, ![E, 1]⟩ 32) (f : Fin E → Fin N) (e : Fin E)
    (hidx : (idx (ixP e)).toInt = ((f e : ℕ) : ℤ)) :
    Host.gather d r idx (ix1 e) = r (ix1 (f e)) := by
  have hN : 0 < N := Nat.lt_of_le_of_lt (Nat.zero_le _) (f e).isLt
  rw [← ofFin_eq_ix1 e, gather_take d hcoll hob hsim hivd r idx e hN]
  congr 1
  funext a
  have ha : a = 0 := Subsingleton.elim _ _
  subst ha
  apply Fin.ext
  show min (idx (ixP e)).toInt.toNat (N - 1) = (f e).val
  rw [hidx, Int.toNat_natCast]
  have := (f e).isLt
  omega

theorem wrapcol_at (hb : (⟨0, ![]⟩ : Shape).BroadcastsInDim ⟨1, ![E]⟩ ![])
    (hc : (⟨1, ![E]⟩ : Shape).BroadcastsInDim ⟨2, ![E, 1]⟩ ![0]) (w : BitVec 32)
    (x : IVec ⟨1, ![E]⟩ 32) (f : Fin E → Fin n) (hf : ∀ e, (x (ix1 e)).toInt = ((f e : ℕ) : ℤ)) (e : Fin E) :
    (broadcastInDim ⟨2, ![E, 1]⟩ ![0] hc
        (select (cmpi .slt x (broadcastInDim ⟨1, ![E]⟩ ![] hb (constantI ⟨0, ![]⟩ 32 0#32)))
          (addi x (broadcastInDim ⟨1, ![E]⟩ ![] hb (constantI ⟨0, ![]⟩ 32 w))) x) (ixP e)).toInt
      = ((f e : ℕ) : ℤ) := by
  rw [GCN.Idx.bcast_col, GCN.Idx.select_wrap _ _ _ (ix1 e) rfl (by rw [hf e]; exact Int.natCast_nonneg _), hf e]

theorem adj_at (d : ScatterDims ⟨2, ![k, n]⟩ ⟨2, ![E, 2]⟩ ⟨1, ![E]⟩)
    (huw : d.updateWindowDims = []) (hiw : d.insertedWindowDims = [0, 1])
    (hsd : d.scatterDimsToOperandDims = [0, 1]) (hiv : d.indexVectorDim = 1)
    (hz : (⟨0, ![]⟩ : Shape).BroadcastsInDim ⟨2, ![k, n]⟩ ![])
    (hcat : Shape.Concatenates [(⟨2, ![E, 1]⟩ : Shape), ⟨2, ![E, 1]⟩] ⟨2, ![E, 2]⟩ 1)
    (ct cs : IVec ⟨2, ![E, 1]⟩ 32) (s : Fin E → Fin n) (t : Fin E → Fin k)
    (hct : ∀ e, (ct (ixP e)).toInt = ((t e : ℕ) : ℤ)) (hcs : ∀ e, (cs (ixP e)).toInt = ((s e : ℕ) : ℤ))
    (u : FVec Ideal ⟨1, ![E]⟩ .f32) (hu : ∀ e, u (ix1 e) = GCN.rs t (t e) * GCN.rs s (s e))
    (dd : Fin k) (a : Fin n) :
    Host.scatterAdd (F := Ideal) d
        (broadcastInDim ⟨2, ![k, n]⟩ ![] hz (constant (F := Ideal) ⟨0, ![]⟩ .f32 0x00000000#32))
        (concatenate ⟨2, ![E, 2]⟩ 1 [⟨⟨2, ![E, 1]⟩, ct⟩, ⟨⟨2, ![E, 1]⟩, cs⟩] hcat) u (ix2 dd a)
      = GCN.adj s t dd a := by
  rw [GCN.Idx.scatterAdd_pt d huw hiw hsd hiv]
  unfold GCN.adj
  refine congrArg₂ (· + ·) rfl ?_
  refine Finset.sum_congr (Finset.filter_congr fun e _ => ?_) fun e _ => hu e
  rw [GCN.Idx.concat_col0, GCN.Idx.concat_col1, hct e, hcs e, cast_eq_iff, cast_eq_iff]

end Entry

section Term

variable {n k E : ℕ}

abbrev wrapcol (hb : (⟨0, ![]⟩ : Shape).BroadcastsInDim ⟨1, ![E]⟩ ![])
    (hc : (⟨1, ![E]⟩ : Shape).BroadcastsInDim ⟨2, ![E, 1]⟩ ![0]) (w : BitVec 32) (x : IVec ⟨1, ![E]⟩ 32) :
    IVec ⟨2, ![E, 1]⟩ 32 :=
  broadcastInDim ⟨2, ![E, 1]⟩ ![0] hc
    (select (cmpi .slt x (broadcastInDim ⟨1, ![E]⟩ ![] hb (constantI ⟨0, ![]⟩ 32 0#32)))
      (addi x (broadcastInDim ⟨1, ![E]⟩ ![] hb (constantI ⟨0, ![]⟩ 32 w))) x)

abbrev clip {N : ℕ} (hzN : (⟨0, ![]⟩ : Shape).BroadcastsInDim ⟨1, ![N]⟩ ![])
    (hb : (⟨0, ![]⟩ : Shape).BroadcastsInDim ⟨1, ![E]⟩ ![])
    (hc : (⟨1, ![E]⟩ : Shape).BroadcastsInDim ⟨2, ![E, 1]⟩ ![0])
    (dN : ScatterDims ⟨1, ![N]⟩ ⟨2, ![E, 1]⟩ ⟨1, ![E]⟩) (x : IVec ⟨1, ![E]⟩ 32) : FVec Ideal ⟨1, ![N]⟩ .f32 :=
  maximumf (broadcastInDim ⟨1, ![N]⟩ ![] hzN (constant (F := Ideal) ⟨0, ![]⟩ .f32 0x3F800000#32))
    (Host.scatterAdd (F := Ideal) dN
      (broadcastInDim ⟨1, ![N]⟩ ![] hzN (constant (F := Ideal) ⟨0, ![]⟩ .f32 0x00000000#32))
      (broadcastInDim ⟨2, ![E, 1]⟩ ![0] hc x)
      (broadcastInDim ⟨1, ![E]⟩ ![] hb (constant (F := Ideal) ⟨0, ![]⟩ .f32 0x3F800000#32)))

def adjTerm (dpt : ScatterDims ⟨2, ![k, n]⟩ ⟨2, ![E, 2]⟩ ⟨1, ![E]⟩)
    (gk : GatherDims ⟨1, ![k]⟩ ⟨2, ![E, 1]⟩ ⟨1, ![E]⟩) (gn : GatherDims ⟨1, ![n]⟩ ⟨2, ![E, 1]⟩ ⟨1, ![E]⟩)
    (dk : ScatterDims ⟨1, ![k]⟩ ⟨2, ![E, 1]⟩ ⟨1, ![E]⟩) (dn : ScatterDims ⟨1, ![n]⟩ ⟨2, ![E, 1]⟩ ⟨1, ![E]⟩)
    (hz : (⟨0, ![]⟩ : Shape).BroadcastsInDim ⟨2, ![k, n]⟩ ![])
    (hzk : (⟨0, ![]⟩ : Shape).BroadcastsInDim ⟨1, ![k]⟩ ![]) (hzn : (⟨0, ![]⟩ : Shape).BroadcastsInDim ⟨1, ![n]⟩ ![])
    (hb : (⟨0, ![]⟩ : Shape).BroadcastsInDim ⟨1, ![E]⟩ ![])
    (hc : (⟨1, ![E]⟩ : Shape).BroadcastsInDim ⟨2, ![E, 1]⟩ ![0])
    (hcat : Shape.Concatenates [(⟨2, ![E, 1]⟩ : Shape), ⟨2, ![E, 1]⟩] ⟨2, ![E, 2]⟩ 1)
    (hlt : FTy.bf16.bits < FTy.f32.bits) (wk wn : BitVec 32) (dst src : IVec ⟨1, ![E]⟩ 32) :
    FVec Ideal ⟨2, ![k, n]⟩ .bf16 :=
  truncf .bf16
    (Host.scatterAdd (F := Ideal) dpt
      (broadcastInDim ⟨2, ![k, n]⟩ ![] hz (constant (F := Ideal) ⟨0, ![]⟩ .f32 0x00000000#32))
      (concatenate ⟨2, ![E, 2]⟩ 1 [⟨⟨2, ![E, 1]⟩, wrapcol hb hc wk dst⟩, ⟨⟨2, ![E, 1]⟩, wrapcol hb hc wn src⟩] hcat)
      (mulf (Host.gather gk (Host.rsqrt (clip hzk hb hc dk dst)) (wrapcol hb hc wk dst))
        (Host.gather gn (Host.rsqrt (clip hzn hb hc dn src)) (wrapcol hb hc wn src))))
    hlt

theorem adj_read (dpt : ScatterDims ⟨2, ![k, n]⟩ ⟨2, ![E, 2]⟩ ⟨1, ![E]⟩)
    (hpuw : dpt.updateWindowDims = []) (hpiw : dpt.insertedWindowDims = [0, 1])
    (hpsd : dpt.scatterDimsToOperandDims = [0, 1]) (hpiv : dpt.indexVectorDim = 1)
    (gk : GatherDims ⟨1, ![k]⟩ ⟨2, ![E, 1]⟩ ⟨1, ![E]⟩)
    (hgkc : gk.collapsedSliceDims = [0]) (hgkb : gk.operandBatchingDims = [])
    (hgks : gk.startIndexMap = [0]) (hgki : gk.indexVectorDim = 1)
    (gn : GatherDims ⟨1, ![n]⟩ ⟨2, ![E, 1]⟩ ⟨1, ![E]⟩)
    (hgnc : gn.collapsedSliceDims = [0]) (hgnb : gn.operandBatchingDims = [])
    (hgns : gn.startIndexMap = [0]) (hgni : gn.indexVectorDim = 1)
    (dk : ScatterDims ⟨1, ![k]⟩ ⟨2, ![E, 1]⟩ ⟨1, ![E]⟩)
    (hkuw : dk.updateWindowDims = []) (hkiw : dk.insertedWindowDims = [0])
    (hksd : dk.scatterDimsToOperandDims = [0]) (hkiv : dk.indexVectorDim = 1)
    (dn : ScatterDims ⟨1, ![n]⟩ ⟨2, ![E, 1]⟩ ⟨1, ![E]⟩)
    (hnuw : dn.updateWindowDims = []) (hniw : dn.insertedWindowDims = [0])
    (hnsd : dn.scatterDimsToOperandDims = [0]) (hniv : dn.indexVectorDim = 1)
    (hz : (⟨0, ![]⟩ : Shape).BroadcastsInDim ⟨2, ![k, n]⟩ ![])
    (hzk : (⟨0, ![]⟩ : Shape).BroadcastsInDim ⟨1, ![k]⟩ ![]) (hzn : (⟨0, ![]⟩ : Shape).BroadcastsInDim ⟨1, ![n]⟩ ![])
    (hb : (⟨0, ![]⟩ : Shape).BroadcastsInDim ⟨1, ![E]⟩ ![])
    (hc : (⟨1, ![E]⟩ : Shape).BroadcastsInDim ⟨2, ![E, 1]⟩ ![0])
    (hcat : Shape.Concatenates [(⟨2, ![E, 1]⟩ : Shape), ⟨2, ![E, 1]⟩] ⟨2, ![E, 2]⟩ 1)
    (hlt : FTy.bf16.bits < FTy.f32.bits) (wk wn : BitVec 32) (dst src : IVec ⟨1, ![E]⟩ 32)
    (s : Fin E → Fin n) (t : Fin E → Fin k)
    (hs : ∀ e, (src (ix1 e)).toInt = (s e : ℤ)) (ht : ∀ e, (dst (ix1 e)).toInt = (t e : ℤ))
    (d : Fin k) (a : Fin n) :
    adjTerm dpt gk gn dk dn hz hzk hzn hb hc hcat hlt wk wn dst src (ix2 d a) = GCN.adj s t d a := by
  have hwt : ∀ e, (wrapcol hb hc wk dst (ixP e)).toInt = ((t e : ℕ) : ℤ) := fun e => wrapcol_at hb hc wk dst t ht e
  have hws : ∀ e, (wrapcol hb hc wn src (ixP e)).toInt = ((s e : ℕ) : ℤ) := fun e => wrapcol_at hb hc wn src s hs e
  have hrt : ∀ i : Fin k, Host.rsqrt (clip hzk hb hc dk dst) (ix1 i) = GCN.rs t i := fun i =>
    rs_at _ _ t i rfl (deg_read dk hkuw hkiw hksd hkiv hzk hb hc dst t ht i)
  have hrs : ∀ i : Fin n, Host.rsqrt (clip hzn hb hc dn src) (ix1 i) = GCN.rs s i := fun i =>
    rs_at _ _ s i rfl (deg_read dn hnuw hniw hnsd hniv hzn hb hc src s hs i)
  show Host.scatterAdd (F := Ideal) dpt _ _ _ (ix2 d a) = _
  refine adj_at dpt hpuw hpiw hpsd hpiv hz hcat _ _ s t hwt hws _ (fun e => ?_) d a
  show Host.gather gk (Host.rsqrt (clip hzk hb hc dk dst)) (wrapcol hb hc wk dst) (ix1 e)
      * Host.gather gn (Host.rsqrt (clip hzn hb hc dn src)) (wrapcol hb hc wn src) (ix1 e) = _
  rw [take_at gk hgkc hgkb hgks hgki _ _ t e (hwt e), take_at gn hgnc hgnb hgns hgni _ _ s e (hws e), hrt, hrs]

end Term

end GCN.Read

end
-- ==== Proof.KAdj.lean ====
import proofs.«426696_j34600256537155_2_alg».proof.Proof.Gen.KernelIdeal.Frame
import proofs.«426696_j34600256537155_2_alg».proof.Proof.Spec
import proofs.«426696_j34600256537155_2_alg».proof.Proof.AdjRead
import Idealize.ShloMosaic.Lib.ValueIdx
import Idealize.ShloMosaic.Lib.ValueLayout
import Idealize.ShloMosaic.Lib.StableHlo.Predicate
import Idealize.ShloMosaic.Lib.StableHlo.Run
import Idealize.ShloMosaic.PureOps.Ideal.Laws

noncomputable section

namespace Cert.KernelIdeal.Val

open Cert.KernelIdeal Cert.KernelIdeal.Gen Idealize.ShloMosaic Idealize.ShloMosaic.TcCoe Idealize.SL.Sem
  Idealize.ShloMosaic.StableHlo Idealize.ShloMosaic.ValueIdx Idealize.ShloMosaic.StableHlo.Predicate

abbrev onesE : FVec Ideal S1000000 .f32 :=
  broadcastInDim S1000000 ![] bcast_S_S1000000 (constant (F := Ideal) S_ .f32 0x3F800000#32)

abbrev col (x : IVec S1000000 32) : IVec S1000000x1 32 := broadcastInDim S1000000x1 ![0] bcast_S1000000_S1000000x1_0 x

abbrev wrap (w : BitVec 32) (x : IVec S1000000 32) : IVec S1000000 32 :=
  select (cmpi .slt x (broadcastInDim S1000000 ![] bcast_S_S1000000 (constantI S_ 32 0#32)))
    (addi x (broadcastInDim S1000000 ![] bcast_S_S1000000 (constantI S_ 32 w))) x

abbrev deg10 (x : IVec S1000000 32) (u : FVec Ideal S1000000 .f32) : FVec Ideal S10000 .f32 :=
  Host.scatterAdd scatter_S10000_S1000000x1_S1000000_n_0_0_1
    (broadcastInDim S10000 ![] bcast_S_S10000 (constant (F := Ideal) S_ .f32 0x00000000#32)) (col x) u

abbrev deg20 (x : IVec S1000000 32) (u : FVec Ideal S1000000 .f32) : FVec Ideal S20000 .f32 :=
  Host.scatterAdd scatter_S20000_S1000000x1_S1000000_n_0_0_1
    (broadcastInDim S20000 ![] bcast_S_S20000 (constant (F := Ideal) S_ .f32 0x00000000#32)) (col x) u

abbrev clip10 (o : FVec Ideal S_ .f32) (x : FVec Ideal S10000 .f32) : FVec Ideal S10000 .f32 :=
  maximumf (broadcastInDim S10000 ![] bcast_S_S10000 o) x

abbrev clip20 (o : FVec Ideal S_ .f32) (x : FVec Ideal S20000 .f32) : FVec Ideal S20000 .f32 :=
  maximumf (broadcastInDim S20000 ![] bcast_S_S20000 o) x

abbrev oneS : FVec Ideal S_ .f32 := constant (F := Ideal) S_ .f32 0x3F800000#32

abbrev adjSG (c20 : FVec Ideal S20000 .f32) (c10 : FVec Ideal S10000 .f32) (xt xs : IVec S1000000 32) :
    FVec Ideal S20000x10000 .bf16 :=
  truncf .bf16 (Host.scatterAdd scatter_S20000x10000_S1000000x2_S1000000_n_01_01_1
    (broadcastInDim S20000x10000 ![] bcast_S_S20000x10000 (constant (F := Ideal) S_ .f32 0x00000000#32))
    (concatenate S1000000x2 1 [⟨S1000000x1, col (wrap 20000#32 xt)⟩, ⟨S1000000x1, col (wrap 10000#32 xs)⟩]
      concatenates_S1000000x1_S1000000x1_S1000000x2_d1)
    (mulf (Host.gather gather_S20000_S1000000x1_S1000000_n_0_n_n_0_1_1 (Host.rsqrt c20) (col (wrap 20000#32 xt)))
      (Host.gather gather_S10000_S1000000x1_S1000000_n_0_n_n_0_1_1 (Host.rsqrt c10) (col (wrap 10000#32 xs)))))
    bitsLt_bf16_f32

abbrev adjGS (c10 : FVec Ideal S10000 .f32) (c20 : FVec Ideal S20000 .f32) (xt xs : IVec S1000000 32) :
    FVec Ideal S10000x20000 .bf16 :=
  truncf .bf16 (Host.scatterAdd scatter_S10000x20000_S1000000x2_S1000000_n_01_01_1
    (broadcastInDim S10000x20000 ![] bcast_S_S10000x20000 (constant (F := Ideal) S_ .f32 0x00000000#32))
    (concatenate S1000000x2 1 [⟨S1000000x1, col (wrap 10000#32 xt)⟩, ⟨S1000000x1, col (wrap 20000#32 xs)⟩]
      concatenates_S1000000x1_S1000000x1_S1000000x2_d1)
    (mulf (Host.gather gather_S10000_S1000000x1_S1000000_n_0_n_n_0_1_1 (Host.rsqrt c10) (col (wrap 10000#32 xt)))
      (Host.gather gather_S20000_S1000000x1_S1000000_n_0_n_n_0_1_1 (Host.rsqrt c20) (col (wrap 20000#32 xs)))))
    bitsLt_bf16_f32

section Stretches

variable (V : Valuation τ sig (Elt Ideal))

abbrev args : List (Ref sig .tc) := [main_arg0, main_arg2, main_arg3, main_arg4, main_arg5, main_arg6, main_arg7]

local macro "not_written" : tactic => `(tactic|
  (refine StableHlo.after_of_forall_not_mem _ _ (List.forall_iff_forall_mem.mp ?_)
   simp only [hostOps0, hostOps0_1, hostOps0_2, hostOps0_3, hostOps0_4, hostOps0_5, hostOps0_6, hostOps0_7, hostOps0_8,
     List.Forall, StableHlo.nullary_writes, StableHlo.unary_writes, StableHlo.binary_writes, StableHlo.ternary_writes,
     StableHlo.reshape_writes, Finset.mem_singleton]
   repeat' apply And.intro
   all_goals exact StableHlo.devRef_ne_of_ne (by decide)))

local macro "mem_cases" h:ident : tactic => `(tactic|
  simp only [args, List.cons_append, List.nil_append, List.mem_cons, List.not_mem_nil, or_false] at $h:ident)

theorem keep0 {r : Ref sig .tc} (hr : r ∈ args) : StableHlo.after (hostOps0 (F := Ideal)) V (Proc.devRef .tc r) = V (Proc.devRef .tc r) := by
  mem_cases hr
  rcases hr with rfl | rfl | rfl | rfl | rfl | rfl | rfl <;> not_written
theorem s0_v0 : StableHlo.after (hostOps0 (F := Ideal)) V (Proc.devRef .tc main_v0) = onesE := by after_results
theorem s0_v3 : StableHlo.after (hostOps0 (F := Ideal)) V (Proc.devRef .tc main_v3) = deg10 (V (Proc.devRef .tc main_arg2)) onesE := by after_results
theorem s0_c1 : StableHlo.after (hostOps0 (F := Ideal)) V (Proc.devRef .tc main_cst_1) = oneS := by after_results

theorem keep1 {r : Ref sig .tc} (hr : r ∈ args ++ [main_v0]) : StableHlo.after (hostOps0_1 (F := Ideal)) V (Proc.devRef .tc r) = V (Proc.devRef .tc r) := by
  mem_cases hr
  rcases hr with rfl | rfl | rfl | rfl | rfl | rfl | rfl | rfl <;> not_written
theorem s1_v4 : StableHlo.after (hostOps0_1 (F := Ideal)) V (Proc.devRef .tc main_v4) = clip10 (V (Proc.devRef .tc main_cst_1)) (V (Proc.devRef .tc main_v3)) := by
  after_results
  all_goals rfl

theorem keep2 {r : Ref sig .tc} (hr : r ∈ args ++ [main_v4]) : StableHlo.after (hostOps0_2 (F := Ideal)) V (Proc.devRef .tc r) = V (Proc.devRef .tc r) := by
  mem_cases hr
  rcases hr with rfl | rfl | rfl | rfl | rfl | rfl | rfl | rfl <;> not_written
theorem s2_v7 : StableHlo.after (hostOps0_2 (F := Ideal)) V (Proc.devRef .tc main_v7) = deg20 (V (Proc.devRef .tc main_arg3)) (V (Proc.devRef .tc main_v0)) := by after_results
theorem s2_c3 : StableHlo.after (hostOps0_2 (F := Ideal)) V (Proc.devRef .tc main_cst_3) = oneS := by after_results

theorem keep3 {r : Ref sig .tc} (hr : r ∈ args ++ [main_v4]) : StableHlo.after (hostOps0_3 (F := Ideal)) V (Proc.devRef .tc r) = V (Proc.devRef .tc r) := by
  mem_cases hr
  rcases hr with rfl | rfl | rfl | rfl | rfl | rfl | rfl | rfl <;> not_written
theorem s3_v8 : StableHlo.after (hostOps0_3 (F := Ideal)) V (Proc.devRef .tc main_v8) = clip20 (V (Proc.devRef .tc main_cst_3)) (V (Proc.devRef .tc main_v7)) := by
  after_results
  all_goals rfl

theorem keep4 {r : Ref sig .tc} (hr : r ∈ args) : StableHlo.after (hostOps0_4 (F := Ideal)) V (Proc.devRef .tc r) = V (Proc.devRef .tc r) := by
  mem_cases hr
  rcases hr with rfl | rfl | rfl | rfl | rfl | rfl | rfl <;> not_written
theorem s4_v41 : StableHlo.after (hostOps0_4 (F := Ideal)) V (Proc.devRef .tc main_v41)
    = adjSG (V (Proc.devRef .tc main_v8)) (V (Proc.devRef .tc main_v4)) (V (Proc.devRef .tc main_arg3)) (V (Proc.devRef .tc main_arg2)) := by
  after_results_simp
  all_goals rfl
theorem s4_v42 : StableHlo.after (hostOps0_4 (F := Ideal)) V (Proc.devRef .tc main_v42) = onesE := by after_results_simp
theorem s4_v45 : StableHlo.after (hostOps0_4 (F := Ideal)) V (Proc.devRef .tc main_v45) = deg20 (V (Proc.devRef .tc main_arg4)) onesE := by after_results_simp
theorem s4_c14 : StableHlo.after (hostOps0_4 (F := Ideal)) V (Proc.devRef .tc main_cst_14) = oneS := by after_results_simp

theorem keep5 {r : Ref sig .tc} (hr : r ∈ args ++ [main_v41, main_v42]) : StableHlo.after (hostOps0_5 (F := Ideal)) V (Proc.devRef .tc r) = V (Proc.devRef .tc r) := by
  mem_cases hr
  rcases hr with rfl | rfl | rfl | rfl | rfl | rfl | rfl | rfl | rfl <;> not_written
theorem s5_v46 : StableHlo.after (hostOps0_5 (F := Ideal)) V (Proc.devRef .tc main_v46) = clip20 (V (Proc.devRef .tc main_cst_14)) (V (Proc.devRef .tc main_v45)) := by
  after_results
  all_goals rfl

theorem keep6 {r : Ref sig .tc} (hr : r ∈ args ++ [main_v41, main_v46]) : StableHlo.after (hostOps0_6 (F := Ideal)) V (Proc.devRef .tc r) = V (Proc.devRef .tc r) := by
  mem_cases hr
  rcases hr with rfl | rfl | rfl | rfl | rfl | rfl | rfl | rfl | rfl <;> not_written
theorem s6_v49 : StableHlo.after (hostOps0_6 (F := Ideal)) V (Proc.devRef .tc main_v49) = deg10 (V (Proc.devRef .tc main_arg5)) (V (Proc.devRef .tc main_v42)) := by after_results
theorem s6_c16 : StableHlo.after (hostOps0_6 (F := Ideal)) V (Proc.devRef .tc main_cst_16) = oneS := by after_results

theorem keep7 {r : Ref sig .tc} (hr : r ∈ args ++ [main_v41, main_v46]) : StableHlo.after (hostOps0_7 (F := Ideal)) V (Proc.devRef .tc r) = V (Proc.devRef .tc r) := by
  mem_cases hr
  rcases hr with rfl | rfl | rfl | rfl | rfl | rfl | rfl | rfl | rfl <;> not_written
theorem s7_v50 : StableHlo.after (hostOps0_7 (F := Ideal)) V (Proc.devRef .tc main_v50) = clip10 (V (Proc.devRef .tc main_cst_16)) (V (Proc.devRef .tc main_v49)) := by
  after_results
  all_goals rfl

theorem keep8 : StableHlo.after (hostOps0_8 (F := Ideal)) V (Proc.devRef .tc main_v41) = V (Proc.devRef .tc main_v41) := by not_written
theorem s8_v83 : StableHlo.after (hostOps0_8 (F := Ideal)) V (Proc.devRef .tc main_v83)
    = adjGS (V (Proc.devRef .tc main_v50)) (V (Proc.devRef .tc main_v46)) (V (Proc.devRef .tc main_arg5)) (V (Proc.devRef .tc main_arg4)) := by
  after_results_simp
  all_goals rfl
theorem s8_v84 : StableHlo.after (hostOps0_8 (F := Ideal)) V (Proc.devRef .tc main_v84)
    = (truncf .bf16 (V (Proc.devRef .tc main_arg0) : FVec Ideal S10000x2000 .f32) bitsLt_bf16_f32 : FVec Ideal S10000x2000 .bf16) := by
  after_results_simp
theorem s8_v85 : StableHlo.after (hostOps0_8 (F := Ideal)) V (Proc.devRef .tc main_v85)
    = (truncf .bf16 (V (Proc.devRef .tc main_arg6) : FVec Ideal S2000x256 .f32) bitsLt_bf16_f32 : FVec Ideal S2000x256 .bf16) := by
  after_results_simp
theorem s8_v86 (i : S1x256.Idx) : StableHlo.after (hostOps0_8 (F := Ideal)) V (Proc.devRef .tc main_v86) i
    = shapeCast S1x256 (V (Proc.devRef .tc main_arg7)) shapeCasts_S256_S1x256 i := by
  after_results_simp
  all_goals rfl

end Stretches

section Fold

variable (m : (ℓ : Loc nD τ sig) → Buf (Elt Ideal) ℓ) (ρ : Dev nD → PrngReg) (c : Dev nD)

theorem W1_arg {r : Ref sig .tc} (hr : r ∈ args) : Gen.W1 m ρ c (Proc.devRef .tc r) = m ((c : Thread nD τ).loc r) :=
  keep0 (Gen.W0 m ρ c) hr
theorem W2_arg {r : Ref sig .tc} (hr : r ∈ args) : Gen.W2 m ρ c (Proc.devRef .tc r) = m ((c : Thread nD τ).loc r) :=
  (keep1 (Gen.W1 m ρ c) (List.mem_append_left _ hr)).trans (W1_arg m ρ c hr)
theorem W3_arg {r : Ref sig .tc} (hr : r ∈ args) : Gen.W3 m ρ c (Proc.devRef .tc r) = m ((c : Thread nD τ).loc r) :=
  (keep2 (Gen.W2 m ρ c) (List.mem_append_left _ hr)).trans (W2_arg m ρ c hr)
theorem W4_arg {r : Ref sig .tc} (hr : r ∈ args) : Gen.W4 m ρ c (Proc.devRef .tc r) = m ((c : Thread nD τ).loc r) :=
  (keep3 (Gen.W3 m ρ c) (List.mem_append_left _ hr)).trans (W3_arg m ρ c hr)
theorem W5_arg {r : Ref sig .tc} (hr : r ∈ args) : Gen.W5 m ρ c (Proc.devRef .tc r) = m ((c : Thread nD τ).loc r) :=
  (keep4 (Gen.W4 m ρ c) hr).trans (W4_arg m ρ c hr)
theorem W6_arg {r : Ref sig .tc} (hr : r ∈ args) : Gen.W6 m ρ c (Proc.devRef .tc r) = m ((c : Thread nD τ).loc r) :=
  (keep5 (Gen.W5 m ρ c) (List.mem_append_left _ hr)).trans (W5_arg m ρ c hr)
theorem W7_arg {r : Ref sig .tc} (hr : r ∈ args) : Gen.W7 m ρ c (Proc.devRef .tc r) = m ((c : Thread nD τ).loc r) :=
  (keep6 (Gen.W6 m ρ c) (List.mem_append_left _ hr)).trans (W6_arg m ρ c hr)
theorem W8_arg {r : Ref sig .tc} (hr : r ∈ args) : Gen.W8 m ρ c (Proc.devRef .tc r) = m ((c : Thread nD τ).loc r) :=
  (keep7 (Gen.W7 m ρ c) (List.mem_append_left _ hr)).trans (W7_arg m ρ c hr)

theorem adjSG_congr {p p' : FVec Ideal S20000 .f32} {q q' : FVec Ideal S10000 .f32} {x x' y y' : IVec S1000000 32}
    (hp : p = p') (hq : q = q') (hx : x = x') (hy : y = y') : adjSG p q x y = adjSG p' q' x' y' := by
  subst hp hq hx hy; rfl
theorem adjGS_congr {p p' : FVec Ideal S10000 .f32} {q q' : FVec Ideal S20000 .f32} {x x' y y' : IVec S1000000 32}
    (hp : p = p') (hq : q = q') (hx : x = x') (hy : y = y') : adjGS p q x y = adjGS p' q' x' y' := by
  subst hp hq hx hy; rfl

theorem W1_v3 : Gen.W1 m ρ c (Proc.devRef .tc main_v3) = deg10 (m ((c : Thread nD τ).loc main_arg2)) onesE :=
  s0_v3 (Gen.W0 m ρ c)
theorem W2_v4 : Gen.W2 m ρ c (Proc.devRef .tc main_v4)
    = clip10 oneS (deg10 (m ((c : Thread nD τ).loc main_arg2)) onesE) :=
  (s1_v4 (Gen.W1 m ρ c)).trans (congrArg₂ clip10 (s0_c1 (Gen.W0 m ρ c)) (W1_v3 m ρ c))
theorem W2_v0 : Gen.W2 m ρ c (Proc.devRef .tc main_v0) = onesE :=
  (keep1 (Gen.W1 m ρ c) (by decide)).trans (s0_v0 (Gen.W0 m ρ c))
theorem W3_v7 : Gen.W3 m ρ c (Proc.devRef .tc main_v7) = deg20 (m ((c : Thread nD τ).loc main_arg3)) onesE :=
  (s2_v7 (Gen.W2 m ρ c)).trans (congrArg₂ deg20 (W2_arg m ρ c (by decide)) (W2_v0 m ρ c))
theorem W3_v4 : Gen.W3 m ρ c (Proc.devRef .tc main_v4)
    = clip10 oneS (deg10 (m ((c : Thread nD τ).loc main_arg2)) onesE) :=
  (keep2 (Gen.W2 m ρ c) (by decide)).trans (W2_v4 m ρ c)
theorem W4_v8 : Gen.W4 m ρ c (Proc.devRef .tc main_v8)
    = clip20 oneS (deg20 (m ((c : Thread nD τ).loc main_arg3)) onesE) :=
  (s3_v8 (Gen.W3 m ρ c)).trans (congrArg₂ clip20 (s2_c3 (Gen.W2 m ρ c)) (W3_v7 m ρ c))
theorem W4_v4 : Gen.W4 m ρ c (Proc.devRef .tc main_v4)
    = clip10 oneS (deg10 (m ((c : Thread nD τ).loc main_arg2)) onesE) :=
  (keep3 (Gen.W3 m ρ c) (by decide)).trans (W3_v4 m ρ c)
theorem W5_v41 : Gen.W5 m ρ c (Proc.devRef .tc main_v41)
    = adjSG (clip20 oneS (deg20 (m ((c : Thread nD τ).loc main_arg3)) onesE))
        (clip10 oneS (deg10 (m ((c : Thread nD τ).loc main_arg2)) onesE))
        (m ((c : Thread nD τ).loc main_arg3)) (m ((c : Thread nD τ).loc main_arg2)) :=
  (s4_v41 (Gen.W4 m ρ c)).trans
    (adjSG_congr (W4_v8 m ρ c) (W4_v4 m ρ c) (W4_arg m ρ c (by decide)) (W4_arg m ρ c (by decide)))

theorem W9_v41 : Gen.W9 m ρ c (Proc.devRef .tc main_v41)
    = adjSG (clip20 oneS (deg20 (m ((c : Thread nD τ).loc main_arg3)) onesE))
        (clip10 oneS (deg10 (m ((c : Thread nD τ).loc main_arg2)) onesE))
        (m ((c : Thread nD τ).loc main_arg3)) (m ((c : Thread nD τ).loc main_arg2)) :=
  (keep8 (Gen.W8 m ρ c)).trans ((keep7 (Gen.W7 m ρ c) (by decide)).trans ((keep6 (Gen.W6 m ρ c) (by decide)).trans
    ((keep5 (Gen.W5 m ρ c) (by decide)).trans (W5_v41 m ρ c))))

theorem W5_v45 : Gen.W5 m ρ c (Proc.devRef .tc main_v45) = deg20 (m ((c : Thread nD τ).loc main_arg4)) onesE :=
  (s4_v45 (Gen.W4 m ρ c)).trans (congrArg (fun x => deg20 x onesE) (W4_arg m ρ c (by decide)))
theorem W6_v46 : Gen.W6 m ρ c (Proc.devRef .tc main_v46)
    = clip20 oneS (deg20 (m ((c : Thread nD τ).loc main_arg4)) onesE) :=
  (s5_v46 (Gen.W5 m ρ c)).trans (congrArg₂ clip20 (s4_c14 (Gen.W4 m ρ c)) (W5_v45 m ρ c))
theorem W6_v42 : Gen.W6 m ρ c (Proc.devRef .tc main_v42) = onesE :=
  (keep5 (Gen.W5 m ρ c) (by decide)).trans (s4_v42 (Gen.W4 m ρ c))
theorem W7_v49 : Gen.W7 m ρ c (Proc.devRef .tc main_v49) = deg10 (m ((c : Thread nD τ).loc main_arg5)) onesE :=
  (s6_v49 (Gen.W6 m ρ c)).trans (congrArg₂ deg10 (W6_arg m ρ c (by decide)) (W6_v42 m ρ c))
theorem W7_v46 : Gen.W7 m ρ c (Proc.devRef .tc main_v46)
    = clip20 oneS (deg20 (m ((c : Thread nD τ).loc main_arg4)) onesE) :=
  (keep6 (Gen.W6 m ρ c) (by decide)).trans (W6_v46 m ρ c)
theorem W8_v50 : Gen.W8 m ρ c (Proc.devRef .tc main_v50)
    = clip10 oneS (deg10 (m ((c : Thread nD τ).loc main_arg5)) onesE) :=
  (s7_v50 (Gen.W7 m ρ c)).trans (congrArg₂ clip10 (s6_c16 (Gen.W6 m ρ c)) (W7_v49 m ρ c))
theorem W8_v46 : Gen.W8 m ρ c (Proc.devRef .tc main_v46)
    = clip20 oneS (deg20 (m ((c : Thread nD τ).loc main_arg4)) onesE) :=
  (keep7 (Gen.W7 m ρ c) (by decide)).trans (W7_v46 m ρ c)

theorem W9_v83 : Gen.W9 m ρ c (Proc.devRef .tc main_v83)
    = adjGS (clip10 oneS (deg10 (m ((c : Thread nD τ).loc main_arg5)) onesE))
        (clip20 oneS (deg20 (m ((c : Thread nD τ).loc main_arg4)) onesE))
        (m ((c : Thread nD τ).loc main_arg5)) (m ((c : Thread nD τ).loc main_arg4)) :=
  (s8_v83 (Gen.W8 m ρ c)).trans
    (adjGS_congr (W8_v50 m ρ c) (W8_v46 m ρ c) (W8_arg m ρ c (by decide)) (W8_arg m ρ c (by decide)))

end Fold

section Operands

variable (m : (ℓ : Loc nD τ sig) → Buf (Elt Ideal) ℓ) (ρ : Dev nD → PrngReg) (c : Dev nD)

theorem x0_val : Gen.V9 m ρ c main_v84 = m ((c : Thread nD τ).loc main_arg0) :=
  (s8_v84 (Gen.W8 m ρ c)).trans (W8_arg m ρ c (r := main_arg0) (by decide))

theorem w0_val : Gen.V9 m ρ c main_v85 = m ((c : Thread nD τ).loc main_arg6) :=
  (s8_v85 (Gen.W8 m ρ c)).trans (W8_arg m ρ c (r := main_arg6) (by decide))

theorem b0_val (j : Fin 256) :
    Gen.V9 m ρ c main_v86 (ix2 (0 : Fin 1) j) = m ((c : Thread nD τ).loc main_arg7) (ix1 j) := by
  refine (s8_v86 (Gen.W8 m ρ c) (ix2 (0 : Fin 1) j)).trans ?_
  refine (shapeCast_a_1a_apply _ shapeCasts_S256_S1x256 (0 : Fin 1) j).trans ?_
  exact congrFun (W8_arg m ρ c (r := main_arg7) (by decide)) (ix1 j)

theorem adj_sg_val (s : Fin 1000000 → Fin 10000) (t : Fin 1000000 → Fin 20000)
    (hs : ∀ e, (m ((c : Thread nD τ).loc main_arg2) (ix1 e)).toInt = (s e : ℤ))
    (ht : ∀ e, (m ((c : Thread nD τ).loc main_arg3) (ix1 e)).toInt = (t e : ℤ)) (d : Fin 20000) (a : Fin 10000) :
    Gen.V9 m ρ c main_v41 (ix2 d a) = GCN.adj s t d a := by
  refine (congrFun (W9_v41 m ρ c) (ix2 d a)).trans ?_
  exact GCN.Read.adj_read scatter_S20000x10000_S1000000x2_S1000000_n_01_01_1 rfl rfl rfl rfl
    gather_S20000_S1000000x1_S1000000_n_0_n_n_0_1_1 rfl rfl rfl rfl
    gather_S10000_S1000000x1_S1000000_n_0_n_n_0_1_1 rfl rfl rfl rfl
    scatter_S20000_S1000000x1_S1000000_n_0_0_1 rfl rfl rfl rfl
    scatter_S10000_S1000000x1_S1000000_n_0_0_1 rfl rfl rfl rfl
    bcast_S_S20000x10000 bcast_S_S20000 bcast_S_S10000 bcast_S_S1000000 bcast_S1000000_S1000000x1_0
    concatenates_S1000000x1_S1000000x1_S1000000x2_d1 bitsLt_bf16_f32 20000#32 10000#32
    (m ((c : Thread nD τ).loc main_arg3)) (m ((c : Thread nD τ).loc main_arg2)) s t hs ht d a

theorem adj_gs_val (s : Fin 1000000 → Fin 20000) (t : Fin 1000000 → Fin 10000)
    (hs : ∀ e, (m ((c : Thread nD τ).loc main_arg4) (ix1 e)).toInt = (s e : ℤ))
    (ht : ∀ e, (m ((c : Thread nD τ).loc main_arg5) (ix1 e)).toInt = (t e : ℤ)) (d : Fin 10000) (a : Fin 20000) :
    Gen.V9 m ρ c main_v83 (ix2 d a) = GCN.adj s t d a := by
  refine (congrFun (W9_v83 m ρ c) (ix2 d a)).trans ?_
  exact GCN.Read.adj_read scatter_S10000x20000_S1000000x2_S1000000_n_01_01_1 rfl rfl rfl rfl
    gather_S10000_S1000000x1_S1000000_n_0_n_n_0_1_1 rfl rfl rfl rfl
    gather_S20000_S1000000x1_S1000000_n_0_n_n_0_1_1 rfl rfl rfl rfl
    scatter_S10000_S1000000x1_S1000000_n_0_0_1 rfl rfl rfl rfl
    scatter_S20000_S1000000x1_S1000000_n_0_0_1 rfl rfl rfl rfl
    bcast_S_S10000x20000 bcast_S_S10000 bcast_S_S20000 bcast_S_S1000000 bcast_S1000000_S1000000x1_0
    concatenates_S1000000x1_S1000000x1_S1000000x2_d1 bitsLt_bf16_f32 10000#32 20000#32
    (m ((c : Thread nD τ).loc main_arg5)) (m ((c : Thread nD τ).loc main_arg4)) s t hs ht d a

end Operands

end Cert.KernelIdeal.Val

end
-- ==== Proof.KKeep.lean ====
import proofs.«426696_j34600256537155_2_alg».proof.Proof.Gen.KernelIdeal.Frame
import Idealize.ShloMosaic.Lib.ValueIdx
import Idealize.ShloMosaic.Lib.StableHlo
import Idealize.ShloMosaic.Lib.StableHlo.Run
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe
open Idealize.ShloMosaic.ValueIdx

section Host

variable {F : FTy → Type} [FloatOps F] (v : Valuation τ sig (Elt F)) (b : Ref sig .tc)

theorem kk_after_one (op : HloOp τ sig (Elt F)) (y : Ref sig .tc) (hw : op.writes = {Proc.devRef .tc y}) (h : b ≠ y) :
    StableHlo.after [op] v (Proc.devRef .tc b) = v (Proc.devRef .tc b) :=
  StableHlo.after_of_forall_not_mem _ _ fun o ho => by
    rw [List.mem_singleton.mp ho, hw, Finset.mem_singleton]
    exact StableHlo.devRef_ne_of_ne h

theorem kk_host1 (h : b ≠ main_v88 ∧ b ≠ main_v89 ∧ b ≠ main_v90) :
    StableHlo.after hostOps1 v (Proc.devRef .tc b) = v (Proc.devRef .tc b) :=
  StableHlo.after_of_forall_not_mem _ _ (List.forall_iff_forall_mem.mp (by
    simp only [hostOps1, List.Forall, StableHlo.unary_writes, StableHlo.reshape_writes, Finset.mem_singleton]
    exact ⟨StableHlo.devRef_ne_of_ne h.1, StableHlo.devRef_ne_of_ne h.2.1, StableHlo.devRef_ne_of_ne h.2.2⟩))

theorem kk_host2 (h : b ≠ main_v92) : StableHlo.after hostOps2 v (Proc.devRef .tc b) = v (Proc.devRef .tc b) :=
  kk_after_one v b _ main_v92 rfl h
theorem kk_host3 (h : b ≠ main_v94) : StableHlo.after hostOps3 v (Proc.devRef .tc b) = v (Proc.devRef .tc b) :=
  kk_after_one v b _ main_v94 rfl h
theorem kk_host4 (h : b ≠ main_v96) : StableHlo.after hostOps4 v (Proc.devRef .tc b) = v (Proc.devRef .tc b) :=
  kk_after_one v b _ main_v96 rfl h
theorem kk_host5 (h : b ≠ main_v98) : StableHlo.after hostOps5 v (Proc.devRef .tc b) = v (Proc.devRef .tc b) :=
  kk_after_one v b _ main_v98 rfl h
theorem kk_host6 (h : b ≠ main_v100) : StableHlo.after hostOps6 v (Proc.devRef .tc b) = v (Proc.devRef .tc b) :=
  kk_after_one v b _ main_v100 rfl h
theorem kk_host7 (h : b ≠ main_v102) : StableHlo.after hostOps7 v (Proc.devRef .tc b) = v (Proc.devRef .tc b) :=
  kk_after_one v b _ main_v102 rfl h
theorem kk_host8 (h : b ≠ main_v104) : StableHlo.after hostOps8 v (Proc.devRef .tc b) = v (Proc.devRef .tc b) :=
  kk_after_one v b _ main_v104 rfl h
theorem kk_host9 (h : b ≠ main_v106) : StableHlo.after hostOps9 v (Proc.devRef .tc b) = v (Proc.devRef .tc b) :=
  kk_after_one v b _ main_v106 rfl h
theorem kk_host10 (h : b ≠ main_v108) : StableHlo.after hostOps10 v (Proc.devRef .tc b) = v (Proc.devRef .tc b) :=
  kk_after_one v b _ main_v108 rfl h
theorem kk_host11 (h : b ≠ main_v110) : StableHlo.after hostOps11 v (Proc.devRef .tc b) = v (Proc.devRef .tc b) :=
  kk_after_one v b _ main_v110 rfl h
theorem kk_host12 (h : b ≠ main_v112) : StableHlo.after hostOps12 v (Proc.devRef .tc b) = v (Proc.devRef .tc b) :=
  kk_after_one v b _ main_v112 rfl h
theorem kk_host13 (h : b ≠ main_v114) : StableHlo.after hostOps13 v (Proc.devRef .tc b) = v (Proc.devRef .tc b) :=
  kk_after_one v b _ main_v114 rfl h

end Host

section Pair

variable {F : FTy → Type} [FloatOps F]
variable (m : (ℓ : Loc nD τ sig) → Buf (Elt F) ℓ) (ρ : Dev nD → PrngReg) (c : Dev nD) (b : Ref sig .tc)

theorem kk_pair1 (hh : b ≠ main_v88 ∧ b ≠ main_v89 ∧ b ≠ main_v90) (hr : ∀ w, Pipeline.arrRef spec1 w ≠ b) :
    Gen.W12 m ρ c (Proc.devRef .tc b) = Gen.W10 m ρ c (Proc.devRef .tc b) :=
  (Gen.W12_of_ne m ρ c b hr).trans (kk_host1 _ b hh)
theorem kk_pair2 (hh : b ≠ main_v92) (hr : ∀ w, Pipeline.arrRef spec2 w ≠ b) :
    Gen.W14 m ρ c (Proc.devRef .tc b) = Gen.W12 m ρ c (Proc.devRef .tc b) :=
  (Gen.W14_of_ne m ρ c b hr).trans (kk_host2 _ b hh)
theorem kk_pair3 (hh : b ≠ main_v94) (hr : ∀ w, Pipeline.arrRef spec3 w ≠ b) :
    Gen.W16 m ρ c (Proc.devRef .tc b) = Gen.W14 m ρ c (Proc.devRef .tc b) :=
  (Gen.W16_of_ne m ρ c b hr).trans (kk_host3 _ b hh)
theorem kk_pair4 (hh : b ≠ main_v96) (hr : ∀ w, Pipeline.arrRef spec4 w ≠ b) :
    Gen.W18 m ρ c (Proc.devRef .tc b) = Gen.W16 m ρ c (Proc.devRef .tc b) :=
  (Gen.W18_of_ne m ρ c b hr).trans (kk_host4 _ b hh)
theorem kk_pair5 (hh : b ≠ main_v98) (hr : ∀ w, Pipeline.arrRef spec5 w ≠ b) :
    Gen.W20 m ρ c (Proc.devRef .tc b) = Gen.W18 m ρ c (Proc.devRef .tc b) :=
  (Gen.W20_of_ne m ρ c b hr).trans (kk_host5 _ b hh)
theorem kk_pair6 (hh : b ≠ main_v100) (hr : ∀ w, Pipeline.arrRef spec6 w ≠ b) :
    Gen.W22 m ρ c (Proc.devRef .tc b) = Gen.W20 m ρ c (Proc.devRef .tc b) :=
  (Gen.W22_of_ne m ρ c b hr).trans (kk_host6 _ b hh)
theorem kk_pair7 (hh : b ≠ main_v102) (hr : ∀ w, Pipeline.arrRef spec7 w ≠ b) :
    Gen.W24 m ρ c (Proc.devRef .tc b) = Gen.W22 m ρ c (Proc.devRef .tc b) :=
  (Gen.W24_of_ne m ρ c b hr).trans (kk_host7 _ b hh)
theorem kk_pair8 (hh : b ≠ main_v104) (hr : ∀ w, Pipeline.arrRef spec8 w ≠ b) :
    Gen.W26 m ρ c (Proc.devRef .tc b) = Gen.W24 m ρ c (Proc.devRef .tc b) :=
  (Gen.W26_of_ne m ρ c b hr).trans (kk_host8 _ b hh)
theorem kk_pair9 (hh : b ≠ main_v106) (hr : ∀ w, Pipeline.arrRef spec9 w ≠ b) :
    Gen.W28 m ρ c (Proc.devRef .tc b) = Gen.W26 m ρ c (Proc.devRef .tc b) :=
  (Gen.W28_of_ne m ρ c b hr).trans (kk_host9 _ b hh)
theorem kk_pair10 (hh : b ≠ main_v108) (hr : ∀ w, Pipeline.arrRef spec10 w ≠ b) :
    Gen.W30 m ρ c (Proc.devRef .tc b) = Gen.W28 m ρ c (Proc.devRef .tc b) :=
  (Gen.W30_of_ne m ρ c b hr).trans (kk_host10 _ b hh)
theorem kk_pair11 (hh : b ≠ main_v110) (hr : ∀ w, Pipeline.arrRef spec11 w ≠ b) :
    Gen.W32 m ρ c (Proc.devRef .tc b) = Gen.W30 m ρ c (Proc.devRef .tc b) :=
  (Gen.W32_of_ne m ρ c b hr).trans (kk_host11 _ b hh)
theorem kk_pair12 (hh : b ≠ main_v112) (hr : ∀ w, Pipeline.arrRef spec12 w ≠ b) :
    Gen.W34 m ρ c (Proc.devRef .tc b) = Gen.W32 m ρ c (Proc.devRef .tc b) :=
  (Gen.W34_of_ne m ρ c b hr).trans (kk_host12 _ b hh)
theorem kk_pair13 (hh : b ≠ main_v114) (hr : ∀ w, Pipeline.arrRef spec13 w ≠ b) :
    Gen.W36 m ρ c (Proc.devRef .tc b) = Gen.W34 m ρ c (Proc.devRef .tc b) :=
  (Gen.W36_of_ne m ρ c b hr).trans (kk_host13 _ b hh)

end Pair

section Kept

variable {F : FTy → Type} [FloatOps F]
variable (m : (ℓ : Loc nD τ sig) → Buf (Elt F) ℓ) (ρ : Dev nD → PrngReg) (c : Dev nD)

theorem kept_R2_x : Gen.V13 m ρ c main_v87 = Gen.V10 m ρ c main_v87 :=
  (kk_host2 _ main_v87 (by decide)).trans (kk_pair1 m ρ c main_v87 (by decide) (by decide))

theorem kept_R3_x : Gen.V15 m ρ c main_v91 = Gen.V12 m ρ c main_v91 :=
  (kk_host3 _ main_v91 (by decide)).trans (kk_pair2 m ρ c main_v91 (by decide) (by decide))

theorem kept_R4_a : Gen.V17 m ρ c main_v41 = Gen.V9 m ρ c main_v41 :=
  (kk_host4 _ main_v41 (by decide)).trans <|
  (kk_pair3 m ρ c main_v41 (by decide) (by decide)).trans <|
  (kk_pair2 m ρ c main_v41 (by decide) (by decide)).trans <|
  (kk_pair1 m ρ c main_v41 (by decide) (by decide)).trans (Gen.W10_of_ne m ρ c main_v41 (by decide))

theorem kept_R4_hw : Gen.V17 m ρ c main_v93 = Gen.V14 m ρ c main_v93 :=
  (kk_host4 _ main_v93 (by decide)).trans (kk_pair3 m ρ c main_v93 (by decide) (by decide))

theorem kept_R5_a : Gen.V19 m ρ c main_v83 = Gen.V9 m ρ c main_v83 :=
  (kk_host5 _ main_v83 (by decide)).trans <|
  (kk_pair4 m ρ c main_v83 (by decide) (by decide)).trans <|
  (kk_pair3 m ρ c main_v83 (by decide) (by decide)).trans <|
  (kk_pair2 m ρ c main_v83 (by decide) (by decide)).trans <|
  (kk_pair1 m ρ c main_v83 (by decide) (by decide)).trans (Gen.W10_of_ne m ρ c main_v83 (by decide))

theorem kept_R5_hw : Gen.V19 m ρ c main_v95 = Gen.V16 m ρ c main_v95 :=
  (kk_host5 _ main_v95 (by decide)).trans (kk_pair4 m ρ c main_v95 (by decide) (by decide))

theorem kept_R6_x : Gen.V21 m ρ c main_v99 = Gen.V20 m ρ c main_v99 :=
  kk_host6 _ main_v99 (by decide)

theorem kept_R7_x : Gen.V23 m ρ c main_v97 = Gen.V18 m ρ c main_v97 :=
  (kk_host7 _ main_v97 (by decide)).trans <|
  (kk_pair6 m ρ c main_v97 (by decide) (by decide)).trans (kk_pair5 m ρ c main_v97 (by decide) (by decide))

end Kept

section Args

variable {F : FTy → Type} [FloatOps F]
variable (m : (ℓ : Loc nD τ sig) → Buf (Elt F) ℓ) (ρ : Dev nD → PrngReg) (c : Dev nD) (b : Ref sig .tc)

def kk_Untouched (b : Ref sig .tc) : Prop :=
  ((b ≠ main_v88 ∧ b ≠ main_v89 ∧ b ≠ main_v90) ∧ ∀ w, Pipeline.arrRef spec1 w ≠ b) ∧
  (b ≠ main_v92 ∧ ∀ w, Pipeline.arrRef spec2 w ≠ b) ∧
  (b ≠ main_v94 ∧ ∀ w, Pipeline.arrRef spec3 w ≠ b) ∧
  (b ≠ main_v96 ∧ ∀ w, Pipeline.arrRef spec4 w ≠ b) ∧
  (b ≠ main_v98 ∧ ∀ w, Pipeline.arrRef spec5 w ≠ b) ∧
  (b ≠ main_v100 ∧ ∀ w, Pipeline.arrRef spec6 w ≠ b) ∧
  (b ≠ main_v102 ∧ ∀ w, Pipeline.arrRef spec7 w ≠ b) ∧
  (b ≠ main_v104 ∧ ∀ w, Pipeline.arrRef spec8 w ≠ b) ∧
  (b ≠ main_v106 ∧ ∀ w, Pipeline.arrRef spec9 w ≠ b) ∧
  (b ≠ main_v108 ∧ ∀ w, Pipeline.arrRef spec10 w ≠ b) ∧
  (b ≠ main_v110 ∧ ∀ w, Pipeline.arrRef spec11 w ≠ b) ∧
  (b ≠ main_v112 ∧ ∀ w, Pipeline.arrRef spec12 w ≠ b) ∧
  (b ≠ main_v114 ∧ ∀ w, Pipeline.arrRef spec13 w ≠ b)

instance kk_Untouched_dec (b : Ref sig .tc) : Decidable (kk_Untouched b) := by unfold kk_Untouched; infer_instance

theorem kk_tail7 (h : kk_Untouched b) : Gen.W36 m ρ c (Proc.devRef .tc b) = Gen.W22 m ρ c (Proc.devRef .tc b) := by
  obtain ⟨-, -, -, -, -, -, h7, h8, h9, h10, h11, h12, h13⟩ := h
  exact (kk_pair13 m ρ c b h13.1 h13.2).trans <| (kk_pair12 m ρ c b h12.1 h12.2).trans <|
    (kk_pair11 m ρ c b h11.1 h11.2).trans <| (kk_pair10 m ρ c b h10.1 h10.2).trans <|
    (kk_pair9 m ρ c b h9.1 h9.2).trans <| (kk_pair8 m ρ c b h8.1 h8.2).trans (kk_pair7 m ρ c b h7.1 h7.2)

theorem kk_tail6 (h : kk_Untouched b) : Gen.W36 m ρ c (Proc.devRef .tc b) = Gen.W20 m ρ c (Proc.devRef .tc b) :=
  (kk_tail7 m ρ c b h).trans (kk_pair6 m ρ c b h.2.2.2.2.2.1.1 h.2.2.2.2.2.1.2)

theorem kk_tail5 (h : kk_Untouched b) : Gen.W36 m ρ c (Proc.devRef .tc b) = Gen.W18 m ρ c (Proc.devRef .tc b) :=
  (kk_tail6 m ρ c b h).trans (kk_pair5 m ρ c b h.2.2.2.2.1.1 h.2.2.2.2.1.2)

theorem kk_tail4 (h : kk_Untouched b) : Gen.W36 m ρ c (Proc.devRef .tc b) = Gen.W16 m ρ c (Proc.devRef .tc b) :=
  (kk_tail5 m ρ c b h).trans (kk_pair4 m ρ c b h.2.2.2.1.1 h.2.2.2.1.2)

theorem kk_tail3 (h : kk_Untouched b) : Gen.W36 m ρ c (Proc.devRef .tc b) = Gen.W14 m ρ c (Proc.devRef .tc b) :=
  (kk_tail4 m ρ c b h).trans (kk_pair3 m ρ c b h.2.2.1.1 h.2.2.1.2)

theorem kk_tail2 (h : kk_Untouched b) : Gen.W36 m ρ c (Proc.devRef .tc b) = Gen.W12 m ρ c (Proc.devRef .tc b) :=
  (kk_tail3 m ρ c b h).trans (kk_pair2 m ρ c b h.2.1.1 h.2.1.2)

theorem kk_tail1 (h : kk_Untouched b) : Gen.W36 m ρ c (Proc.devRef .tc b) = Gen.W10 m ρ c (Proc.devRef .tc b) :=
  (kk_tail2 m ρ c b h).trans (kk_pair1 m ρ c b h.1.1 h.1.2)

theorem kk_arg1 : Gen.W10 m ρ c (Proc.devRef .tc main_arg1) = m ((c : Thread nD τ).loc main_arg1) :=
  (kk_tail1 m ρ c main_arg1 (by decide)).symm.trans (Gen.W36_main_arg1 m ρ c)
theorem kk_arg8 : Gen.W10 m ρ c (Proc.devRef .tc main_arg8) = m ((c : Thread nD τ).loc main_arg8) :=
  (kk_tail1 m ρ c main_arg8 (by decide)).symm.trans (Gen.W36_main_arg8 m ρ c)
theorem kk_arg9 : Gen.W10 m ρ c (Proc.devRef .tc main_arg9) = m ((c : Thread nD τ).loc main_arg9) :=
  (kk_tail1 m ρ c main_arg9 (by decide)).symm.trans (Gen.W36_main_arg9 m ρ c)
theorem kk_arg10 : Gen.W12 m ρ c (Proc.devRef .tc main_arg10) = m ((c : Thread nD τ).loc main_arg10) :=
  (kk_tail2 m ρ c main_arg10 (by decide)).symm.trans (Gen.W36_main_arg10 m ρ c)
theorem kk_arg12 : Gen.W14 m ρ c (Proc.devRef .tc main_arg12) = m ((c : Thread nD τ).loc main_arg12) :=
  (kk_tail3 m ρ c main_arg12 (by decide)).symm.trans (Gen.W36_main_arg12 m ρ c)
theorem kk_arg11 : Gen.W16 m ρ c (Proc.devRef .tc main_arg11) = m ((c : Thread nD τ).loc main_arg11) :=
  (kk_tail4 m ρ c main_arg11 (by decide)).symm.trans (Gen.W36_main_arg11 m ρ c)
theorem kk_arg13 : Gen.W18 m ρ c (Proc.devRef .tc main_arg13) = m ((c : Thread nD τ).loc main_arg13) :=
  (kk_tail5 m ρ c main_arg13 (by decide)).symm.trans (Gen.W36_main_arg13 m ρ c)
theorem kk_arg14 : Gen.W20 m ρ c (Proc.devRef .tc main_arg14) = m ((c : Thread nD τ).loc main_arg14) :=
  (kk_tail6 m ρ c main_arg14 (by decide)).symm.trans (Gen.W36_main_arg14 m ρ c)
theorem kk_arg16 : Gen.W22 m ρ c (Proc.devRef .tc main_arg16) = m ((c : Thread nD τ).loc main_arg16) :=
  (kk_tail7 m ρ c main_arg16 (by decide)).symm.trans (Gen.W36_main_arg16 m ρ c)

end Args

theorem kk_row_of_vec {α : Type} (x : S256.Idx → α) (h : S256.ShapeCasts S1x256) (j : Fin 256) :
    shapeCast S1x256 x h (ix2 (0 : Fin 1) j) = x (ix1 j) :=
  shapeCast_apply x h (ix2 (0 : Fin 1) j) (ix1 j) (by
    rw [Shape.rowMajor_val_one, Shape.rowMajor_val_two]
    show j.val = (0 : Fin 1).val * 256 + j.val
    simp)

section Bias

variable {F : FTy → Type} [FloatOps F]
variable (m : (ℓ : Loc nD τ sig) → Buf (Elt F) ℓ) (ρ : Dev nD → PrngReg) (c : Dev nD)

theorem b_R1 (j : Fin 256) : Gen.V11 m ρ c main_v90 (ix2 (0 : Fin 1) j) = m ((c : Thread nD τ).loc main_arg9) (ix1 j) := by
  show Gen.W11 m ρ c (Proc.devRef .tc main_v90) (ix2 (0 : Fin 1) j) = _
  dsimp only [Gen.W11]; simp only [Gen.hostOps1]; after_results
  show shapeCast S1x256 (Gen.W10 m ρ c (Proc.devRef .tc main_arg9)) _ (ix2 (0 : Fin 1) j) = _
  rw [kk_row_of_vec, kk_arg9]

theorem b_R4 (j : Fin 256) : Gen.V17 m ρ c main_v96 (ix2 (0 : Fin 1) j) = m ((c : Thread nD τ).loc main_arg11) (ix1 j) := by
  show Gen.W17 m ρ c (Proc.devRef .tc main_v96) (ix2 (0 : Fin 1) j) = _
  dsimp only [Gen.W17]; simp only [Gen.hostOps4]; after_results
  show shapeCast S1x256 (Gen.W16 m ρ c (Proc.devRef .tc main_arg11)) _ (ix2 (0 : Fin 1) j) = _
  rw [kk_row_of_vec, kk_arg11]

theorem b_R5 (j : Fin 256) : Gen.V19 m ρ c main_v98 (ix2 (0 : Fin 1) j) = m ((c : Thread nD τ).loc main_arg13) (ix1 j) := by
  show Gen.W19 m ρ c (Proc.devRef .tc main_v98) (ix2 (0 : Fin 1) j) = _
  dsimp only [Gen.W19]; simp only [Gen.hostOps5]; after_results
  show shapeCast S1x256 (Gen.W18 m ρ c (Proc.devRef .tc main_arg13)) _ (ix2 (0 : Fin 1) j) = _
  rw [kk_row_of_vec, kk_arg13]

end Bias

section Weights

variable (m : (ℓ : Loc nD τ sig) → Buf (Elt Ideal) ℓ) (ρ : Dev nD → PrngReg) (c : Dev nD)

theorem x_R1 : Gen.V11 m ρ c main_v88 = m ((c : Thread nD τ).loc main_arg1) := by
  show Gen.W11 m ρ c (Proc.devRef .tc main_v88) = _
  dsimp only [Gen.W11]; simp only [Gen.hostOps1]; after_results
  exact kk_arg1 m ρ c

theorem w_R1 : Gen.V11 m ρ c main_v89 = m ((c : Thread nD τ).loc main_arg8) := by
  show Gen.W11 m ρ c (Proc.devRef .tc main_v89) = _
  dsimp only [Gen.W11]; simp only [Gen.hostOps1]; after_results
  exact kk_arg8 m ρ c

theorem w_R2 : Gen.V13 m ρ c main_v92 = m ((c : Thread nD τ).loc main_arg10) := by
  show Gen.W13 m ρ c (Proc.devRef .tc main_v92) = _
  dsimp only [Gen.W13]; simp only [Gen.hostOps2]; after_results
  exact kk_arg10 m ρ c

theorem w_R3 : Gen.V15 m ρ c main_v94 = m ((c : Thread nD τ).loc main_arg12) := by
  show Gen.W15 m ρ c (Proc.devRef .tc main_v94) = _
  dsimp only [Gen.W15]; simp only [Gen.hostOps3]; after_results
  exact kk_arg12 m ρ c

theorem w_R6 : Gen.V21 m ρ c main_v100 = m ((c : Thread nD τ).loc main_arg14) := by
  show Gen.W21 m ρ c (Proc.devRef .tc main_v100) = _
  dsimp only [Gen.W21]; simp only [Gen.hostOps6]; after_results
  exact kk_arg14 m ρ c

theorem w_R7 : Gen.V23 m ρ c main_v102 = m ((c : Thread nD τ).loc main_arg16) := by
  show Gen.W23 m ρ c (Proc.devRef .tc main_v102) = _
  dsimp only [Gen.W23]; simp only [Gen.hostOps7]; after_results
  exact kk_arg16 m ρ c

end Weights

end Cert.KernelIdeal.Val

end
-- ==== Proof.KKeep2.lean ====
import proofs.«426696_j34600256537155_2_alg».proof.Proof.Gen.KernelIdeal.Frame
import proofs.«426696_j34600256537155_2_alg».proof.Proof.KKeep
import Idealize.ShloMosaic.Lib.ValueIdx
import Idealize.ShloMosaic.Lib.Pipeline.Value
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

theorem kk2_in4 (c : Dev nD) : W18 m ρ c (Proc.devRef .tc main_v41) = W17 m ρ c (Proc.devRef .tc main_v41) :=
  (W18_arr m ρ c 0).trans (((dat4 (V17 m ρ) c).arrAt_in 0 rfl _).trans (A_eq4 (V17 m ρ) c 0))
theorem kk2_in8 (c : Dev nD) : W26 m ρ c (Proc.devRef .tc main_v41) = W25 m ρ c (Proc.devRef .tc main_v41) :=
  (W26_arr m ρ c 0).trans (((dat8 (V25 m ρ) c).arrAt_in 0 rfl _).trans (A_eq8 (V25 m ρ) c 0))

theorem kk2_in5 (c : Dev nD) : W20 m ρ c (Proc.devRef .tc main_v83) = W19 m ρ c (Proc.devRef .tc main_v83) :=
  (W20_arr m ρ c 0).trans (((dat5 (V19 m ρ) c).arrAt_in 0 rfl _).trans (A_eq5 (V19 m ρ) c 0))
theorem kk2_in9 (c : Dev nD) : W28 m ρ c (Proc.devRef .tc main_v83) = W27 m ρ c (Proc.devRef .tc main_v83) :=
  (W28_arr m ρ c 0).trans (((dat9 (V27 m ρ) c).arrAt_in 0 rfl _).trans (A_eq9 (V27 m ρ) c 0))

theorem kk2_a41_17 (c : Dev nD) : W17 m ρ c (Proc.devRef .tc main_v41) = W9 m ρ c (Proc.devRef .tc main_v41) :=
  (kk_host4 (W16 m ρ c) main_v41 (by decide)).trans
  ((kk_pair3 m ρ c main_v41 (by decide) (by decide)).trans
  ((kk_pair2 m ρ c main_v41 (by decide) (by decide)).trans
  ((kk_pair1 m ρ c main_v41 ⟨by decide, by decide, by decide⟩ (by decide)).trans
  (W10_of_ne m ρ c main_v41 (by decide)))))

theorem kk2_a41_25 (c : Dev nD) : W25 m ρ c (Proc.devRef .tc main_v41) = W9 m ρ c (Proc.devRef .tc main_v41) :=
  (kk_host8 (W24 m ρ c) main_v41 (by decide)).trans
  ((kk_pair7 m ρ c main_v41 (by decide) (by decide)).trans
  ((kk_pair6 m ρ c main_v41 (by decide) (by decide)).trans
  ((kk_pair5 m ρ c main_v41 (by decide) (by decide)).trans
  ((kk2_in4 m ρ c).trans (kk2_a41_17 m ρ c)))))

theorem kk2_a41_33 (c : Dev nD) : W33 m ρ c (Proc.devRef .tc main_v41) = W9 m ρ c (Proc.devRef .tc main_v41) :=
  (kk_host12 (W32 m ρ c) main_v41 (by decide)).trans
  ((kk_pair11 m ρ c main_v41 (by decide) (by decide)).trans
  ((kk_pair10 m ρ c main_v41 (by decide) (by decide)).trans
  ((kk_pair9 m ρ c main_v41 (by decide) (by decide)).trans
  ((kk2_in8 m ρ c).trans (kk2_a41_25 m ρ c)))))

theorem kk2_a83_19 (c : Dev nD) : W19 m ρ c (Proc.devRef .tc main_v83) = W9 m ρ c (Proc.devRef .tc main_v83) :=
  (kk_host5 (W18 m ρ c) main_v83 (by decide)).trans
  ((kk_pair4 m ρ c main_v83 (by decide) (by decide)).trans
  ((kk_pair3 m ρ c main_v83 (by decide) (by decide)).trans
  ((kk_pair2 m ρ c main_v83 (by decide) (by decide)).trans
  ((kk_pair1 m ρ c main_v83 ⟨by decide, by decide, by decide⟩ (by decide)).trans
  (W10_of_ne m ρ c main_v83 (by decide))))))

theorem kk2_a83_27 (c : Dev nD) : W27 m ρ c (Proc.devRef .tc main_v83) = W9 m ρ c (Proc.devRef .tc main_v83) :=
  (kk_host9 (W26 m ρ c) main_v83 (by decide)).trans
  ((kk_pair8 m ρ c main_v83 (by decide) (by decide)).trans
  ((kk_pair7 m ρ c main_v83 (by decide) (by decide)).trans
  ((kk_pair6 m ρ c main_v83 (by decide) (by decide)).trans
  ((kk2_in5 m ρ c).trans (kk2_a83_19 m ρ c)))))

theorem kk2_a83_35 (c : Dev nD) : W35 m ρ c (Proc.devRef .tc main_v83) = W9 m ρ c (Proc.devRef .tc main_v83) :=
  (kk_host13 (W34 m ρ c) main_v83 (by decide)).trans
  ((kk_pair12 m ρ c main_v83 (by decide) (by decide)).trans
  ((kk_pair11 m ρ c main_v83 (by decide) (by decide)).trans
  ((kk_pair10 m ρ c main_v83 (by decide) (by decide)).trans
  ((kk2_in9 m ρ c).trans (kk2_a83_27 m ρ c)))))

theorem kk2_arg15_24 (c : Dev nD) : W24 m ρ c (Proc.devRef .tc main_arg15) = m ((c : Thread nD τ).loc main_arg15) :=
  ((kk_pair13 m ρ c main_arg15 (by decide) (by decide)).trans
  ((kk_pair12 m ρ c main_arg15 (by decide) (by decide)).trans
  ((kk_pair11 m ρ c main_arg15 (by decide) (by decide)).trans
  ((kk_pair10 m ρ c main_arg15 (by decide) (by decide)).trans
  ((kk_pair9 m ρ c main_arg15 (by decide) (by decide)).trans
  (kk_pair8 m ρ c main_arg15 (by decide) (by decide))))))).symm.trans (W36_main_arg15 m ρ c)

theorem kk2_arg17_26 (c : Dev nD) : W26 m ρ c (Proc.devRef .tc main_arg17) = m ((c : Thread nD τ).loc main_arg17) :=
  ((kk_pair13 m ρ c main_arg17 (by decide) (by decide)).trans
  ((kk_pair12 m ρ c main_arg17 (by decide) (by decide)).trans
  ((kk_pair11 m ρ c main_arg17 (by decide) (by decide)).trans
  ((kk_pair10 m ρ c main_arg17 (by decide) (by decide)).trans
  (kk_pair9 m ρ c main_arg17 (by decide) (by decide)))))).symm.trans (W36_main_arg17 m ρ c)

theorem kk2_arg18_28 (c : Dev nD) : W28 m ρ c (Proc.devRef .tc main_arg18) = m ((c : Thread nD τ).loc main_arg18) :=
  ((kk_pair13 m ρ c main_arg18 (by decide) (by decide)).trans
  ((kk_pair12 m ρ c main_arg18 (by decide) (by decide)).trans
  ((kk_pair11 m ρ c main_arg18 (by decide) (by decide)).trans
  (kk_pair10 m ρ c main_arg18 (by decide) (by decide))))).symm.trans (W36_main_arg18 m ρ c)

theorem kk2_arg20_30 (c : Dev nD) : W30 m ρ c (Proc.devRef .tc main_arg20) = m ((c : Thread nD τ).loc main_arg20) :=
  ((kk_pair13 m ρ c main_arg20 (by decide) (by decide)).trans
  ((kk_pair12 m ρ c main_arg20 (by decide) (by decide)).trans
  (kk_pair11 m ρ c main_arg20 (by decide) (by decide)))).symm.trans (W36_main_arg20 m ρ c)

theorem kk2_arg19_32 (c : Dev nD) : W32 m ρ c (Proc.devRef .tc main_arg19) = m ((c : Thread nD τ).loc main_arg19) :=
  ((kk_pair13 m ρ c main_arg19 (by decide) (by decide)).trans
  (kk_pair12 m ρ c main_arg19 (by decide) (by decide))).symm.trans (W36_main_arg19 m ρ c)

theorem kk2_arg21_34 (c : Dev nD) : W34 m ρ c (Proc.devRef .tc main_arg21) = m ((c : Thread nD τ).loc main_arg21) :=
  (kk_pair13 m ρ c main_arg21 (by decide) (by decide)).symm.trans (W36_main_arg21 m ρ c)

theorem kept_R8_a (c : Dev nD) : Gen.V25 m ρ c main_v41 = Gen.V9 m ρ c main_v41 := kk2_a41_25 m ρ c

theorem kept_R8_hw (c : Dev nD) : Gen.V25 m ρ c main_v101 = Gen.V22 m ρ c main_v101 :=
  (kk_host8 (W24 m ρ c) main_v101 (by decide)).trans
  ((W24_of_ne m ρ c main_v101 (by decide)).trans (kk_host7 (W22 m ρ c) main_v101 (by decide)))

theorem b_R8 (c : Dev nD) (j : Fin 128) :
    Gen.V25 m ρ c main_v104 (ix2 (0 : Fin 1) j) = m ((c : Thread nD τ).loc main_arg15) (ix1 j) := by
  have e : (V25 m ρ c main_v104 : Vec Ideal S1x128 .f32)
      = shapeCast S1x128 (W24 m ρ c (Proc.devRef .tc main_arg15) : Vec Ideal S128 .f32) shapeCasts_S128_S1x128 := by
    show StableHlo.after hostOps8 (W24 m ρ c) (Proc.devRef .tc main_v104) = _
    after_results; rfl
  refine (congrFun e (ix2 (0 : Fin 1) j)).trans ?_
  refine (shapeCast_apply _ _ (ix2 (0 : Fin 1) j) (ix1 j) ?_).trans (congrFun (kk2_arg15_24 m ρ c) (ix1 j))
  rw [Shape.rowMajor_val_one, Shape.rowMajor_val_two]
  show j.val = 0 * 128 + j.val
  omega

theorem kept_R9_a (c : Dev nD) : Gen.V27 m ρ c main_v83 = Gen.V9 m ρ c main_v83 := kk2_a83_27 m ρ c

theorem kept_R9_hw (c : Dev nD) : Gen.V27 m ρ c main_v103 = Gen.V24 m ρ c main_v103 :=
  (kk_host9 (W26 m ρ c) main_v103 (by decide)).trans
  ((W26_of_ne m ρ c main_v103 (by decide)).trans (kk_host8 (W24 m ρ c) main_v103 (by decide)))

theorem b_R9 (c : Dev nD) (j : Fin 128) :
    Gen.V27 m ρ c main_v106 (ix2 (0 : Fin 1) j) = m ((c : Thread nD τ).loc main_arg17) (ix1 j) := by
  have e : (V27 m ρ c main_v106 : Vec Ideal S1x128 .f32)
      = shapeCast S1x128 (W26 m ρ c (Proc.devRef .tc main_arg17) : Vec Ideal S128 .f32) shapeCasts_S128_S1x128 := by
    show StableHlo.after hostOps9 (W26 m ρ c) (Proc.devRef .tc main_v106) = _
    after_results; rfl
  refine (congrFun e (ix2 (0 : Fin 1) j)).trans ?_
  refine (shapeCast_apply _ _ (ix2 (0 : Fin 1) j) (ix1 j) ?_).trans (congrFun (kk2_arg17_26 m ρ c) (ix1 j))
  rw [Shape.rowMajor_val_one, Shape.rowMajor_val_two]
  show j.val = 0 * 128 + j.val
  omega

theorem kept_R10_x (c : Dev nD) : Gen.V29 m ρ c main_v107 = Gen.V28 m ρ c main_v107 :=
  kk_host10 (W28 m ρ c) main_v107 (by decide)

theorem w_R10 (c : Dev nD) : Gen.V29 m ρ c main_v108 = m ((c : Thread nD τ).loc main_arg18) := by
  have e : (V29 m ρ c main_v108 : Vec Ideal S128x64 .bf16)
      = (truncf (F := Ideal) .bf16 (W28 m ρ c (Proc.devRef .tc main_arg18) : Vec Ideal S128x64 .f32) bitsLt_bf16_f32
          : Vec Ideal S128x64 .bf16) := by
    show StableHlo.after hostOps10 (W28 m ρ c) (Proc.devRef .tc main_v108) = _
    after_results
  exact e.trans (kk2_arg18_28 m ρ c)

theorem kept_R11_x (c : Dev nD) : Gen.V31 m ρ c main_v105 = Gen.V26 m ρ c main_v105 :=
  (kk_host11 (W30 m ρ c) main_v105 (by decide)).trans
  ((kk_pair10 m ρ c main_v105 (by decide) (by decide)).trans
  ((W28_of_ne m ρ c main_v105 (by decide)).trans (kk_host9 (W26 m ρ c) main_v105 (by decide))))

theorem w_R11 (c : Dev nD) : Gen.V31 m ρ c main_v110 = m ((c : Thread nD τ).loc main_arg20) := by
  have e : (V31 m ρ c main_v110 : Vec Ideal S128x64 .bf16)
      = (truncf (F := Ideal) .bf16 (W30 m ρ c (Proc.devRef .tc main_arg20) : Vec Ideal S128x64 .f32) bitsLt_bf16_f32
          : Vec Ideal S128x64 .bf16) := by
    show StableHlo.after hostOps11 (W30 m ρ c) (Proc.devRef .tc main_v110) = _
    after_results
  exact e.trans (kk2_arg20_30 m ρ c)

theorem kept_R12_a (c : Dev nD) : Gen.V33 m ρ c main_v41 = Gen.V9 m ρ c main_v41 := kk2_a41_33 m ρ c

theorem kept_R12_hw (c : Dev nD) : Gen.V33 m ρ c main_v109 = Gen.V30 m ρ c main_v109 :=
  (kk_host12 (W32 m ρ c) main_v109 (by decide)).trans
  ((W32_of_ne m ρ c main_v109 (by decide)).trans (kk_host11 (W30 m ρ c) main_v109 (by decide)))

theorem b_R12 (c : Dev nD) (j : Fin 64) :
    Gen.V33 m ρ c main_v112 (ix2 (0 : Fin 1) j) = m ((c : Thread nD τ).loc main_arg19) (ix1 j) := by
  have e : (V33 m ρ c main_v112 : Vec Ideal S1x64 .f32)
      = shapeCast S1x64 (W32 m ρ c (Proc.devRef .tc main_arg19) : Vec Ideal S64 .f32) shapeCasts_S64_S1x64 := by
    show StableHlo.after hostOps12 (W32 m ρ c) (Proc.devRef .tc main_v112) = _
    after_results; rfl
  refine (congrFun e (ix2 (0 : Fin 1) j)).trans ?_
  refine (shapeCast_apply _ _ (ix2 (0 : Fin 1) j) (ix1 j) ?_).trans (congrFun (kk2_arg19_32 m ρ c) (ix1 j))
  rw [Shape.rowMajor_val_one, Shape.rowMajor_val_two]
  show j.val = 0 * 64 + j.val
  omega

theorem kept_R13_a (c : Dev nD) : Gen.V35 m ρ c main_v83 = Gen.V9 m ρ c main_v83 := kk2_a83_35 m ρ c

theorem kept_R13_hw (c : Dev nD) : Gen.V35 m ρ c main_v111 = Gen.V32 m ρ c main_v111 :=
  (kk_host13 (W34 m ρ c) main_v111 (by decide)).trans
  ((W34_of_ne m ρ c main_v111 (by decide)).trans (kk_host12 (W32 m ρ c) main_v111 (by decide)))

theorem b_R13 (c : Dev nD) (j : Fin 64) :
    Gen.V35 m ρ c main_v114 (ix2 (0 : Fin 1) j) = m ((c : Thread nD τ).loc main_arg21) (ix1 j) := by
  have e : (V35 m ρ c main_v114 : Vec Ideal S1x64 .f32)
      = shapeCast S1x64 (W34 m ρ c (Proc.devRef .tc main_arg21) : Vec Ideal S64 .f32) shapeCasts_S64_S1x64 := by
    show StableHlo.after hostOps13 (W34 m ρ c) (Proc.devRef .tc main_v114) = _
    after_results; rfl
  refine (congrFun e (ix2 (0 : Fin 1) j)).trans ?_
  refine (shapeCast_apply _ _ (ix2 (0 : Fin 1) j) (ix1 j) ?_).trans (congrFun (kk2_arg21_34 m ρ c) (ix1 j))
  rw [Shape.rowMajor_val_one, Shape.rowMajor_val_two]
  show j.val = 0 * 64 + j.val
  omega

theorem kept_out_g (c : Dev nD) : Gen.W36 m ρ c (Proc.devRef .tc main_v113) = Gen.V34 m ρ c main_v113 :=
  kk_pair13 m ρ c main_v113 (by decide) (by decide)

end Cert.KernelIdeal.Val

end
-- ==== Proof.KChain.lean ====
import proofs.«426696_j34600256537155_2_alg».proof.Proof.Gen.KernelIdeal.Frame
import proofs.«426696_j34600256537155_2_alg».proof.Proof.Chain
import proofs.«426696_j34600256537155_2_alg».proof.Proof.KReg0
import proofs.«426696_j34600256537155_2_alg».proof.Proof.KReg1
import proofs.«426696_j34600256537155_2_alg».proof.Proof.KReg2
import proofs.«426696_j34600256537155_2_alg».proof.Proof.KReg3
import proofs.«426696_j34600256537155_2_alg».proof.Proof.KReg4
import proofs.«426696_j34600256537155_2_alg».proof.Proof.KReg5
import proofs.«426696_j34600256537155_2_alg».proof.Proof.KReg6
import proofs.«426696_j34600256537155_2_alg».proof.Proof.KReg7
import proofs.«426696_j34600256537155_2_alg».proof.Proof.KReg8
import proofs.«426696_j34600256537155_2_alg».proof.Proof.KReg9
import proofs.«426696_j34600256537155_2_alg».proof.Proof.KReg10
import proofs.«426696_j34600256537155_2_alg».proof.Proof.KReg11
import proofs.«426696_j34600256537155_2_alg».proof.Proof.KReg12
import proofs.«426696_j34600256537155_2_alg».proof.Proof.KReg13
import proofs.«426696_j34600256537155_2_alg».proof.Proof.KAdj
import proofs.«426696_j34600256537155_2_alg».proof.Proof.KKeep
import proofs.«426696_j34600256537155_2_alg».proof.Proof.KKeep2
import Idealize.ShloMosaic.Lib.ValueIdx

set_option maxRecDepth 16384

noncomputable section

open scoped BigOperators

namespace Cert.KernelIdeal.Val

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

theorem lin_congr {n p q : ℕ} {X X' : Fin n → Fin p → EReal} {W W' : Fin p → Fin q → EReal} {b b' : Fin q → EReal}
    (hX : ∀ r c, X r c = X' r c) (hW : ∀ c j, W c j = W' c j) (hb : ∀ j, b j = b' j) (r : Fin n) (j : Fin q) :
    GCN.lin X W b r j = GCN.lin X' W' b' r j := by
  have eX : X = X' := funext fun r => funext fun c => hX r c
  have eW : W = W' := funext fun c => funext fun j => hW c j
  have eb : b = b' := funext hb
  rw [eX, eW, eb]

theorem mm_congr {n p q : ℕ} {X X' : Fin n → Fin p → EReal} {W W' : Fin p → Fin q → EReal}
    (hX : ∀ r c, X r c = X' r c) (hW : ∀ c j, W c j = W' c j) (r : Fin n) (j : Fin q) :
    GCN.mm X W r j = GCN.mm X' W' r j := by
  have eX : X = X' := funext fun r => funext fun c => hX r c
  have eW : W = W' := funext fun c => funext fun j => hW c j
  rw [eX, eW]

theorem agg_congr {k n q : ℕ} {A A' : Fin k → Fin n → EReal} {H H' : Fin n → Fin q → EReal} {b b' : Fin q → EReal}
    (hA : ∀ d a, A d a = A' d a) (hH : ∀ a j, H a j = H' a j) (hb : ∀ j, b j = b' j) (d : Fin k) (j : Fin q) :
    GCN.agg A H b d j = GCN.agg A' H' b' d j := by
  have eA : A = A' := funext fun d => funext fun a => hA d a
  have eH : H = H' := funext fun a => funext fun j => hH a j
  have eb : b = b' := funext hb
  rw [eA, eH, eb]

section Chain

variable (m : (ℓ : Loc nD τ sig) → Buf (Elt Ideal) ℓ) (ρ : Dev nD → PrngReg) (c : Dev nD)
variable (ssg : Fin 1000000 → Fin 10000) (tsg : Fin 1000000 → Fin 20000)
variable (sgs : Fin 1000000 → Fin 20000) (tgs : Fin 1000000 → Fin 10000)

abbrev inp : GCN.Inp :=
  GCN.Inp.ofArrays ssg tsg sgs tgs
    (m ((c : Thread nD τ).loc main_arg0)) (m ((c : Thread nD τ).loc main_arg1))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))
    (m ((c : Thread nD τ).loc main_arg14)) (m ((c : Thread nD τ).loc main_arg15))
    (m ((c : Thread nD τ).loc main_arg16)) (m ((c : Thread nD τ).loc main_arg17))
    (m ((c : Thread nD τ).loc main_arg18)) (m ((c : Thread nD τ).loc main_arg19))
    (m ((c : Thread nD τ).loc main_arg20)) (m ((c : Thread nD τ).loc main_arg21))

theorem at_hs0 (r : Fin 10000) (j : Fin 256) :
    Gen.V10 m ρ c main_v87 (ix2 r j) = GCN.hs0 (inp m c ssg tsg sgs tgs) r j := by
  refine ((congrFun (Gen.hF0 m ρ c 3) (ix2 r j)).symm.trans (reg0_val (Gen.V9 m ρ) c r j)).trans ?_
  exact lin_congr (fun r c' => congrFun (x0_val m ρ c) (ix2 r c')) (fun c' j => congrFun (w0_val m ρ c) (ix2 c' j))
    (fun j => b0_val m ρ c j) r j

theorem at_hg0 (r : Fin 20000) (j : Fin 256) :
    Gen.V12 m ρ c main_v91 (ix2 r j) = GCN.hg0 (inp m c ssg tsg sgs tgs) r j := by
  refine ((congrFun (Gen.hF1 m ρ c 3) (ix2 r j)).symm.trans (reg1_val (Gen.V11 m ρ) c r j)).trans ?_
  exact lin_congr (fun r c' => congrFun (x_R1 m ρ c) (ix2 r c')) (fun c' j => congrFun (w_R1 m ρ c) (ix2 c' j))
    (fun j => b_R1 m ρ c j) r j

theorem at_khw_s1 (r : Fin 10000) (j : Fin 256) :
    Gen.V14 m ρ c main_v93 (ix2 r j) = GCN.khw_s1 (inp m c ssg tsg sgs tgs) r j := by
  refine ((congrFun (Gen.hF2 m ρ c 2) (ix2 r j)).symm.trans (reg2_val (Gen.V13 m ρ) c r j)).trans ?_
  exact mm_congr
    (fun r c' => (congrFun (kept_R2_x m ρ c) (ix2 r c')).trans (at_hs0 m ρ c ssg tsg sgs tgs r c'))
    (fun c' j => congrFun (w_R2 m ρ c) (ix2 c' j)) r j

theorem at_khw_g1 (r : Fin 20000) (j : Fin 256) :
    Gen.V16 m ρ c main_v95 (ix2 r j) = GCN.khw_g1 (inp m c ssg tsg sgs tgs) r j := by
  refine ((congrFun (Gen.hF3 m ρ c 2) (ix2 r j)).symm.trans (reg3_val (Gen.V15 m ρ) c r j)).trans ?_
  exact mm_congr
    (fun r c' => (congrFun (kept_R3_x m ρ c) (ix2 r c')).trans (at_hg0 m ρ c ssg tsg sgs tgs r c'))
    (fun c' j => congrFun (w_R3 m ρ c) (ix2 c' j)) r j

variable (h2 : ∀ e, (m ((c : Thread nD τ).loc main_arg2) (ix1 e)).toInt = (ssg e : ℤ))
variable (h3 : ∀ e, (m ((c : Thread nD τ).loc main_arg3) (ix1 e)).toInt = (tsg e : ℤ))
variable (h4 : ∀ e, (m ((c : Thread nD τ).loc main_arg4) (ix1 e)).toInt = (sgs e : ℤ))
variable (h5 : ∀ e, (m ((c : Thread nD τ).loc main_arg5) (ix1 e)).toInt = (tgs e : ℤ))
include h2 h3 h4 h5

theorem at_khg1 (d : Fin 20000) (j : Fin 256) :
    Gen.V18 m ρ c main_v97 (ix2 d j) = GCN.khg1 (inp m c ssg tsg sgs tgs) d j := by
  refine ((congrFun (Gen.hF4 m ρ c 3) (ix2 d j)).symm.trans (reg4_val (Gen.V17 m ρ) c d j)).trans ?_
  exact agg_congr
    (fun d a => (congrFun (kept_R4_a m ρ c) (ix2 d a)).trans (adj_sg_val m ρ c ssg tsg h2 h3 d a))
    (fun a j => (congrFun (kept_R4_hw m ρ c) (ix2 a j)).trans (at_khw_s1 m ρ c ssg tsg sgs tgs a j))
    (fun j => b_R4 m ρ c j) d j

theorem at_khs1 (d : Fin 10000) (j : Fin 256) :
    Gen.V20 m ρ c main_v99 (ix2 d j) = GCN.khs1 (inp m c ssg tsg sgs tgs) d j := by
  refine ((congrFun (Gen.hF5 m ρ c 3) (ix2 d j)).symm.trans (reg5_val (Gen.V19 m ρ) c d j)).trans ?_
  exact agg_congr
    (fun d a => (congrFun (kept_R5_a m ρ c) (ix2 d a)).trans (adj_gs_val m ρ c sgs tgs h4 h5 d a))
    (fun a j => (congrFun (kept_R5_hw m ρ c) (ix2 a j)).trans (at_khw_g1 m ρ c ssg tsg sgs tgs a j))
    (fun j => b_R5 m ρ c j) d j

theorem at_khw_s2 (r : Fin 10000) (j : Fin 128) :
    Gen.V22 m ρ c main_v101 (ix2 r j) = GCN.khw_s2 (inp m c ssg tsg sgs tgs) r j := by
  refine ((congrFun (Gen.hF6 m ρ c 2) (ix2 r j)).symm.trans (reg6_val (Gen.V21 m ρ) c r j)).trans ?_
  exact mm_congr
    (fun r c' => (congrFun (kept_R6_x m ρ c) (ix2 r c')).trans (at_khs1 m ρ c ssg tsg sgs tgs h2 h3 h4 h5 r c'))
    (fun c' j => congrFun (w_R6 m ρ c) (ix2 c' j)) r j

theorem at_khw_g2 (r : Fin 20000) (j : Fin 128) :
    Gen.V24 m ρ c main_v103 (ix2 r j) = GCN.khw_g2 (inp m c ssg tsg sgs tgs) r j := by
  refine ((congrFun (Gen.hF7 m ρ c 2) (ix2 r j)).symm.trans (reg7_val (Gen.V23 m ρ) c r j)).trans ?_
  exact mm_congr
    (fun r c' => (congrFun (kept_R7_x m ρ c) (ix2 r c')).trans (at_khg1 m ρ c ssg tsg sgs tgs h2 h3 h4 h5 r c'))
    (fun c' j => congrFun (w_R7 m ρ c) (ix2 c' j)) r j

theorem at_khg2 (d : Fin 20000) (j : Fin 128) :
    Gen.V26 m ρ c main_v105 (ix2 d j) = GCN.khg2 (inp m c ssg tsg sgs tgs) d j := by
  refine ((congrFun (Gen.hF8 m ρ c 3) (ix2 d j)).symm.trans (reg8_val (Gen.V25 m ρ) c d j)).trans ?_
  exact agg_congr
    (fun d a => (congrFun (kept_R8_a m ρ c) (ix2 d a)).trans (adj_sg_val m ρ c ssg tsg h2 h3 d a))
    (fun a j => (congrFun (kept_R8_hw m ρ c) (ix2 a j)).trans (at_khw_s2 m ρ c ssg tsg sgs tgs h2 h3 h4 h5 a j))
    (fun j => b_R8 m ρ c j) d j

theorem at_khs2 (d : Fin 10000) (j : Fin 128) :
    Gen.V28 m ρ c main_v107 (ix2 d j) = GCN.khs2 (inp m c ssg tsg sgs tgs) d j := by
  refine ((congrFun (Gen.hF9 m ρ c 3) (ix2 d j)).symm.trans (reg9_val (Gen.V27 m ρ) c d j)).trans ?_
  exact agg_congr
    (fun d a => (congrFun (kept_R9_a m ρ c) (ix2 d a)).trans (adj_gs_val m ρ c sgs tgs h4 h5 d a))
    (fun a j => (congrFun (kept_R9_hw m ρ c) (ix2 a j)).trans (at_khw_g2 m ρ c ssg tsg sgs tgs h2 h3 h4 h5 a j))
    (fun j => b_R9 m ρ c j) d j

theorem at_khw_s3 (r : Fin 10000) (j : Fin 64) :
    Gen.V30 m ρ c main_v109 (ix2 r j) = GCN.khw_s3 (inp m c ssg tsg sgs tgs) r j := by
  refine ((congrFun (Gen.hF10 m ρ c 2) (ix2 r j)).symm.trans (reg10_val (Gen.V29 m ρ) c r j)).trans ?_
  exact mm_congr
    (fun r c' => (congrFun (kept_R10_x m ρ c) (ix2 r c')).trans (at_khs2 m ρ c ssg tsg sgs tgs h2 h3 h4 h5 r c'))
    (fun c' j => congrFun (w_R10 m ρ c) (ix2 c' j)) r j

theorem at_khw_g3 (r : Fin 20000) (j : Fin 64) :
    Gen.V32 m ρ c main_v111 (ix2 r j) = GCN.khw_g3 (inp m c ssg tsg sgs tgs) r j := by
  refine ((congrFun (Gen.hF11 m ρ c 2) (ix2 r j)).symm.trans (reg11_val (Gen.V31 m ρ) c r j)).trans ?_
  exact mm_congr
    (fun r c' => (congrFun (kept_R11_x m ρ c) (ix2 r c')).trans (at_khg2 m ρ c ssg tsg sgs tgs h2 h3 h4 h5 r c'))
    (fun c' j => congrFun (w_R11 m ρ c) (ix2 c' j)) r j

theorem at_khg3 (d : Fin 20000) (j : Fin 64) :
    Gen.V34 m ρ c main_v113 (ix2 d j) = GCN.khg3 (inp m c ssg tsg sgs tgs) d j := by
  refine ((congrFun (Gen.hF12 m ρ c 3) (ix2 d j)).symm.trans (reg12_val (Gen.V33 m ρ) c d j)).trans ?_
  exact agg_congr
    (fun d a => (congrFun (kept_R12_a m ρ c) (ix2 d a)).trans (adj_sg_val m ρ c ssg tsg h2 h3 d a))
    (fun a j => (congrFun (kept_R12_hw m ρ c) (ix2 a j)).trans (at_khw_s3 m ρ c ssg tsg sgs tgs h2 h3 h4 h5 a j))
    (fun j => b_R12 m ρ c j) d j

theorem at_khs3 (d : Fin 10000) (j : Fin 64) :
    Gen.V36 m ρ c main_v115 (ix2 d j) = GCN.khs3 (inp m c ssg tsg sgs tgs) d j := by
  refine ((congrFun (Gen.hF13 m ρ c 3) (ix2 d j)).symm.trans (reg13_val (Gen.V35 m ρ) c d j)).trans ?_
  exact agg_congr
    (fun d a => (congrFun (kept_R13_a m ρ c) (ix2 d a)).trans (adj_gs_val m ρ c sgs tgs h4 h5 d a))
    (fun a j => (congrFun (kept_R13_hw m ρ c) (ix2 a j)).trans (at_khw_g3 m ρ c ssg tsg sgs tgs h2 h3 h4 h5 a j))
    (fun j => b_R13 m ρ c j) d j

theorem kernel_val :
    (∀ (r : Fin 10000) (j : Fin 64), Gen.W36 m ρ c (Proc.devRef .tc main_v115) (ix2 r j)
      = GCN.khs3 (GCN.Inp.ofArrays ssg tsg sgs tgs
          (m ((c : Thread nD τ).loc main_arg0)) (m ((c : Thread nD τ).loc main_arg1))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13))
          (m ((c : Thread nD τ).loc main_arg14)) (m ((c : Thread nD τ).loc main_arg15))
          (m ((c : Thread nD τ).loc main_arg16)) (m ((c : Thread nD τ).loc main_arg17))
          (m ((c : Thread nD τ).loc main_arg18)) (m ((c : Thread nD τ).loc main_arg19))
          (m ((c : Thread nD τ).loc main_arg20)) (m ((c : Thread nD τ).loc main_arg21))) r j)
    ∧ (∀ (r : Fin 20000) (j : Fin 64), Gen.W36 m ρ c (Proc.devRef .tc main_v113) (ix2 r j)
      = GCN.khg3 (GCN.Inp.ofArrays ssg tsg sgs tgs
          (m ((c : Thread nD τ).loc main_arg0)) (m ((c : Thread nD τ).loc main_arg1))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13))
          (m ((c : Thread nD τ).loc main_arg14)) (m ((c : Thread nD τ).loc main_arg15))
          (m ((c : Thread nD τ).loc main_arg16)) (m ((c : Thread nD τ).loc main_arg17))
          (m ((c : Thread nD τ).loc main_arg18)) (m ((c : Thread nD τ).loc main_arg19))
          (m ((c : Thread nD τ).loc main_arg20)) (m ((c : Thread nD τ).loc main_arg21))) r j) :=
  ⟨fun r j => at_khs3 m ρ c ssg tsg sgs tgs h2 h3 h4 h5 r j,
   fun r j => (congrFun (kept_out_g m ρ c) (ix2 r j)).trans (at_khg3 m ρ c ssg tsg sgs tgs h2 h3 h4 h5 r j)⟩

end Chain

end Cert.KernelIdeal.Val

end
-- ==== Proof.RRunOps.lean ====
import proofs.«426696_j34600256537155_2_alg».proof.Proof.Gen.ReferenceIdeal
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem
  Idealize.ShloMosaic.StableHlo

variable {F : FTy → Type} [FloatOps F]

abbrev rops0 : List (HloOp τ sig (Elt F)) :=
  [ StableHlo.binary main_arg0 main_arg6 main_v0 (fun l r => Host.dotGeneral dot_S10000x2000_S2000x256_S10000x256_1_0_0_1_n_n none l r),
    StableHlo.unary main_arg7 main_v1 (broadcastInDim S1x256 ![1] bcast_S256_S1x256_1),
    StableHlo.unary main_v1 main_v2 (broadcastInDim S10000x256 ![0, 1] bcast_S1x256_S10000x256_0_1),
    StableHlo.binary main_v0 main_v2 main_v3 addf,
    StableHlo.binary main_arg1 main_arg8 main_v4 (fun l r => Host.dotGeneral dot_S20000x500_S500x256_S20000x256_1_0_0_1_n_n none l r),
    StableHlo.unary main_arg9 main_v5 (broadcastInDim S1x256 ![1] bcast_S256_S1x256_1),
    StableHlo.unary main_v5 main_v6 (broadcastInDim S20000x256 ![0, 1] bcast_S1x256_S20000x256_0_1),
    StableHlo.binary main_v4 main_v6 main_v7 addf ]

abbrev rops1 : List (HloOp τ sig (Elt F)) :=
  [ StableHlo.nullary main_cst (constant S_ .f32 0x3F800000#32),
    StableHlo.unary main_cst main_v8 (broadcastInDim S1000000 ![] bcast_S_S1000000),
    StableHlo.nullary main_cst_0 (constant S_ .f32 0x00000000#32),
    StableHlo.unary main_cst_0 main_v9 (broadcastInDim S10000 ![] bcast_S_S10000),
    StableHlo.unary main_arg2 main_v10 (broadcastInDim S1000000x1 ![0] bcast_S1000000_S1000000x1_0),
    StableHlo.ternary main_v9 main_v10 main_v8 main_v11 (fun x i u => Host.scatterAdd scatter_S10000_S1000000x1_S1000000_n_0_0_1 x i u),
    StableHlo.nullary main_cst_1 (constant S_ .f32 0x3F800000#32),
    StableHlo.TRef.unary (.of main_cst_1) main_call0.v0 id,
    StableHlo.TRef.unary main_call0.v0 main_call0.v1 (broadcastInDim S10000 ![] bcast_S_S10000),
    StableHlo.TRef.binary main_call0.v1 (.of main_v11) main_call0.v2 maximumf,
    StableHlo.nullary main_cst_2 (constant S_ .f32 0x00000000#32),
    StableHlo.unary main_cst_2 main_v13 (broadcastInDim S20000 ![] bcast_S_S20000),
    StableHlo.unary main_arg3 main_v14 (broadcastInDim S1000000x1 ![0] bcast_S1000000_S1000000x1_0),
    StableHlo.ternary main_v13 main_v14 main_v8 main_v15 (fun x i u => Host.scatterAdd scatter_S20000_S1000000x1_S1000000_n_0_0_1 x i u),
    StableHlo.nullary main_cst_3 (constant S_ .f32 0x3F800000#32),
    StableHlo.TRef.unary (.of main_cst_3) main_call1.v0 id,
    StableHlo.TRef.unary main_call1.v0 main_call1.v1 (broadcastInDim S20000 ![] bcast_S_S20000),
    StableHlo.TRef.binary main_call1.v1 (.of main_v15) main_call1.v2 maximumf,
    StableHlo.unary main_v12 main_v17 (Host.rsqrt),
    StableHlo.unary main_v17 main_v18 (broadcastInDim S10000x1 ![0] bcast_S10000_S10000x1_0),
    StableHlo.unary main_v18 main_v19 (broadcastInDim S10000x256 ![0, 1] bcast_S10000x1_S10000x256_0_1),
    StableHlo.binary main_v3 main_v19 main_v20 mulf,
    StableHlo.nullary main_c (constantI S_ 32 0#32),
    StableHlo.unary main_c main_v21 (broadcastInDim S1000000 ![] bcast_S_S1000000),
    StableHlo.binary main_arg2 main_v21 main_v22 (cmpi .slt),
    StableHlo.nullary main_c_4 (constantI S_ 32 10000#32),
    StableHlo.unary main_c_4 main_v23 (broadcastInDim S1000000 ![] bcast_S_S1000000),
    StableHlo.binary main_arg2 main_v23 main_v24 (addi),
    StableHlo.ternary main_v22 main_v24 main_arg2 main_v25 select,
    StableHlo.unary main_v25 main_v26 (broadcastInDim S1000000x1 ![0] bcast_S1000000_S1000000x1_0),
    StableHlo.binary main_v20 main_v26 main_v27 (fun x i => Host.gather gather_S10000x256_S1000000x1_S1000000x256_1_0_n_n_0_1_1256 x i),
    StableHlo.nullary main_cst_5 (constant S_ .f32 0x00000000#32),
    StableHlo.unary main_cst_5 main_v28 (broadcastInDim S20000x256 ![] bcast_S_S20000x256),
    StableHlo.unary main_arg3 main_v29 (broadcastInDim S1000000x1 ![0] bcast_S1000000_S1000000x1_0),
    StableHlo.ternary main_v28 main_v29 main_v27 main_v30 (fun x i u => Host.scatterAdd scatter_S20000x256_S1000000x1_S1000000x256_1_0_0_1 x i u),
    StableHlo.unary main_v16 main_v31 (Host.rsqrt),
    StableHlo.unary main_v31 main_v32 (broadcastInDim S20000x1 ![0] bcast_S20000_S20000x1_0),
    StableHlo.unary main_v32 main_v33 (broadcastInDim S20000x256 ![0, 1] bcast_S20000x1_S20000x256_0_1),
    StableHlo.binary main_v30 main_v33 main_v34 mulf,
    StableHlo.binary main_v34 main_arg10 main_v35 (fun l r => Host.dotGeneral dot_S20000x256_S256x256_S20000x256_1_0_0_1_n_n none l r),
    StableHlo.unary main_arg11 main_v36 (broadcastInDim S1x256 ![1] bcast_S256_S1x256_1),
    StableHlo.unary main_v36 main_v37 (broadcastInDim S20000x256 ![0, 1] bcast_S1x256_S20000x256_0_1),
    StableHlo.binary main_v35 main_v37 main_v38 addf ]

abbrev rops2 : List (HloOp τ sig (Elt F)) :=
  [ StableHlo.nullary main_cst_6 (constant S_ .f32 0x3F800000#32),
    StableHlo.unary main_cst_6 main_v39 (broadcastInDim S1000000 ![] bcast_S_S1000000),
    StableHlo.nullary main_cst_7 (constant S_ .f32 0x00000000#32),
    StableHlo.unary main_cst_7 main_v40 (broadcastInDim S20000 ![] bcast_S_S20000),
    StableHlo.unary main_arg4 main_v41 (broadcastInDim S1000000x1 ![0] bcast_S1000000_S1000000x1_0),
    StableHlo.ternary main_v40 main_v41 main_v39 main_v42 (fun x i u => Host.scatterAdd scatter_S20000_S1000000x1_S1000000_n_0_0_1 x i u),
    StableHlo.nullary main_cst_8 (constant S_ .f32 0x3F800000#32),
    StableHlo.TRef.unary (.of main_cst_8) main_call2.v0 id,
    StableHlo.TRef.unary main_call2.v0 main_call2.v1 (broadcastInDim S20000 ![] bcast_S_S20000),
    StableHlo.TRef.binary main_call2.v1 (.of main_v42) main_call2.v2 maximumf,
    StableHlo.nullary main_cst_9 (constant S_ .f32 0x00000000#32),
    StableHlo.unary main_cst_9 main_v44 (broadcastInDim S10000 ![] bcast_S_S10000),
    StableHlo.unary main_arg5 main_v45 (broadcastInDim S1000000x1 ![0] bcast_S1000000_S1000000x1_0),
    StableHlo.ternary main_v44 main_v45 main_v39 main_v46 (fun x i u => Host.scatterAdd scatter_S10000_S1000000x1_S1000000_n_0_0_1 x i u),
    StableHlo.nullary main_cst_10 (constant S_ .f32 0x3F800000#32),
    StableHlo.TRef.unary (.of main_cst_10) main_call3.v0 id,
    StableHlo.TRef.unary main_call3.v0 main_call3.v1 (broadcastInDim S10000 ![] bcast_S_S10000),
    StableHlo.TRef.binary main_call3.v1 (.of main_v46) main_call3.v2 maximumf,
    StableHlo.unary main_v43 main_v48 (Host.rsqrt),
    StableHlo.unary main_v48 main_v49 (broadcastInDim S20000x1 ![0] bcast_S20000_S20000x1_0),
    StableHlo.unary main_v49 main_v50 (broadcastInDim S20000x256 ![0, 1] bcast_S20000x1_S20000x256_0_1),
    StableHlo.binary main_v7 main_v50 main_v51 mulf,
    StableHlo.nullary main_c_11 (constantI S_ 32 0#32),
    StableHlo.unary main_c_11 main_v52 (broadcastInDim S1000000 ![] bcast_S_S1000000),
    StableHlo.binary main_arg4 main_v52 main_v53 (cmpi .slt),
    StableHlo.nullary main_c_12 (constantI S_ 32 20000#32),
    StableHlo.unary main_c_12 main_v54 (broadcastInDim S1000000 ![] bcast_S_S1000000),
    StableHlo.binary main_arg4 main_v54 main_v55 (addi),
    StableHlo.ternary main_v53 main_v55 main_arg4 main_v56 select,
    StableHlo.unary main_v56 main_v57 (broadcastInDim S1000000x1 ![0] bcast_S1000000_S1000000x1_0),
    StableHlo.binary main_v51 main_v57 main_v58 (fun x i => Host.gather gather_S20000x256_S1000000x1_S1000000x256_1_0_n_n_0_1_1256 x i),
    StableHlo.nullary main_cst_13 (constant S_ .f32 0x00000000#32),
    StableHlo.unary main_cst_13 main_v59 (broadcastInDim S10000x256 ![] bcast_S_S10000x256),
    StableHlo.unary main_arg5 main_v60 (broadcastInDim S1000000x1 ![0] bcast_S1000000_S1000000x1_0),
    StableHlo.ternary main_v59 main_v60 main_v58 main_v61 (fun x i u => Host.scatterAdd scatter_S10000x256_S1000000x1_S1000000x256_1_0_0_1 x i u),
    StableHlo.unary main_v47 main_v62 (Host.rsqrt),
    StableHlo.unary main_v62 main_v63 (broadcastInDim S10000x1 ![0] bcast_S10000_S10000x1_0),
    StableHlo.unary main_v63 main_v64 (broadcastInDim S10000x256 ![0, 1] bcast_S10000x1_S10000x256_0_1),
    StableHlo.binary main_v61 main_v64 main_v65 mulf,
    StableHlo.binary main_v65 main_arg12 main_v66 (fun l r => Host.dotGeneral dot_S10000x256_S256x256_S10000x256_1_0_0_1_n_n none l r),
    StableHlo.unary main_arg13 main_v67 (broadcastInDim S1x256 ![1] bcast_S256_S1x256_1),
    StableHlo.unary main_v67 main_v68 (broadcastInDim S10000x256 ![0, 1] bcast_S1x256_S10000x256_0_1),
    StableHlo.binary main_v66 main_v68 main_v69 addf ]

abbrev rops3 : List (HloOp τ sig (Elt F)) :=
  [ StableHlo.nullary main_cst_14 (constant S_ .f32 0x3E800000#32),
    StableHlo.TRef.nullary main_call4.cst (constant S_ .f32 0x00000000#32),
    StableHlo.TRef.unary main_call4.cst main_call4.v0 (broadcastInDim S10000x256 ![] bcast_S_S10000x256),
    StableHlo.TRef.binary (.of main_v69) main_call4.v0 main_call4.v1 (cmpf .oge),
    StableHlo.TRef.unary (.of main_cst_14) main_call4.v2 id,
    StableHlo.TRef.unary main_call4.v2 main_call4.v3 (broadcastInDim S10000x256 ![] bcast_S_S10000x256),
    StableHlo.TRef.binary main_call4.v3 (.of main_v69) main_call4.v4 mulf,
    StableHlo.TRef.ternary main_call4.v1 (.of main_v69) main_call4.v4 main_call4.call0.v0 select,
    StableHlo.nullary main_cst_15 (constant S_ .f32 0x3E800000#32),
    StableHlo.TRef.nullary main_call5.cst (constant S_ .f32 0x00000000#32),
    StableHlo.TRef.unary main_call5.cst main_call5.v0 (broadcastInDim S20000x256 ![] bcast_S_S20000x256),
    StableHlo.TRef.binary (.of main_v38) main_call5.v0 main_call5.v1 (cmpf .oge),
    StableHlo.TRef.unary (.of main_cst_15) main_call5.v2 id,
    StableHlo.TRef.unary main_call5.v2 main_call5.v3 (broadcastInDim S20000x256 ![] bcast_S_S20000x256),
    StableHlo.TRef.binary main_call5.v3 (.of main_v38) main_call5.v4 mulf,
    StableHlo.TRef.ternary main_call5.v1 (.of main_v38) main_call5.v4 main_call5.call0.v0 select ]

abbrev rops4 : List (HloOp τ sig (Elt F)) :=
  [ StableHlo.nullary main_cst_16 (constant S_ .f32 0x3F800000#32),
    StableHlo.unary main_cst_16 main_v72 (broadcastInDim S1000000 ![] bcast_S_S1000000),
    StableHlo.nullary main_cst_17 (constant S_ .f32 0x00000000#32),
    StableHlo.unary main_cst_17 main_v73 (broadcastInDim S10000 ![] bcast_S_S10000),
    StableHlo.unary main_arg2 main_v74 (broadcastInDim S1000000x1 ![0] bcast_S1000000_S1000000x1_0),
    StableHlo.ternary main_v73 main_v74 main_v72 main_v75 (fun x i u => Host.scatterAdd scatter_S10000_S1000000x1_S1000000_n_0_0_1 x i u),
    StableHlo.nullary main_cst_18 (constant S_ .f32 0x3F800000#32),
    StableHlo.TRef.unary (.of main_cst_18) main_call6.v0 id,
    StableHlo.TRef.unary main_call6.v0 main_call6.v1 (broadcastInDim S10000 ![] bcast_S_S10000),
    StableHlo.TRef.binary main_call6.v1 (.of main_v75) main_call6.v2 maximumf,
    StableHlo.nullary main_cst_19 (constant S_ .f32 0x00000000#32),
    StableHlo.unary main_cst_19 main_v77 (broadcastInDim S20000 ![] bcast_S_S20000),
    StableHlo.unary main_arg3 main_v78 (broadcastInDim S1000000x1 ![0] bcast_S1000000_S1000000x1_0),
    StableHlo.ternary main_v77 main_v78 main_v72 main_v79 (fun x i u => Host.scatterAdd scatter_S20000_S1000000x1_S1000000_n_0_0_1 x i u),
    StableHlo.nullary main_cst_20 (constant S_ .f32 0x3F800000#32),
    StableHlo.TRef.unary (.of main_cst_20) main_call7.v0 id,
    StableHlo.TRef.unary main_call7.v0 main_call7.v1 (broadcastInDim S20000 ![] bcast_S_S20000),
    StableHlo.TRef.binary main_call7.v1 (.of main_v79) main_call7.v2 maximumf,
    StableHlo.unary main_v76 main_v81 (Host.rsqrt),
    StableHlo.unary main_v81 main_v82 (broadcastInDim S10000x1 ![0] bcast_S10000_S10000x1_0),
    StableHlo.unary main_v82 main_v83 (broadcastInDim S10000x256 ![0, 1] bcast_S10000x1_S10000x256_0_1),
    StableHlo.binary main_v70 main_v83 main_v84 mulf,
    StableHlo.nullary main_c_21 (constantI S_ 32 0#32),
    StableHlo.unary main_c_21 main_v85 (broadcastInDim S1000000 ![] bcast_S_S1000000),
    StableHlo.binary main_arg2 main_v85 main_v86 (cmpi .slt),
    StableHlo.nullary main_c_22 (constantI S_ 32 10000#32),
    StableHlo.unary main_c_22 main_v87 (broadcastInDim S1000000 ![] bcast_S_S1000000),
    StableHlo.binary main_arg2 main_v87 main_v88 (addi),
    StableHlo.ternary main_v86 main_v88 main_arg2 main_v89 select,
    StableHlo.unary main_v89 main_v90 (broadcastInDim S1000000x1 ![0] bcast_S1000000_S1000000x1_0),
    StableHlo.binary main_v84 main_v90 main_v91 (fun x i => Host.gather gather_S10000x256_S1000000x1_S1000000x256_1_0_n_n_0_1_1256 x i),
    StableHlo.nullary main_cst_23 (constant S_ .f32 0x00000000#32),
    StableHlo.unary main_cst_23 main_v92 (broadcastInDim S20000x256 ![] bcast_S_S20000x256),
    StableHlo.unary main_arg3 main_v93 (broadcastInDim S1000000x1 ![0] bcast_S1000000_S1000000x1_0),
    StableHlo.ternary main_v92 main_v93 main_v91 main_v94 (fun x i u => Host.scatterAdd scatter_S20000x256_S1000000x1_S1000000x256_1_0_0_1 x i u),
    StableHlo.unary main_v80 main_v95 (Host.rsqrt),
    StableHlo.unary main_v95 main_v96 (broadcastInDim S20000x1 ![0] bcast_S20000_S20000x1_0),
    StableHlo.unary main_v96 main_v97 (broadcastInDim S20000x256 ![0, 1] bcast_S20000x1_S20000x256_0_1),
    StableHlo.binary main_v94 main_v97 main_v98 mulf,
    StableHlo.binary main_v98 main_arg14 main_v99 (fun l r => Host.dotGeneral dot_S20000x256_S256x128_S20000x128_1_0_0_1_n_n none l r),
    StableHlo.unary main_arg15 main_v100 (broadcastInDim S1x128 ![1] bcast_S128_S1x128_1),
    StableHlo.unary main_v100 main_v101 (broadcastInDim S20000x128 ![0, 1] bcast_S1x128_S20000x128_0_1),
    StableHlo.binary main_v99 main_v101 main_v102 addf ]

abbrev rops5 : List (HloOp τ sig (Elt F)) :=
  [ StableHlo.nullary main_cst_24 (constant S_ .f32 0x3F800000#32),
    StableHlo.unary main_cst_24 main_v103 (broadcastInDim S1000000 ![] bcast_S_S1000000),
    StableHlo.nullary main_cst_25 (constant S_ .f32 0x00000000#32),
    StableHlo.unary main_cst_25 main_v104 (broadcastInDim S20000 ![] bcast_S_S20000),
    StableHlo.unary main_arg4 main_v105 (broadcastInDim S1000000x1 ![0] bcast_S1000000_S1000000x1_0),
    StableHlo.ternary main_v104 main_v105 main_v103 main_v106 (fun x i u => Host.scatterAdd scatter_S20000_S1000000x1_S1000000_n_0_0_1 x i u),
    StableHlo.nullary main_cst_26 (constant S_ .f32 0x3F800000#32),
    StableHlo.TRef.unary (.of main_cst_26) main_call8.v0 id,
    StableHlo.TRef.unary main_call8.v0 main_call8.v1 (broadcastInDim S20000 ![] bcast_S_S20000),
    StableHlo.TRef.binary main_call8.v1 (.of main_v106) main_call8.v2 maximumf,
    StableHlo.nullary main_cst_27 (constant S_ .f32 0x00000000#32),
    StableHlo.unary main_cst_27 main_v108 (broadcastInDim S10000 ![] bcast_S_S10000),
    StableHlo.unary main_arg5 main_v109 (broadcastInDim S1000000x1 ![0] bcast_S1000000_S1000000x1_0),
    StableHlo.ternary main_v108 main_v109 main_v103 main_v110 (fun x i u => Host.scatterAdd scatter_S10000_S1000000x1_S1000000_n_0_0_1 x i u),
    StableHlo.nullary main_cst_28 (constant S_ .f32 0x3F800000#32),
    StableHlo.TRef.unary (.of main_cst_28) main_call9.v0 id,
    StableHlo.TRef.unary main_call9.v0 main_call9.v1 (broadcastInDim S10000 ![] bcast_S_S10000),
    StableHlo.TRef.binary main_call9.v1 (.of main_v110) main_call9.v2 maximumf,
    StableHlo.unary main_v107 main_v112 (Host.rsqrt),
    StableHlo.unary main_v112 main_v113 (broadcastInDim S20000x1 ![0] bcast_S20000_S20000x1_0),
    StableHlo.unary main_v113 main_v114 (broadcastInDim S20000x256 ![0, 1] bcast_S20000x1_S20000x256_0_1),
    StableHlo.binary main_v71 main_v114 main_v115 mulf,
    StableHlo.nullary main_c_29 (constantI S_ 32 0#32),
    StableHlo.unary main_c_29 main_v116 (broadcastInDim S1000000 ![] bcast_S_S1000000),
    StableHlo.binary main_arg4 main_v116 main_v117 (cmpi .slt),
    StableHlo.nullary main_c_30 (constantI S_ 32 20000#32),
    StableHlo.unary main_c_30 main_v118 (broadcastInDim S1000000 ![] bcast_S_S1000000),
    StableHlo.binary main_arg4 main_v118 main_v119 (addi),
    StableHlo.ternary main_v117 main_v119 main_arg4 main_v120 select,
    StableHlo.unary main_v120 main_v121 (broadcastInDim S1000000x1 ![0] bcast_S1000000_S1000000x1_0),
    StableHlo.binary main_v115 main_v121 main_v122 (fun x i => Host.gather gather_S20000x256_S1000000x1_S1000000x256_1_0_n_n_0_1_1256 x i),
    StableHlo.nullary main_cst_31 (constant S_ .f32 0x00000000#32),
    StableHlo.unary main_cst_31 main_v123 (broadcastInDim S10000x256 ![] bcast_S_S10000x256),
    StableHlo.unary main_arg5 main_v124 (broadcastInDim S1000000x1 ![0] bcast_S1000000_S1000000x1_0),
    StableHlo.ternary main_v123 main_v124 main_v122 main_v125 (fun x i u => Host.scatterAdd scatter_S10000x256_S1000000x1_S1000000x256_1_0_0_1 x i u),
    StableHlo.unary main_v111 main_v126 (Host.rsqrt),
    StableHlo.unary main_v126 main_v127 (broadcastInDim S10000x1 ![0] bcast_S10000_S10000x1_0),
    StableHlo.unary main_v127 main_v128 (broadcastInDim S10000x256 ![0, 1] bcast_S10000x1_S10000x256_0_1),
    StableHlo.binary main_v125 main_v128 main_v129 mulf,
    StableHlo.binary main_v129 main_arg16 main_v130 (fun l r => Host.dotGeneral dot_S10000x256_S256x128_S10000x128_1_0_0_1_n_n none l r),
    StableHlo.unary main_arg17 main_v131 (broadcastInDim S1x128 ![1] bcast_S128_S1x128_1),
    StableHlo.unary main_v131 main_v132 (broadcastInDim S10000x128 ![0, 1] bcast_S1x128_S10000x128_0_1),
    StableHlo.binary main_v130 main_v132 main_v133 addf ]

abbrev rops6 : List (HloOp τ sig (Elt F)) :=
  [ StableHlo.nullary main_cst_32 (constant S_ .f32 0x3E800000#32),
    StableHlo.TRef.nullary main_call10.cst (constant S_ .f32 0x00000000#32),
    StableHlo.TRef.unary main_call10.cst main_call10.v0 (broadcastInDim S10000x128 ![] bcast_S_S10000x128),
    StableHlo.TRef.binary (.of main_v133) main_call10.v0 main_call10.v1 (cmpf .oge),
    StableHlo.TRef.unary (.of main_cst_32) main_call10.v2 id,
    StableHlo.TRef.unary main_call10.v2 main_call10.v3 (broadcastInDim S10000x128 ![] bcast_S_S10000x128),
    StableHlo.TRef.binary main_call10.v3 (.of main_v133) main_call10.v4 mulf,
    StableHlo.TRef.ternary main_call10.v1 (.of main_v133) main_call10.v4 main_call10.call0.v0 select,
    StableHlo.nullary main_cst_33 (constant S_ .f32 0x3E800000#32),
    StableHlo.TRef.nullary main_call11.cst (constant S_ .f32 0x00000000#32),
    StableHlo.TRef.unary main_call11.cst main_call11.v0 (broadcastInDim S20000x128 ![] bcast_S_S20000x128),
    StableHlo.TRef.binary (.of main_v102) main_call11.v0 main_call11.v1 (cmpf .oge),
    StableHlo.TRef.unary (.of main_cst_33) main_call11.v2 id,
    StableHlo.TRef.unary main_call11.v2 main_call11.v3 (broadcastInDim S20000x128 ![] bcast_S_S20000x128),
    StableHlo.TRef.binary main_call11.v3 (.of main_v102) main_call11.v4 mulf,
    StableHlo.TRef.ternary main_call11.v1 (.of main_v102) main_call11.v4 main_call11.call0.v0 select ]

abbrev rops7 : List (HloOp τ sig (Elt F)) :=
  [ StableHlo.nullary main_cst_34 (constant S_ .f32 0x3F800000#32),
    StableHlo.unary main_cst_34 main_v136 (broadcastInDim S1000000 ![] bcast_S_S1000000),
    StableHlo.nullary main_cst_35 (constant S_ .f32 0x00000000#32),
    StableHlo.unary main_cst_35 main_v137 (broadcastInDim S10000 ![] bcast_S_S10000),
    StableHlo.unary main_arg2 main_v138 (broadcastInDim S1000000x1 ![0] bcast_S1000000_S1000000x1_0),
    StableHlo.ternary main_v137 main_v138 main_v136 main_v139 (fun x i u => Host.scatterAdd scatter_S10000_S1000000x1_S1000000_n_0_0_1 x i u),
    StableHlo.nullary main_cst_36 (constant S_ .f32 0x3F800000#32),
    StableHlo.TRef.unary (.of main_cst_36) main_call12.v0 id,
    StableHlo.TRef.unary main_call12.v0 main_call12.v1 (broadcastInDim S10000 ![] bcast_S_S10000),
    StableHlo.TRef.binary main_call12.v1 (.of main_v139) main_call12.v2 maximumf,
    StableHlo.nullary main_cst_37 (constant S_ .f32 0x00000000#32),
    StableHlo.unary main_cst_37 main_v141 (broadcastInDim S20000 ![] bcast_S_S20000),
    StableHlo.unary main_arg3 main_v142 (broadcastInDim S1000000x1 ![0] bcast_S1000000_S1000000x1_0),
    StableHlo.ternary main_v141 main_v142 main_v136 main_v143 (fun x i u => Host.scatterAdd scatter_S20000_S1000000x1_S1000000_n_0_0_1 x i u),
    StableHlo.nullary main_cst_38 (constant S_ .f32 0x3F800000#32),
    StableHlo.TRef.unary (.of main_cst_38) main_call13.v0 id,
    StableHlo.TRef.unary main_call13.v0 main_call13.v1 (broadcastInDim S20000 ![] bcast_S_S20000),
    StableHlo.TRef.binary main_call13.v1 (.of main_v143) main_call13.v2 maximumf,
    StableHlo.unary main_v140 main_v145 (Host.rsqrt),
    StableHlo.unary main_v145 main_v146 (broadcastInDim S10000x1 ![0] bcast_S10000_S10000x1_0),
    StableHlo.unary main_v146 main_v147 (broadcastInDim S10000x128 ![0, 1] bcast_S10000x1_S10000x128_0_1),
    StableHlo.binary main_v134 main_v147 main_v148 mulf,
    StableHlo.nullary main_c_39 (constantI S_ 32 0#32),
    StableHlo.unary main_c_39 main_v149 (broadcastInDim S1000000 ![] bcast_S_S1000000),
    StableHlo.binary main_arg2 main_v149 main_v150 (cmpi .slt),
    StableHlo.nullary main_c_40 (constantI S_ 32 10000#32),
    StableHlo.unary main_c_40 main_v151 (broadcastInDim S1000000 ![] bcast_S_S1000000),
    StableHlo.binary main_arg2 main_v151 main_v152 (addi),
    StableHlo.ternary main_v150 main_v152 main_arg2 main_v153 select,
    StableHlo.unary main_v153 main_v154 (broadcastInDim S1000000x1 ![0] bcast_S1000000_S1000000x1_0),
    StableHlo.binary main_v148 main_v154 main_v155 (fun x i => Host.gather gather_S10000x128_S1000000x1_S1000000x128_1_0_n_n_0_1_1128 x i),
    StableHlo.nullary main_cst_41 (constant S_ .f32 0x00000000#32),
    StableHlo.unary main_cst_41 main_v156 (broadcastInDim S20000x128 ![] bcast_S_S20000x128),
    StableHlo.unary main_arg3 main_v157 (broadcastInDim S1000000x1 ![0] bcast_S1000000_S1000000x1_0),
    StableHlo.ternary main_v156 main_v157 main_v155 main_v158 (fun x i u => Host.scatterAdd scatter_S20000x128_S1000000x1_S1000000x128_1_0_0_1 x i u),
    StableHlo.unary main_v144 main_v159 (Host.rsqrt),
    StableHlo.unary main_v159 main_v160 (broadcastInDim S20000x1 ![0] bcast_S20000_S20000x1_0),
    StableHlo.unary main_v160 main_v161 (broadcastInDim S20000x128 ![0, 1] bcast_S20000x1_S20000x128_0_1),
    StableHlo.binary main_v158 main_v161 main_v162 mulf,
    StableHlo.binary main_v162 main_arg18 main_v163 (fun l r => Host.dotGeneral dot_S20000x128_S128x64_S20000x64_1_0_0_1_n_n none l r),
    StableHlo.unary main_arg19 main_v164 (broadcastInDim S1x64 ![1] bcast_S64_S1x64_1),
    StableHlo.unary main_v164 main_v165 (broadcastInDim S20000x64 ![0, 1] bcast_S1x64_S20000x64_0_1),
    StableHlo.binary main_v163 main_v165 main_v166 addf ]

abbrev rops8 : List (HloOp τ sig (Elt F)) :=
  [ StableHlo.nullary main_cst_42 (constant S_ .f32 0x3F800000#32),
    StableHlo.unary main_cst_42 main_v167 (broadcastInDim S1000000 ![] bcast_S_S1000000),
    StableHlo.nullary main_cst_43 (constant S_ .f32 0x00000000#32),
    StableHlo.unary main_cst_43 main_v168 (broadcastInDim S20000 ![] bcast_S_S20000),
    StableHlo.unary main_arg4 main_v169 (broadcastInDim S1000000x1 ![0] bcast_S1000000_S1000000x1_0),
    StableHlo.ternary main_v168 main_v169 main_v167 main_v170 (fun x i u => Host.scatterAdd scatter_S20000_S1000000x1_S1000000_n_0_0_1 x i u),
    StableHlo.nullary main_cst_44 (constant S_ .f32 0x3F800000#32),
    StableHlo.TRef.unary (.of main_cst_44) main_call14.v0 id,
    StableHlo.TRef.unary main_call14.v0 main_call14.v1 (broadcastInDim S20000 ![] bcast_S_S20000),
    StableHlo.TRef.binary main_call14.v1 (.of main_v170) main_call14.v2 maximumf,
    StableHlo.nullary main_cst_45 (constant S_ .f32 0x00000000#32),
    StableHlo.unary main_cst_45 main_v172 (broadcastInDim S10000 ![] bcast_S_S10000),
    StableHlo.unary main_arg5 main_v173 (broadcastInDim S1000000x1 ![0] bcast_S1000000_S1000000x1_0),
    StableHlo.ternary main_v172 main_v173 main_v167 main_v174 (fun x i u => Host.scatterAdd scatter_S10000_S1000000x1_S1000000_n_0_0_1 x i u),
    StableHlo.nullary main_cst_46 (constant S_ .f32 0x3F800000#32),
    StableHlo.TRef.unary (.of main_cst_46) main_call15.v0 id,
    StableHlo.TRef.unary main_call15.v0 main_call15.v1 (broadcastInDim S10000 ![] bcast_S_S10000),
    StableHlo.TRef.binary main_call15.v1 (.of main_v174) main_call15.v2 maximumf,
    StableHlo.unary main_v171 main_v176 (Host.rsqrt),
    StableHlo.unary main_v176 main_v177 (broadcastInDim S20000x1 ![0] bcast_S20000_S20000x1_0),
    StableHlo.unary main_v177 main_v178 (broadcastInDim S20000x128 ![0, 1] bcast_S20000x1_S20000x128_0_1),
    StableHlo.binary main_v135 main_v178 main_v179 mulf,
    StableHlo.nullary main_c_47 (constantI S_ 32 0#32),
    StableHlo.unary main_c_47 main_v180 (broadcastInDim S1000000 ![] bcast_S_S1000000),
    StableHlo.binary main_arg4 main_v180 main_v181 (cmpi .slt),
    StableHlo.nullary main_c_48 (constantI S_ 32 20000#32),
    StableHlo.unary main_c_48 main_v182 (broadcastInDim S1000000 ![] bcast_S_S1000000),
    StableHlo.binary main_arg4 main_v182 main_v183 (addi),
    StableHlo.ternary main_v181 main_v183 main_arg4 main_v184 select,
    StableHlo.unary main_v184 main_v185 (broadcastInDim S1000000x1 ![0] bcast_S1000000_S1000000x1_0),
    StableHlo.binary main_v179 main_v185 main_v186 (fun x i => Host.gather gather_S20000x128_S1000000x1_S1000000x128_1_0_n_n_0_1_1128 x i),
    StableHlo.nullary main_cst_49 (constant S_ .f32 0x00000000#32),
    StableHlo.unary main_cst_49 main_v187 (broadcastInDim S10000x128 ![] bcast_S_S10000x128),
    StableHlo.unary main_arg5 main_v188 (broadcastInDim S1000000x1 ![0] bcast_S1000000_S1000000x1_0),
    StableHlo.ternary main_v187 main_v188 main_v186 main_v189 (fun x i u => Host.scatterAdd scatter_S10000x128_S1000000x1_S1000000x128_1_0_0_1 x i u),
    StableHlo.unary main_v175 main_v190 (Host.rsqrt),
    StableHlo.unary main_v190 main_v191 (broadcastInDim S10000x1 ![0] bcast_S10000_S10000x1_0),
    StableHlo.unary main_v191 main_v192 (broadcastInDim S10000x128 ![0, 1] bcast_S10000x1_S10000x128_0_1),
    StableHlo.binary main_v189 main_v192 main_v193 mulf,
    StableHlo.binary main_v193 main_arg20 main_v194 (fun l r => Host.dotGeneral dot_S10000x128_S128x64_S10000x64_1_0_0_1_n_n none l r),
    StableHlo.unary main_arg21 main_v195 (broadcastInDim S1x64 ![1] bcast_S64_S1x64_1),
    StableHlo.unary main_v195 main_v196 (broadcastInDim S10000x64 ![0, 1] bcast_S1x64_S10000x64_0_1),
    StableHlo.binary main_v194 main_v196 main_v197 addf ]

abbrev rops9 : List (HloOp τ sig (Elt F)) :=
  [ StableHlo.nullary main_cst_50 (constant S_ .f32 0x3E800000#32),
    StableHlo.TRef.nullary main_call16.cst (constant S_ .f32 0x00000000#32),
    StableHlo.TRef.unary main_call16.cst main_call16.v0 (broadcastInDim S10000x64 ![] bcast_S_S10000x64),
    StableHlo.TRef.binary (.of main_v197) main_call16.v0 main_call16.v1 (cmpf .oge),
    StableHlo.TRef.unary (.of main_cst_50) main_call16.v2 id,
    StableHlo.TRef.unary main_call16.v2 main_call16.v3 (broadcastInDim S10000x64 ![] bcast_S_S10000x64),
    StableHlo.TRef.binary main_call16.v3 (.of main_v197) main_call16.v4 mulf,
    StableHlo.TRef.ternary main_call16.v1 (.of main_v197) main_call16.v4 main_call16.call0.v0 select,
    StableHlo.nullary main_cst_51 (constant S_ .f32 0x3E800000#32),
    StableHlo.TRef.nullary main_call17.cst (constant S_ .f32 0x00000000#32),
    StableHlo.TRef.unary main_call17.cst main_call17.v0 (broadcastInDim S20000x64 ![] bcast_S_S20000x64),
    StableHlo.TRef.binary (.of main_v166) main_call17.v0 main_call17.v1 (cmpf .oge),
    StableHlo.TRef.unary (.of main_cst_51) main_call17.v2 id,
    StableHlo.TRef.unary main_call17.v2 main_call17.v3 (broadcastInDim S20000x64 ![] bcast_S_S20000x64),
    StableHlo.TRef.binary main_call17.v3 (.of main_v166) main_call17.v4 mulf,
    StableHlo.TRef.ternary main_call17.v1 (.of main_v166) main_call17.v4 main_call17.call0.v0 select ]

abbrev ops : List (HloOp τ sig (Elt F)) :=
  rops0 ++ rops1 ++ rops2 ++ rops3 ++ rops4 ++ rops5 ++ rops6 ++ rops7 ++ rops8 ++ rops9

end Cert.ReferenceIdeal.Val

end
-- ==== Proof.RRun.lean ====
import proofs.«426696_j34600256537155_2_alg».proof.Proof.RRunOps

noncomputable section

namespace Cert.ReferenceIdeal.Val

open Cert.ReferenceIdeal Cert.ReferenceIdeal.Gen Idealize.ShloMosaic Idealize.ShloMosaic.TcCoe Idealize.SL.Sem
  Idealize.ShloMosaic.StableHlo

variable {F : FTy → Type} [FloatOps F]

/-- Window 0 of @main is a stretch of `ops`. -/
abbrev wops0 : List (HloOp τ sig (Elt F)) := rops0 ++ rops1 ++ rops2.take 15

theorem main_part0_eq (c : Dev nD) : main_part0 (F := F) c = seq wops0 := by
  simp only [main_part0, fn_clip.body, fn_clip_0.body, fn_where.body, fn_leaky_relu.body, fn_where_2.body, fn_leaky_relu_1.body,
    fn_where_4.body, fn_leaky_relu_3.body, fn_where_6.body, fn_leaky_relu_5.body, fn_where_8.body, fn_leaky_relu_7.body,
    fn_where_10.body, fn_leaky_relu_9.body, bind_assoc, pure_bind]
  rfl

/-- Window 1 of @main is a stretch of `ops`. -/
abbrev wops1 : List (HloOp τ sig (Elt F)) := rops2.drop 15 ++ rops3 ++ rops4.take 34

theorem main_part1_eq (c : Dev nD) : main_part1 (F := F) c = seq wops1 := by
  simp only [main_part1, fn_clip.body, fn_clip_0.body, fn_where.body, fn_leaky_relu.body, fn_where_2.body, fn_leaky_relu_1.body,
    fn_where_4.body, fn_leaky_relu_3.body, fn_where_6.body, fn_leaky_relu_5.body, fn_where_8.body, fn_leaky_relu_7.body,
    fn_where_10.body, fn_leaky_relu_9.body, bind_assoc, pure_bind]
  rfl

/-- Window 2 of @main is a stretch of `ops`. -/
abbrev wops2 : List (HloOp τ sig (Elt F)) := rops4.drop 34 ++ rops5 ++ rops6 ++ rops7.take 10

theorem main_part2_eq (c : Dev nD) : main_part2 (F := F) c = seq wops2 := by
  simp only [main_part2, fn_clip.body, fn_clip_0.body, fn_where.body, fn_leaky_relu.body, fn_where_2.body, fn_leaky_relu_1.body,
    fn_where_4.body, fn_leaky_relu_3.body, fn_where_6.body, fn_leaky_relu_5.body, fn_where_8.body, fn_leaky_relu_7.body,
    fn_where_10.body, fn_leaky_relu_9.body, bind_assoc, pure_bind]
  rfl

/-- Window 3 of @main is a stretch of `ops`. -/
abbrev wops3 : List (HloOp τ sig (Elt F)) := rops7.drop 10 ++ rops8.take 33

theorem main_part3_eq (c : Dev nD) : main_part3 (F := F) c = seq wops3 := by
  simp only [main_part3, fn_clip.body, fn_clip_0.body, fn_where.body, fn_leaky_relu.body, fn_where_2.body, fn_leaky_relu_1.body,
    fn_where_4.body, fn_leaky_relu_3.body, fn_where_6.body, fn_leaky_relu_5.body, fn_where_8.body, fn_leaky_relu_7.body,
    fn_where_10.body, fn_leaky_relu_9.body, bind_assoc, pure_bind]
  rfl

/-- Window 4 of @main is a stretch of `ops`. -/
abbrev wops4 : List (HloOp τ sig (Elt F)) := rops8.drop 33 ++ rops9

theorem main_part4_eq (c : Dev nD) : main_part4 (F := F) c = seq wops4 := by
  simp only [main_part4, fn_clip.body, fn_clip_0.body, fn_where.body, fn_leaky_relu.body, fn_where_2.body, fn_leaky_relu_1.body,
    fn_where_4.body, fn_leaky_relu_3.body, fn_where_6.body, fn_leaky_relu_5.body, fn_where_8.body, fn_leaky_relu_7.body,
    fn_where_10.body, fn_leaky_relu_9.body, bind_assoc, pure_bind]
  rfl

theorem take_drop_append {α : Type} (l r : List α) (n : ℕ) : l.take n ++ (l.drop n ++ r) = l ++ r := by
  rw [← List.append_assoc, List.take_append_drop]

/-- A list cut in two and joined again is the list: the windows one after the other are `ops`. -/
theorem ops_eq_windows :
    (ops : List (HloOp τ sig (Elt F))) = wops0 ++ (wops1 ++ (wops2 ++ (wops3 ++ wops4))) := by
  simp only [ops, wops0, wops1, wops2, wops3, wops4, List.append_assoc, take_drop_append]

theorem main_eq (c : Dev nD) : main (F := F) c = seq ops := by
  rw [ops_eq_windows]
  simp only [seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes device buffers only; the ten lists have three shapes. -/
theorem ops_sub : (ops : List (HloOp τ sig (Elt F))).Forall fun op => op.bufs ⊆ tcRefs τ sig := by
  simp only [ops, List.forall_append]
  refine ⟨⟨⟨⟨⟨⟨⟨⟨⟨?a, ?b1⟩, ?b2⟩, ?c1⟩, ?b3⟩, ?b4⟩, ?c2⟩, ?b5⟩, ?b6⟩, ?c3⟩
  case a => exact ⟨binary_bufs_sub .., unary_bufs_sub .., unary_bufs_sub .., binary_bufs_sub .., binary_bufs_sub .., unary_bufs_sub ..,
      unary_bufs_sub .., binary_bufs_sub ..⟩
  case b1 | b2 | b3 | b4 | b5 | b6 => exact ⟨nullary_bufs_sub .., unary_bufs_sub .., nullary_bufs_sub .., unary_bufs_sub .., unary_bufs_sub .., ternary_bufs_sub ..,
      nullary_bufs_sub .., unary_bufs_sub .., unary_bufs_sub .., binary_bufs_sub .., nullary_bufs_sub .., unary_bufs_sub ..,
      unary_bufs_sub .., ternary_bufs_sub .., nullary_bufs_sub .., unary_bufs_sub .., unary_bufs_sub .., binary_bufs_sub ..,
      unary_bufs_sub .., unary_bufs_sub .., unary_bufs_sub .., binary_bufs_sub .., nullary_bufs_sub .., unary_bufs_sub ..,
      binary_bufs_sub .., nullary_bufs_sub .., unary_bufs_sub .., binary_bufs_sub .., ternary_bufs_sub .., unary_bufs_sub ..,
      binary_bufs_sub .., nullary_bufs_sub .., unary_bufs_sub .., unary_bufs_sub .., ternary_bufs_sub .., unary_bufs_sub ..,
      unary_bufs_sub .., unary_bufs_sub .., binary_bufs_sub .., binary_bufs_sub .., unary_bufs_sub .., unary_bufs_sub ..,
      binary_bufs_sub ..⟩
  case c1 | c2 | c3 => exact ⟨nullary_bufs_sub .., nullary_bufs_sub .., unary_bufs_sub .., binary_bufs_sub .., unary_bufs_sub .., unary_bufs_sub ..,
      binary_bufs_sub .., ternary_bufs_sub .., nullary_bufs_sub .., nullary_bufs_sub .., unary_bufs_sub .., binary_bufs_sub ..,
      unary_bufs_sub .., unary_bufs_sub .., binary_bufs_sub .., ternary_bufs_sub ..⟩

/-- Every operation determines what it writes. -/
theorem ops_fresh : ∀ op ∈ (ops : List (HloOp τ sig (Elt F))), op.fresh = ∅ := by
  refine List.forall_iff_forall_mem.mp ?_
  simp only [ops, List.forall_append]
  refine ⟨⟨⟨⟨⟨⟨⟨⟨⟨?a, ?b1⟩, ?b2⟩, ?c1⟩, ?b3⟩, ?b4⟩, ?c2⟩, ?b5⟩, ?b6⟩, ?c3⟩
  case a => exact ⟨rfl, rfl, rfl, rfl, rfl, rfl, rfl, rfl⟩
  case b1 | b2 | b3 | b4 | b5 | b6 =>
    exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
  case c1 | c2 | c3 => exact ⟨rfl, rfl, rfl, rfl, rfl, rfl, rfl, rfl, rfl, rfl, rfl, rfl, rfl, rfl, rfl, rfl⟩

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Val

end
-- ==== Proof.RKeep.lean ====
import proofs.«426696_j34600256537155_2_alg».proof.Proof.RRunOps
import Idealize.ShloMosaic.Lib.StableHlo
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem
  Idealize.ShloMosaic.StableHlo

variable {F : FTy → Type} [FloatOps F]

/-- A buffer that no operation of a list writes holds after the list what it held before. -/
theorem keep (l : List (HloOp τ sig (Elt F))) (V : Valuation τ sig (Elt F)) (b : DevRef τ sig)
    (hb : ∀ op ∈ l, b ∉ op.writes) : StableHlo.after l V b = V b :=
  StableHlo.after_of_forall_not_mem l V hb

macro "keep_tac" : tactic => `(tactic|
  (refine List.forall_iff_forall_mem.mp ?_
   simp only [rops0, rops1, rops2, rops3, rops4, rops5, rops6, rops7, rops8, rops9, List.Forall,
     StableHlo.TRef.nullary, StableHlo.TRef.unary, StableHlo.TRef.binary, StableHlo.TRef.ternary,
     StableHlo.nullary_writes, StableHlo.unary_writes, StableHlo.binary_writes, StableHlo.ternary_writes,
     Finset.mem_singleton]
   repeat' apply And.intro
   all_goals exact StableHlo.devRef_ne_of_ne (by decide)))

theorem keep_after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

theorem after_ops (V : Valuation τ sig (Elt F)) :
    StableHlo.after ops V = StableHlo.after rops9 (StableHlo.after rops8 (StableHlo.after rops7 (StableHlo.after rops6 (StableHlo.after rops5 (StableHlo.after rops4 (StableHlo.after rops3 (StableHlo.after rops2 (StableHlo.after rops1 (StableHlo.after rops0 V))))))))) := by
  show StableHlo.after (rops0 ++ rops1 ++ rops2 ++ rops3 ++ rops4 ++ rops5 ++ rops6 ++ rops7 ++ rops8 ++ rops9) V = _
  rw [keep_after_append, keep_after_append, keep_after_append, keep_after_append, keep_after_append,
    keep_after_append, keep_after_append, keep_after_append, keep_after_append]

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- No operation of the list writes an argument buffer. -/
abbrev ArgsKept (l : List (HloOp τ sig (Elt F))) : Prop :=
  l.Forall fun op => ∀ r ∈ argRefs, (Proc.devRef .tc r : DevRef τ sig) ∉ op.writes

theorem args_keep_of {l : List (HloOp τ sig (Elt F))} (h : ArgsKept l) (V : Valuation τ sig (Elt F)) (r : Ref sig .tc)
    (hr : r ∈ argRefs) : StableHlo.after l V (Proc.devRef .tc r) = V (Proc.devRef .tc r) :=
  StableHlo.after_of_forall_not_mem l V fun op hop => List.forall_iff_forall_mem.mp h op hop r hr

theorem args_unwritten0 : ArgsKept (F := F) rops0 := by
  simp only [ArgsKept, rops0, List.Forall, StableHlo.TRef.nullary, StableHlo.TRef.unary, StableHlo.TRef.binary,
    StableHlo.TRef.ternary, StableHlo.nullary_writes, StableHlo.unary_writes, StableHlo.binary_writes,
    StableHlo.ternary_writes, Finset.mem_singleton]
  repeat' apply And.intro
  all_goals exact fun r hr => StableHlo.devRef_ne_of_ne ((by decide : ∀ r ∈ argRefs, r ≠ _) r hr)

theorem args_unwritten1 : ArgsKept (F := F) rops1 := by
  simp only [ArgsKept, rops1, List.Forall, StableHlo.TRef.nullary, StableHlo.TRef.unary, StableHlo.TRef.binary,
    StableHlo.TRef.ternary, StableHlo.nullary_writes, StableHlo.unary_writes, StableHlo.binary_writes,
    StableHlo.ternary_writes, Finset.mem_singleton]
  repeat' apply And.intro
  all_goals exact fun r hr => StableHlo.devRef_ne_of_ne ((by decide : ∀ r ∈ argRefs, r ≠ _) r hr)

theorem args_unwritten2 : ArgsKept (F := F) rops2 := by
  simp only [ArgsKept, rops2, List.Forall, StableHlo.TRef.nullary, StableHlo.TRef.unary, StableHlo.TRef.binary,
    StableHlo.TRef.ternary, StableHlo.nullary_writes, StableHlo.unary_writes, StableHlo.binary_writes,
    StableHlo.ternary_writes, Finset.mem_singleton]
  repeat' apply And.intro
  all_goals exact fun r hr => StableHlo.devRef_ne_of_ne ((by decide : ∀ r ∈ argRefs, r ≠ _) r hr)

theorem args_unwritten3 : ArgsKept (F := F) rops3 := by
  simp only [ArgsKept, rops3, List.Forall, StableHlo.TRef.nullary, StableHlo.TRef.unary, StableHlo.TRef.binary,
    StableHlo.TRef.ternary, StableHlo.nullary_writes, StableHlo.unary_writes, StableHlo.binary_writes,
    StableHlo.ternary_writes, Finset.mem_singleton]
  repeat' apply And.intro
  all_goals exact fun r hr => StableHlo.devRef_ne_of_ne ((by decide : ∀ r ∈ argRefs, r ≠ _) r hr)

theorem args_unwritten4 : ArgsKept (F := F) rops4 := by
  simp only [ArgsKept, rops4, List.Forall, StableHlo.TRef.nullary, StableHlo.TRef.unary, StableHlo.TRef.binary,
    StableHlo.TRef.ternary, StableHlo.nullary_writes, StableHlo.unary_writes, StableHlo.binary_writes,
    StableHlo.ternary_writes, Finset.mem_singleton]
  repeat' apply And.intro
  all_goals exact fun r hr => StableHlo.devRef_ne_of_ne ((by decide : ∀ r ∈ argRefs, r ≠ _) r hr)

theorem args_unwritten5 : ArgsKept (F := F) rops5 := by
  simp only [ArgsKept, rops5, List.Forall, StableHlo.TRef.nullary, StableHlo.TRef.unary, StableHlo.TRef.binary,
    StableHlo.TRef.ternary, StableHlo.nullary_writes, StableHlo.unary_writes, StableHlo.binary_writes,
    StableHlo.ternary_writes, Finset.mem_singleton]
  repeat' apply And.intro
  all_goals exact fun r hr => StableHlo.devRef_ne_of_ne ((by decide : ∀ r ∈ argRefs, r ≠ _) r hr)

theorem args_unwritten6 : ArgsKept (F := F) rops6 := by
  simp only [ArgsKept, rops6, List.Forall, StableHlo.TRef.nullary, StableHlo.TRef.unary, StableHlo.TRef.binary,
    StableHlo.TRef.ternary, StableHlo.nullary_writes, StableHlo.unary_writes, StableHlo.binary_writes,
    StableHlo.ternary_writes, Finset.mem_singleton]
  repeat' apply And.intro
  all_goals exact fun r hr => StableHlo.devRef_ne_of_ne ((by decide : ∀ r ∈ argRefs, r ≠ _) r hr)

theorem args_unwritten7 : ArgsKept (F := F) rops7 := by
  simp only [ArgsKept, rops7, List.Forall, StableHlo.TRef.nullary, StableHlo.TRef.unary, StableHlo.TRef.binary,
    StableHlo.TRef.ternary, StableHlo.nullary_writes, StableHlo.unary_writes, StableHlo.binary_writes,
    StableHlo.ternary_writes, Finset.mem_singleton]
  repeat' apply And.intro
  all_goals exact fun r hr => StableHlo.devRef_ne_of_ne ((by decide : ∀ r ∈ argRefs, r ≠ _) r hr)

theorem args_unwritten8 : ArgsKept (F := F) rops8 := by
  simp only [ArgsKept, rops8, List.Forall, StableHlo.TRef.nullary, StableHlo.TRef.unary, StableHlo.TRef.binary,
    StableHlo.TRef.ternary, StableHlo.nullary_writes, StableHlo.unary_writes, StableHlo.binary_writes,
    StableHlo.ternary_writes, Finset.mem_singleton]
  repeat' apply And.intro
  all_goals exact fun r hr => StableHlo.devRef_ne_of_ne ((by decide : ∀ r ∈ argRefs, r ≠ _) r hr)

theorem args_unwritten9 : ArgsKept (F := F) rops9 := by
  simp only [ArgsKept, rops9, List.Forall, StableHlo.TRef.nullary, StableHlo.TRef.unary, StableHlo.TRef.binary,
    StableHlo.TRef.ternary, StableHlo.nullary_writes, StableHlo.unary_writes, StableHlo.binary_writes,
    StableHlo.ternary_writes, Finset.mem_singleton]
  repeat' apply And.intro
  all_goals exact fun r hr => StableHlo.devRef_ne_of_ne ((by decide : ∀ r ∈ argRefs, r ≠ _) r hr)

/-- All the operations leave every argument buffer as they found it. -/
theorem args_keep (V : Valuation τ sig (Elt F)) (r : Ref sig .tc) (hr : r ∈ argRefs) :
    StableHlo.after ops V (Proc.devRef .tc r) = V (Proc.devRef .tc r) := by
  rw [after_ops]
  exact (args_keep_of args_unwritten9 _ r hr).trans ((args_keep_of args_unwritten8 _ r hr).trans
    ((args_keep_of args_unwritten7 _ r hr).trans ((args_keep_of args_unwritten6 _ r hr).trans
    ((args_keep_of args_unwritten5 _ r hr).trans ((args_keep_of args_unwritten4 _ r hr).trans
    ((args_keep_of args_unwritten3 _ r hr).trans ((args_keep_of args_unwritten2 _ r hr).trans
    ((args_keep_of args_unwritten1 _ r hr).trans (args_keep_of args_unwritten0 V r hr)))))))))

theorem reference_args (V : Valuation τ sig (Elt F)) :
    StableHlo.after ops V (main_arg0 : DevRef τ sig) = V (main_arg0 : DevRef τ sig)
    ∧ StableHlo.after ops V (main_arg1 : DevRef τ sig) = V (main_arg1 : DevRef τ sig)
    ∧ StableHlo.after ops V (main_arg2 : DevRef τ sig) = V (main_arg2 : DevRef τ sig)
    ∧ StableHlo.after ops V (main_arg3 : DevRef τ sig) = V (main_arg3 : DevRef τ sig)
    ∧ StableHlo.after ops V (main_arg4 : DevRef τ sig) = V (main_arg4 : DevRef τ sig)
    ∧ StableHlo.after ops V (main_arg5 : DevRef τ sig) = V (main_arg5 : DevRef τ sig)
    ∧ StableHlo.after ops V (main_arg6 : DevRef τ sig) = V (main_arg6 : DevRef τ sig)
    ∧ StableHlo.after ops V (main_arg7 : DevRef τ sig) = V (main_arg7 : DevRef τ sig)
    ∧ StableHlo.after ops V (main_arg8 : DevRef τ sig) = V (main_arg8 : DevRef τ sig)
    ∧ StableHlo.after ops V (main_arg9 : DevRef τ sig) = V (main_arg9 : DevRef τ sig)
    ∧ StableHlo.after ops V (main_arg10 : DevRef τ sig) = V (main_arg10 : DevRef τ sig)
    ∧ StableHlo.after ops V (main_arg11 : DevRef τ sig) = V (main_arg11 : DevRef τ sig)
    ∧ StableHlo.after ops V (main_arg12 : DevRef τ sig) = V (main_arg12 : DevRef τ sig)
    ∧ StableHlo.after ops V (main_arg13 : DevRef τ sig) = V (main_arg13 : DevRef τ sig)
    ∧ StableHlo.after ops V (main_arg14 : DevRef τ sig) = V (main_arg14 : DevRef τ sig)
    ∧ StableHlo.after ops V (main_arg15 : DevRef τ sig) = V (main_arg15 : DevRef τ sig)
    ∧ StableHlo.after ops V (main_arg16 : DevRef τ sig) = V (main_arg16 : DevRef τ sig)
    ∧ StableHlo.after ops V (main_arg17 : DevRef τ sig) = V (main_arg17 : DevRef τ sig)
    ∧ StableHlo.after ops V (main_arg18 : DevRef τ sig) = V (main_arg18 : DevRef τ sig)
    ∧ StableHlo.after ops V (main_arg19 : DevRef τ sig) = V (main_arg19 : DevRef τ sig)
    ∧ StableHlo.after ops V (main_arg20 : DevRef τ sig) = V (main_arg20 : DevRef τ sig)
    ∧ StableHlo.after ops V (main_arg21 : DevRef τ sig) = V (main_arg21 : DevRef τ sig) :=
  ⟨args_keep V main_arg0 (by decide), args_keep V main_arg1 (by decide), args_keep V main_arg2 (by decide), args_keep V main_arg3 (by decide), args_keep V main_arg4 (by decide), args_keep V main_arg5 (by decide), args_keep V main_arg6 (by decide), args_keep V main_arg7 (by decide), args_keep V main_arg8 (by decide), args_keep V main_arg9 (by decide), args_keep V main_arg10 (by decide), args_keep V main_arg11 (by decide), args_keep V main_arg12 (by decide), args_keep V main_arg13 (by decide), args_keep V main_arg14 (by decide), args_keep V main_arg15 (by decide), args_keep V main_arg16 (by decide), args_keep V main_arg17 (by decide), args_keep V main_arg18 (by decide), args_keep V main_arg19 (by decide), args_keep V main_arg20 (by decide), args_keep V main_arg21 (by decide)⟩

end Cert.ReferenceIdeal.Val

end
-- ==== Proof.RStages.lean ====
import proofs.«426696_j34600256537155_2_alg».proof.Proof.RRunOps
import proofs.«426696_j34600256537155_2_alg».proof.Proof.Spec
import Idealize.ShloMosaic.Lib.ValueIdx
import Idealize.ShloMosaic.Lib.StackMember
import Idealize.ShloMosaic.Lib.IdealHost

noncomputable section

namespace Cert.ReferenceIdeal.Val

open Cert.ReferenceIdeal Cert.ReferenceIdeal.Gen Idealize.ShloMosaic Idealize.ShloMosaic.TcCoe Idealize.SL.Sem
  Idealize.ShloMosaic.StableHlo Idealize.ShloMosaic.ValueIdx

open scoped BigOperators

theorem dot_s_plain : dot_S10000x2000_S2000x256_S10000x256_1_0_0_1_n_n = DotDims.plain 10000 2000 256 := rfl

theorem dot_g_plain : dot_S20000x500_S500x256_S20000x256_1_0_0_1_n_n = DotDims.plain 20000 500 256 := rfl

theorem bias_apply {n q : ℕ}
    (h1 : (⟨1, ![q]⟩ : Shape).BroadcastsInDim ⟨2, ![1, q]⟩ ![1])
    (h2 : (⟨2, ![1, q]⟩ : Shape).BroadcastsInDim ⟨2, ![n, q]⟩ ![0, 1])
    {α : Type} (b : (⟨1, ![q]⟩ : Shape).Idx → α) (r : Fin n) (j : Fin q) :
    broadcastInDim ⟨2, ![n, q]⟩ ![0, 1] h2 (broadcastInDim ⟨2, ![1, q]⟩ ![1] h1 b) (ix2 r j) = b (ix1 j) := by
  rw [broadcastInDim_oneRow_apply]
  refine broadcastInDim_apply ![1] h1 b (ix2 (0 : Fin 1) j) (ix1 j) ?_
  intro a
  match a with
  | ⟨0, _⟩ =>
    show j.val = if q = 1 then 0 else j.val
    split
    · have := j.isLt; omega
    · rfl

theorem lin_apply {n p q : ℕ} (D : DotDims ⟨2, ![n, p]⟩ ⟨2, ![p, q]⟩ ⟨2, ![n, q]⟩) (hD : D = DotDims.plain n p q)
    (h1 : (⟨1, ![q]⟩ : Shape).BroadcastsInDim ⟨2, ![1, q]⟩ ![1])
    (h2 : (⟨2, ![1, q]⟩ : Shape).BroadcastsInDim ⟨2, ![n, q]⟩ ![0, 1])
    (X : FVec Ideal ⟨2, ![n, p]⟩ .f32) (W : FVec Ideal ⟨2, ![p, q]⟩ .f32) (b : FVec Ideal ⟨1, ![q]⟩ .f32)
    (r : Fin n) (j : Fin q) :
    addf (Host.dotGeneral D none X W)
        (broadcastInDim ⟨2, ![n, q]⟩ ![0, 1] h2 (broadcastInDim ⟨2, ![1, q]⟩ ![1] h1 b)) (ix2 r j)
      = GCN.lin (fun r c => X (ix2 r c)) (fun c j => W (ix2 c j)) (fun j => b (ix1 j)) r j := by
  subst hD
  rw [addf_apply, StackMember.dotGeneral_plain_apply, bias_apply]
  rfl

theorem rlin_s (V : Valuation τ sig (Elt Ideal)) (r : Fin 10000) (j : Fin 256) :
    StableHlo.after rops0 V (main_v3 : DevRef τ sig) (ix2 r j)
      = GCN.lin (fun r c => V (main_arg0 : DevRef τ sig) (ix2 r c)) (fun c j => V (main_arg6 : DevRef τ sig) (ix2 c j))
          (fun j => V (main_arg7 : DevRef τ sig) (ix1 j)) r j := by
  have e : @Eq (FVec Ideal S10000x256 .f32) (StableHlo.after rops0 V (main_v3 : DevRef τ sig))
      (addf (Host.dotGeneral (φ₁ := .f32) (φ₂ := .f32) dot_S10000x2000_S2000x256_S10000x256_1_0_0_1_n_n none
            (V (main_arg0 : DevRef τ sig)) (V (main_arg6 : DevRef τ sig)))
          (broadcastInDim S10000x256 ![0, 1] bcast_S1x256_S10000x256_0_1
            (broadcastInDim S1x256 ![1] bcast_S256_S1x256_1 (V (main_arg7 : DevRef τ sig) : FVec Ideal S256 .f32)))) := by
    simp only [after_cons, after_nil]
    rfl
  rw [e]
  exact lin_apply _ dot_s_plain _ _ _ _ _ r j

theorem rlin_g (V : Valuation τ sig (Elt Ideal)) (r : Fin 20000) (j : Fin 256) :
    StableHlo.after rops0 V (main_v7 : DevRef τ sig) (ix2 r j)
      = GCN.lin (fun r c => V (main_arg1 : DevRef τ sig) (ix2 r c)) (fun c j => V (main_arg8 : DevRef τ sig) (ix2 c j))
          (fun j => V (main_arg9 : DevRef τ sig) (ix1 j)) r j := by
  have e : @Eq (FVec Ideal S20000x256 .f32) (StableHlo.after rops0 V (main_v7 : DevRef τ sig))
      (addf (Host.dotGeneral (φ₁ := .f32) (φ₂ := .f32) dot_S20000x500_S500x256_S20000x256_1_0_0_1_n_n none
            (V (main_arg1 : DevRef τ sig)) (V (main_arg8 : DevRef τ sig)))
          (broadcastInDim S20000x256 ![0, 1] bcast_S1x256_S20000x256_0_1
            (broadcastInDim S1x256 ![1] bcast_S256_S1x256_1 (V (main_arg9 : DevRef τ sig) : FVec Ideal S256 .f32)))) := by
    simp only [after_cons, after_nil]
    rfl
  rw [e]
  exact lin_apply _ dot_g_plain _ _ _ _ _ r j

abbrev rectified {s : Shape} (hb : S_.BroadcastsInDim s ![]) (x : FVec Ideal s .f32) : FVec Ideal s .f32 :=
  select (cmpf .oge x (broadcastInDim s ![] hb (constant (F := Ideal) S_ .f32 0x00000000#32)))
    x (mulf (broadcastInDim s ![] hb (id (constant (F := Ideal) S_ .f32 0x3E800000#32))) x)

theorem rectified_apply {s : Shape} (hb : S_.BroadcastsInDim s ![]) (x : FVec Ideal s .f32) (i : s.Idx) :
    rectified hb x i = GCN.lrelu (x i) := by
  unfold rectified
  rw [select_apply, cmpf_apply, mulf_apply, broadcastInDim_scalar_apply, broadcastInDim_scalar_apply]
  rfl

theorem rlr3_s (V : Valuation τ sig (Elt Ideal)) (r : Fin 10000) (j : Fin 256) :
    StableHlo.after rops3 V (main_v70 : DevRef τ sig) (ix2 r j) = GCN.lrelu (V (main_v69 : DevRef τ sig) (ix2 r j)) := by
  have e : @Eq (FVec Ideal S10000x256 .f32) (StableHlo.after rops3 V (main_v70 : DevRef τ sig))
      (rectified bcast_S_S10000x256 (V (main_v69 : DevRef τ sig))) := by
    simp only [after_cons, after_nil]
    rfl
  rw [e]
  exact rectified_apply _ _ _

theorem rlr3_g (V : Valuation τ sig (Elt Ideal)) (r : Fin 20000) (j : Fin 256) :
    StableHlo.after rops3 V (main_v71 : DevRef τ sig) (ix2 r j) = GCN.lrelu (V (main_v38 : DevRef τ sig) (ix2 r j)) := by
  have e : @Eq (FVec Ideal S20000x256 .f32) (StableHlo.after rops3 V (main_v71 : DevRef τ sig))
      (rectified bcast_S_S20000x256 (V (main_v38 : DevRef τ sig))) := by
    simp only [after_cons, after_nil]
    rfl
  rw [e]
  exact rectified_apply _ _ _

theorem rlr6_s (V : Valuation τ sig (Elt Ideal)) (r : Fin 10000) (j : Fin 128) :
    StableHlo.after rops6 V (main_v134 : DevRef τ sig) (ix2 r j) = GCN.lrelu (V (main_v133 : DevRef τ sig) (ix2 r j)) := by
  have e : @Eq (FVec Ideal S10000x128 .f32) (StableHlo.after rops6 V (main_v134 : DevRef τ sig))
      (rectified bcast_S_S10000x128 (V (main_v133 : DevRef τ sig))) := by
    simp only [after_cons, after_nil]
    rfl
  rw [e]
  exact rectified_apply _ _ _

theorem rlr6_g (V : Valuation τ sig (Elt Ideal)) (r : Fin 20000) (j : Fin 128) :
    StableHlo.after rops6 V (main_v135 : DevRef τ sig) (ix2 r j) = GCN.lrelu (V (main_v102 : DevRef τ sig) (ix2 r j)) := by
  have e : @Eq (FVec Ideal S20000x128 .f32) (StableHlo.after rops6 V (main_v135 : DevRef τ sig))
      (rectified bcast_S_S20000x128 (V (main_v102 : DevRef τ sig))) := by
    simp only [after_cons, after_nil]
    rfl
  rw [e]
  exact rectified_apply _ _ _

theorem rlr9_s (V : Valuation τ sig (Elt Ideal)) (r : Fin 10000) (j : Fin 64) :
    StableHlo.after rops9 V (main_v198 : DevRef τ sig) (ix2 r j) = GCN.lrelu (V (main_v197 : DevRef τ sig) (ix2 r j)) := by
  have e : @Eq (FVec Ideal S10000x64 .f32) (StableHlo.after rops9 V (main_v198 : DevRef τ sig))
      (rectified bcast_S_S10000x64 (V (main_v197 : DevRef τ sig))) := by
    simp only [after_cons, after_nil]
    rfl
  rw [e]
  exact rectified_apply _ _ _

theorem rlr9_g (V : Valuation τ sig (Elt Ideal)) (r : Fin 20000) (j : Fin 64) :
    StableHlo.after rops9 V (main_v199 : DevRef τ sig) (ix2 r j) = GCN.lrelu (V (main_v166 : DevRef τ sig) (ix2 r j)) := by
  have e : @Eq (FVec Ideal S20000x64 .f32) (StableHlo.after rops9 V (main_v199 : DevRef τ sig))
      (rectified bcast_S_S20000x64 (V (main_v166 : DevRef τ sig))) := by
    simp only [after_cons, after_nil]
    rfl
  rw [e]
  exact rectified_apply _ _ _

end Cert.ReferenceIdeal.Val

end
-- ==== Proof.RGc1.lean ====
import Idealize.ShloMosaic.Lib.ValueIdx
import Idealize.ShloMosaic.Lib.StableHlo.Run
import proofs.«426696_j34600256537155_2_alg».proof.Proof.Spec
import proofs.«426696_j34600256537155_2_alg».proof.Proof.GcRead
import proofs.«426696_j34600256537155_2_alg».proof.Proof.RRunOps

noncomputable section

namespace Cert.ReferenceIdeal.Val

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

attribute [local irreducible] Host.gather Host.scatterAdd Host.rsqrt in
set_option maxRecDepth 8192 in
set_option maxHeartbeats 1000000 in

theorem rgc1_term (V : Valuation τ sig (Elt F)) :
    after rops1 V (main_v38 : DevRef τ sig)
      = GCN.Read.gcTerm scatter_S10000_S1000000x1_S1000000_n_0_0_1 scatter_S20000_S1000000x1_S1000000_n_0_0_1
          gather_S10000x256_S1000000x1_S1000000x256_1_0_n_n_0_1_1256 scatter_S20000x256_S1000000x1_S1000000x256_1_0_0_1
          dot_S20000x256_S256x256_S20000x256_1_0_0_1_n_n
          bcast_S_S10000 bcast_S_S20000 bcast_S_S1000000 bcast_S_S20000x256 bcast_S1000000_S1000000x1_0
          bcast_S10000_S10000x1_0 bcast_S10000x1_S10000x256_0_1 bcast_S20000_S20000x1_0 bcast_S20000x1_S20000x256_0_1
          bcast_S256_S1x256_1 bcast_S1x256_S20000x256_0_1 10000#32
          (V (main_v3 : DevRef τ sig)) (V (main_arg2 : DevRef τ sig)) (V (main_arg3 : DevRef τ sig))
          (V (main_arg10 : DevRef τ sig)) (V (main_arg11 : DevRef τ sig)) := by
  simp only [after_cons, after_nil]
  rfl

theorem rgc1_val (V : Valuation τ sig (Elt Ideal)) (s : Fin 1000000 → Fin 10000) (t : Fin 1000000 → Fin 20000)
    (hs : ∀ e, (V (main_arg2 : DevRef τ sig) (ix1 e)).toInt = (s e : ℤ))
    (ht : ∀ e, (V (main_arg3 : DevRef τ sig) (ix1 e)).toInt = (t e : ℤ)) (d : Fin 20000) (j : Fin 256) :
    StableHlo.after rops1 V (main_v38 : DevRef τ sig) (ix2 d j)
      = GCN.rgcPre s t (fun a c => V (main_v3 : DevRef τ sig) (ix2 a c)) (fun c j => V (main_arg10 : DevRef τ sig) (ix2 c j))
          (fun j => V (main_arg11 : DevRef τ sig) (ix1 j)) d j := by
  rw [rgc1_term V]
  exact GCN.Read.gc_read _ rfl rfl rfl rfl _ rfl rfl rfl rfl _ rfl rfl rfl rfl rfl rfl _ rfl rfl rfl rfl
    _ rfl rfl rfl rfl rfl rfl _ _ _ _ _ _ _ _ _ _ _ _ _ _ _ _ _ s t hs ht d j

end Cert.ReferenceIdeal.Val

end
-- ==== Proof.RGc2.lean ====
import Idealize.ShloMosaic.Lib.ValueIdx
import Idealize.ShloMosaic.Lib.StableHlo.Run
import proofs.«426696_j34600256537155_2_alg».proof.Proof.Spec
import proofs.«426696_j34600256537155_2_alg».proof.Proof.GcRead
import proofs.«426696_j34600256537155_2_alg».proof.Proof.RRunOps

noncomputable section

namespace Cert.ReferenceIdeal.Val

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

attribute [local irreducible] Host.gather Host.scatterAdd Host.rsqrt in
set_option maxRecDepth 8192 in
set_option maxHeartbeats 1000000 in

theorem rgc2_term (V : Valuation τ sig (Elt F)) :
    after rops2 V (main_v69 : DevRef τ sig)
      = GCN.Read.gcTerm scatter_S20000_S1000000x1_S1000000_n_0_0_1 scatter_S10000_S1000000x1_S1000000_n_0_0_1
          gather_S20000x256_S1000000x1_S1000000x256_1_0_n_n_0_1_1256 scatter_S10000x256_S1000000x1_S1000000x256_1_0_0_1
          dot_S10000x256_S256x256_S10000x256_1_0_0_1_n_n
          bcast_S_S20000 bcast_S_S10000 bcast_S_S1000000 bcast_S_S10000x256 bcast_S1000000_S1000000x1_0
          bcast_S20000_S20000x1_0 bcast_S20000x1_S20000x256_0_1 bcast_S10000_S10000x1_0 bcast_S10000x1_S10000x256_0_1
          bcast_S256_S1x256_1 bcast_S1x256_S10000x256_0_1 20000#32
          (V (main_v7 : DevRef τ sig)) (V (main_arg4 : DevRef τ sig)) (V (main_arg5 : DevRef τ sig))
          (V (main_arg12 : DevRef τ sig)) (V (main_arg13 : DevRef τ sig)) := by
  simp only [after_cons, after_nil]
  rfl

theorem rgc2_val (V : Valuation τ sig (Elt Ideal)) (s : Fin 1000000 → Fin 20000) (t : Fin 1000000 → Fin 10000)
    (hs : ∀ e, (V (main_arg4 : DevRef τ sig) (ix1 e)).toInt = (s e : ℤ))
    (ht : ∀ e, (V (main_arg5 : DevRef τ sig) (ix1 e)).toInt = (t e : ℤ)) (d : Fin 10000) (j : Fin 256) :
    StableHlo.after rops2 V (main_v69 : DevRef τ sig) (ix2 d j)
      = GCN.rgcPre s t (fun a c => V (main_v7 : DevRef τ sig) (ix2 a c)) (fun c j => V (main_arg12 : DevRef τ sig) (ix2 c j))
          (fun j => V (main_arg13 : DevRef τ sig) (ix1 j)) d j := by
  rw [rgc2_term V]
  exact GCN.Read.gc_read _ rfl rfl rfl rfl _ rfl rfl rfl rfl _ rfl rfl rfl rfl rfl rfl _ rfl rfl rfl rfl
    _ rfl rfl rfl rfl rfl rfl _ _ _ _ _ _ _ _ _ _ _ _ _ _ _ _ _ s t hs ht d j

end Cert.ReferenceIdeal.Val

end
-- ==== Proof.RGc4.lean ====
import Idealize.ShloMosaic.Lib.ValueIdx
import Idealize.ShloMosaic.Lib.StableHlo.Run
import proofs.«426696_j34600256537155_2_alg».proof.Proof.Spec
import proofs.«426696_j34600256537155_2_alg».proof.Proof.GcRead
import proofs.«426696_j34600256537155_2_alg».proof.Proof.RRunOps

noncomputable section

namespace Cert.ReferenceIdeal.Val

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

attribute [local irreducible] Host.gather Host.scatterAdd Host.rsqrt in
set_option maxRecDepth 8192 in
set_option maxHeartbeats 1000000 in

theorem rgc4_term (V : Valuation τ sig (Elt F)) :
    after rops4 V (main_v102 : DevRef τ sig)
      = GCN.Read.gcTerm scatter_S10000_S1000000x1_S1000000_n_0_0_1 scatter_S20000_S1000000x1_S1000000_n_0_0_1
          gather_S10000x256_S1000000x1_S1000000x256_1_0_n_n_0_1_1256 scatter_S20000x256_S1000000x1_S1000000x256_1_0_0_1
          dot_S20000x256_S256x128_S20000x128_1_0_0_1_n_n
          bcast_S_S10000 bcast_S_S20000 bcast_S_S1000000 bcast_S_S20000x256 bcast_S1000000_S1000000x1_0
          bcast_S10000_S10000x1_0 bcast_S10000x1_S10000x256_0_1 bcast_S20000_S20000x1_0 bcast_S20000x1_S20000x256_0_1
          bcast_S128_S1x128_1 bcast_S1x128_S20000x128_0_1 10000#32
          (V (main_v70 : DevRef τ sig)) (V (main_arg2 : DevRef τ sig)) (V (main_arg3 : DevRef τ sig))
          (V (main_arg14 : DevRef τ sig)) (V (main_arg15 : DevRef τ sig)) := by
  simp only [after_cons, after_nil]
  rfl

theorem rgc4_val (V : Valuation τ sig (Elt Ideal)) (s : Fin 1000000 → Fin 10000) (t : Fin 1000000 → Fin 20000)
    (hs : ∀ e, (V (main_arg2 : DevRef τ sig) (ix1 e)).toInt = (s e : ℤ))
    (ht : ∀ e, (V (main_arg3 : DevRef τ sig) (ix1 e)).toInt = (t e : ℤ)) (d : Fin 20000) (j : Fin 128) :
    StableHlo.after rops4 V (main_v102 : DevRef τ sig) (ix2 d j)
      = GCN.rgcPre s t (fun a c => V (main_v70 : DevRef τ sig) (ix2 a c)) (fun c j => V (main_arg14 : DevRef τ sig) (ix2 c j))
          (fun j => V (main_arg15 : DevRef τ sig) (ix1 j)) d j := by
  rw [rgc4_term V]
  exact GCN.Read.gc_read _ rfl rfl rfl rfl _ rfl rfl rfl rfl _ rfl rfl rfl rfl rfl rfl _ rfl rfl rfl rfl
    _ rfl rfl rfl rfl rfl rfl _ _ _ _ _ _ _ _ _ _ _ _ _ _ _ _ _ s t hs ht d j

end Cert.ReferenceIdeal.Val

end
-- ==== Proof.RGc5.lean ====
import Idealize.ShloMosaic.Lib.ValueIdx
import Idealize.ShloMosaic.Lib.StableHlo.Run
import proofs.«426696_j34600256537155_2_alg».proof.Proof.Spec
import proofs.«426696_j34600256537155_2_alg».proof.Proof.GcRead
import proofs.«426696_j34600256537155_2_alg».proof.Proof.RRunOps

noncomputable section

namespace Cert.ReferenceIdeal.Val

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

attribute [local irreducible] Host.gather Host.scatterAdd Host.rsqrt in
set_option maxRecDepth 8192 in
set_option maxHeartbeats 1000000 in

theorem rgc5_term (V : Valuation τ sig (Elt F)) :
    after rops5 V (main_v133 : DevRef τ sig)
      = GCN.Read.gcTerm scatter_S20000_S1000000x1_S1000000_n_0_0_1 scatter_S10000_S1000000x1_S1000000_n_0_0_1
          gather_S20000x256_S1000000x1_S1000000x256_1_0_n_n_0_1_1256 scatter_S10000x256_S1000000x1_S1000000x256_1_0_0_1
          dot_S10000x256_S256x128_S10000x128_1_0_0_1_n_n
          bcast_S_S20000 bcast_S_S10000 bcast_S_S1000000 bcast_S_S10000x256 bcast_S1000000_S1000000x1_0
          bcast_S20000_S20000x1_0 bcast_S20000x1_S20000x256_0_1 bcast_S10000_S10000x1_0 bcast_S10000x1_S10000x256_0_1
          bcast_S128_S1x128_1 bcast_S1x128_S10000x128_0_1 20000#32
          (V (main_v71 : DevRef τ sig)) (V (main_arg4 : DevRef τ sig)) (V (main_arg5 : DevRef τ sig))
          (V (main_arg16 : DevRef τ sig)) (V (main_arg17 : DevRef τ sig)) := by
  simp only [after_cons, after_nil]
  rfl

theorem rgc5_val (V : Valuation τ sig (Elt Ideal)) (s : Fin 1000000 → Fin 20000) (t : Fin 1000000 → Fin 10000)
    (hs : ∀ e, (V (main_arg4 : DevRef τ sig) (ix1 e)).toInt = (s e : ℤ))
    (ht : ∀ e, (V (main_arg5 : DevRef τ sig) (ix1 e)).toInt = (t e : ℤ)) (d : Fin 10000) (j : Fin 128) :
    StableHlo.after rops5 V (main_v133 : DevRef τ sig) (ix2 d j)
      = GCN.rgcPre s t (fun a c => V (main_v71 : DevRef τ sig) (ix2 a c)) (fun c j => V (main_arg16 : DevRef τ sig) (ix2 c j))
          (fun j => V (main_arg17 : DevRef τ sig) (ix1 j)) d j := by
  rw [rgc5_term V]
  exact GCN.Read.gc_read _ rfl rfl rfl rfl _ rfl rfl rfl rfl _ rfl rfl rfl rfl rfl rfl _ rfl rfl rfl rfl
    _ rfl rfl rfl rfl rfl rfl _ _ _ _ _ _ _ _ _ _ _ _ _ _ _ _ _ s t hs ht d j

end Cert.ReferenceIdeal.Val

end
-- ==== Proof.RGc7.lean ====
import Idealize.ShloMosaic.Lib.ValueIdx
import Idealize.ShloMosaic.Lib.StableHlo.Run
import proofs.«426696_j34600256537155_2_alg».proof.Proof.Spec
import proofs.«426696_j34600256537155_2_alg».proof.Proof.GcRead
import proofs.«426696_j34600256537155_2_alg».proof.Proof.RRunOps

noncomputable section

namespace Cert.ReferenceIdeal.Val

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

attribute [local irreducible] Host.gather Host.scatterAdd Host.rsqrt in
set_option maxRecDepth 8192 in
set_option maxHeartbeats 1000000 in

theorem rgc7_term (V : Valuation τ sig (Elt F)) :
    after rops7 V (main_v166 : DevRef τ sig)
      = GCN.Read.gcTerm scatter_S10000_S1000000x1_S1000000_n_0_0_1 scatter_S20000_S1000000x1_S1000000_n_0_0_1
          gather_S10000x128_S1000000x1_S1000000x128_1_0_n_n_0_1_1128 scatter_S20000x128_S1000000x1_S1000000x128_1_0_0_1
          dot_S20000x128_S128x64_S20000x64_1_0_0_1_n_n
          bcast_S_S10000 bcast_S_S20000 bcast_S_S1000000 bcast_S_S20000x128 bcast_S1000000_S1000000x1_0
          bcast_S10000_S10000x1_0 bcast_S10000x1_S10000x128_0_1 bcast_S20000_S20000x1_0 bcast_S20000x1_S20000x128_0_1
          bcast_S64_S1x64_1 bcast_S1x64_S20000x64_0_1 10000#32
          (V (main_v134 : DevRef τ sig)) (V (main_arg2 : DevRef τ sig)) (V (main_arg3 : DevRef τ sig))
          (V (main_arg18 : DevRef τ sig)) (V (main_arg19 : DevRef τ sig)) := by
  simp only [after_cons, after_nil]
  rfl

theorem rgc7_val (V : Valuation τ sig (Elt Ideal)) (s : Fin 1000000 → Fin 10000) (t : Fin 1000000 → Fin 20000)
    (hs : ∀ e, (V (main_arg2 : DevRef τ sig) (ix1 e)).toInt = (s e : ℤ))
    (ht : ∀ e, (V (main_arg3 : DevRef τ sig) (ix1 e)).toInt = (t e : ℤ)) (d : Fin 20000) (j : Fin 64) :
    StableHlo.after rops7 V (main_v166 : DevRef τ sig) (ix2 d j)
      = GCN.rgcPre s t (fun a c => V (main_v134 : DevRef τ sig) (ix2 a c)) (fun c j => V (main_arg18 : DevRef τ sig) (ix2 c j))
          (fun j => V (main_arg19 : DevRef τ sig) (ix1 j)) d j := by
  rw [rgc7_term V]
  exact GCN.Read.gc_read _ rfl rfl rfl rfl _ rfl rfl rfl rfl _ rfl rfl rfl rfl rfl rfl _ rfl rfl rfl rfl
    _ rfl rfl rfl rfl rfl rfl _ _ _ _ _ _ _ _ _ _ _ _ _ _ _ _ _ s t hs ht d j

end Cert.ReferenceIdeal.Val

end
-- ==== Proof.RGc8.lean ====
import Idealize.ShloMosaic.Lib.ValueIdx
import Idealize.ShloMosaic.Lib.StableHlo.Run
import proofs.«426696_j34600256537155_2_alg».proof.Proof.Spec
import proofs.«426696_j34600256537155_2_alg».proof.Proof.GcRead
import proofs.«426696_j34600256537155_2_alg».proof.Proof.RRunOps

noncomputable section

namespace Cert.ReferenceIdeal.Val

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

attribute [local irreducible] Host.gather Host.scatterAdd Host.rsqrt in
set_option maxRecDepth 8192 in
set_option maxHeartbeats 1000000 in

theorem rgc8_term (V : Valuation τ sig (Elt F)) :
    after rops8 V (main_v197 : DevRef τ sig)
      = GCN.Read.gcTerm scatter_S20000_S1000000x1_S1000000_n_0_0_1 scatter_S10000_S1000000x1_S1000000_n_0_0_1
          gather_S20000x128_S1000000x1_S1000000x128_1_0_n_n_0_1_1128 scatter_S10000x128_S1000000x1_S1000000x128_1_0_0_1
          dot_S10000x128_S128x64_S10000x64_1_0_0_1_n_n
          bcast_S_S20000 bcast_S_S10000 bcast_S_S1000000 bcast_S_S10000x128 bcast_S1000000_S1000000x1_0
          bcast_S20000_S20000x1_0 bcast_S20000x1_S20000x128_0_1 bcast_S10000_S10000x1_0 bcast_S10000x1_S10000x128_0_1
          bcast_S64_S1x64_1 bcast_S1x64_S10000x64_0_1 20000#32
          (V (main_v135 : DevRef τ sig)) (V (main_arg4 : DevRef τ sig)) (V (main_arg5 : DevRef τ sig))
          (V (main_arg20 : DevRef τ sig)) (V (main_arg21 : DevRef τ sig)) := by
  simp only [after_cons, after_nil]
  rfl

theorem rgc8_val (V : Valuation τ sig (Elt Ideal)) (s : Fin 1000000 → Fin 20000) (t : Fin 1000000 → Fin 10000)
    (hs : ∀ e, (V (main_arg4 : DevRef τ sig) (ix1 e)).toInt = (s e : ℤ))
    (ht : ∀ e, (V (main_arg5 : DevRef τ sig) (ix1 e)).toInt = (t e : ℤ)) (d : Fin 10000) (j : Fin 64) :
    StableHlo.after rops8 V (main_v197 : DevRef τ sig) (ix2 d j)
      = GCN.rgcPre s t (fun a c => V (main_v135 : DevRef τ sig) (ix2 a c)) (fun c j => V (main_arg20 : DevRef τ sig) (ix2 c j))
          (fun j => V (main_arg21 : DevRef τ sig) (ix1 j)) d j := by
  rw [rgc8_term V]
  exact GCN.Read.gc_read _ rfl rfl rfl rfl _ rfl rfl rfl rfl _ rfl rfl rfl rfl rfl rfl _ rfl rfl rfl rfl
    _ rfl rfl rfl rfl rfl rfl _ _ _ _ _ _ _ _ _ _ _ _ _ _ _ _ _ s t hs ht d j

end Cert.ReferenceIdeal.Val

end
-- ==== Proof.RChain.lean ====
import proofs.«426696_j34600256537155_2_alg».proof.Proof.RRunOps
import proofs.«426696_j34600256537155_2_alg».proof.Proof.RKeep
import proofs.«426696_j34600256537155_2_alg».proof.Proof.RStages
import proofs.«426696_j34600256537155_2_alg».proof.Proof.RGc1
import proofs.«426696_j34600256537155_2_alg».proof.Proof.RGc2
import proofs.«426696_j34600256537155_2_alg».proof.Proof.RGc4
import proofs.«426696_j34600256537155_2_alg».proof.Proof.RGc5
import proofs.«426696_j34600256537155_2_alg».proof.Proof.RGc7
import proofs.«426696_j34600256537155_2_alg».proof.Proof.RGc8
import proofs.«426696_j34600256537155_2_alg».proof.Proof.Chain
import Idealize.ShloMosaic.Lib.StableHlo
import Idealize.ShloMosaic.Lib.StableHlo.Run
import Idealize.ShloMosaic.Lib.ValueIdx

noncomputable section

namespace Cert.ReferenceIdeal.Val

open Cert.ReferenceIdeal Cert.ReferenceIdeal.Gen Idealize.ShloMosaic Idealize.ShloMosaic.TcCoe Idealize.SL.Sem
  Idealize.ShloMosaic.StableHlo Idealize.ShloMosaic.ValueIdx

def SameArgs (X V : Valuation τ sig (Elt Ideal)) : Prop :=
  ∀ r ∈ (argRefs : List (Ref sig .tc)), X (Proc.devRef .tc r) = V (Proc.devRef .tc r)

theorem SameArgs.refl (V : Valuation τ sig (Elt Ideal)) : SameArgs V V := fun _ _ => rfl

theorem SameArgs.step {X V : Valuation τ sig (Elt Ideal)} (h : SameArgs X V) {l : List (HloOp τ sig (Elt Ideal))}
    (hl : ArgsKept l) : SameArgs (StableHlo.after l X) V :=
  fun r hr => (args_keep_of hl X r hr).trans (h r hr)

theorem gc1_step {X V : Valuation τ sig (Elt Ideal)} (hA : SameArgs X V) (s : Fin 1000000 → Fin 10000) (t : Fin 1000000 → Fin 20000)
    (hs : ∀ e, (V (main_arg2 : DevRef τ sig) (ix1 e)).toInt = (s e : ℤ)) (ht : ∀ e, (V (main_arg3 : DevRef τ sig) (ix1 e)).toInt = (t e : ℤ))
    (H : Fin 10000 → Fin 256 → EReal) (hH : ∀ a c, X (main_v3 : DevRef τ sig) (ix2 a c) = H a c) (d : Fin 20000) (j : Fin 256) :
    StableHlo.after rops1 X (main_v38 : DevRef τ sig) (ix2 d j)
      = GCN.rgcPre s t H (fun c j => V (main_arg10 : DevRef τ sig) (ix2 c j)) (fun j => V (main_arg11 : DevRef τ sig) (ix1 j)) d j := by
  rw [rgc1_val X s t (fun e => by rw [hA main_arg2 (by decide)]; exact hs e) (fun e => by rw [hA main_arg3 (by decide)]; exact ht e) d j,
    show (fun a c => X (main_v3 : DevRef τ sig) (ix2 a c)) = H from funext fun a => funext fun c => hH a c,
    hA main_arg10 (by decide), hA main_arg11 (by decide)]

theorem gc2_step {X V : Valuation τ sig (Elt Ideal)} (hA : SameArgs X V) (s : Fin 1000000 → Fin 20000) (t : Fin 1000000 → Fin 10000)
    (hs : ∀ e, (V (main_arg4 : DevRef τ sig) (ix1 e)).toInt = (s e : ℤ)) (ht : ∀ e, (V (main_arg5 : DevRef τ sig) (ix1 e)).toInt = (t e : ℤ))
    (H : Fin 20000 → Fin 256 → EReal) (hH : ∀ a c, X (main_v7 : DevRef τ sig) (ix2 a c) = H a c) (d : Fin 10000) (j : Fin 256) :
    StableHlo.after rops2 X (main_v69 : DevRef τ sig) (ix2 d j)
      = GCN.rgcPre s t H (fun c j => V (main_arg12 : DevRef τ sig) (ix2 c j)) (fun j => V (main_arg13 : DevRef τ sig) (ix1 j)) d j := by
  rw [rgc2_val X s t (fun e => by rw [hA main_arg4 (by decide)]; exact hs e) (fun e => by rw [hA main_arg5 (by decide)]; exact ht e) d j,
    show (fun a c => X (main_v7 : DevRef τ sig) (ix2 a c)) = H from funext fun a => funext fun c => hH a c,
    hA main_arg12 (by decide), hA main_arg13 (by decide)]

theorem gc4_step {X V : Valuation τ sig (Elt Ideal)} (hA : SameArgs X V) (s : Fin 1000000 → Fin 10000) (t : Fin 1000000 → Fin 20000)
    (hs : ∀ e, (V (main_arg2 : DevRef τ sig) (ix1 e)).toInt = (s e : ℤ)) (ht : ∀ e, (V (main_arg3 : DevRef τ sig) (ix1 e)).toInt = (t e : ℤ))
    (H : Fin 10000 → Fin 256 → EReal) (hH : ∀ a c, X (main_v70 : DevRef τ sig) (ix2 a c) = H a c) (d : Fin 20000) (j : Fin 128) :
    StableHlo.after rops4 X (main_v102 : DevRef τ sig) (ix2 d j)
      = GCN.rgcPre s t H (fun c j => V (main_arg14 : DevRef τ sig) (ix2 c j)) (fun j => V (main_arg15 : DevRef τ sig) (ix1 j)) d j := by
  rw [rgc4_val X s t (fun e => by rw [hA main_arg2 (by decide)]; exact hs e) (fun e => by rw [hA main_arg3 (by decide)]; exact ht e) d j,
    show (fun a c => X (main_v70 : DevRef τ sig) (ix2 a c)) = H from funext fun a => funext fun c => hH a c,
    hA main_arg14 (by decide), hA main_arg15 (by decide)]

theorem gc5_step {X V : Valuation τ sig (Elt Ideal)} (hA : SameArgs X V) (s : Fin 1000000 → Fin 20000) (t : Fin 1000000 → Fin 10000)
    (hs : ∀ e, (V (main_arg4 : DevRef τ sig) (ix1 e)).toInt = (s e : ℤ)) (ht : ∀ e, (V (main_arg5 : DevRef τ sig) (ix1 e)).toInt = (t e : ℤ))
    (H : Fin 20000 → Fin 256 → EReal) (hH : ∀ a c, X (main_v71 : DevRef τ sig) (ix2 a c) = H a c) (d : Fin 10000) (j : Fin 128) :
    StableHlo.after rops5 X (main_v133 : DevRef τ sig) (ix2 d j)
      = GCN.rgcPre s t H (fun c j => V (main_arg16 : DevRef τ sig) (ix2 c j)) (fun j => V (main_arg17 : DevRef τ sig) (ix1 j)) d j := by
  rw [rgc5_val X s t (fun e => by rw [hA main_arg4 (by decide)]; exact hs e) (fun e => by rw [hA main_arg5 (by decide)]; exact ht e) d j,
    show (fun a c => X (main_v71 : DevRef τ sig) (ix2 a c)) = H from funext fun a => funext fun c => hH a c,
    hA main_arg16 (by decide), hA main_arg17 (by decide)]

theorem gc7_step {X V : Valuation τ sig (Elt Ideal)} (hA : SameArgs X V) (s : Fin 1000000 → Fin 10000) (t : Fin 1000000 → Fin 20000)
    (hs : ∀ e, (V (main_arg2 : DevRef τ sig) (ix1 e)).toInt = (s e : ℤ)) (ht : ∀ e, (V (main_arg3 : DevRef τ sig) (ix1 e)).toInt = (t e : ℤ))
    (H : Fin 10000 → Fin 128 → EReal) (hH : ∀ a c, X (main_v134 : DevRef τ sig) (ix2 a c) = H a c) (d : Fin 20000) (j : Fin 64) :
    StableHlo.after rops7 X (main_v166 : DevRef τ sig) (ix2 d j)
      = GCN.rgcPre s t H (fun c j => V (main_arg18 : DevRef τ sig) (ix2 c j)) (fun j => V (main_arg19 : DevRef τ sig) (ix1 j)) d j := by
  rw [rgc7_val X s t (fun e => by rw [hA main_arg2 (by decide)]; exact hs e) (fun e => by rw [hA main_arg3 (by decide)]; exact ht e) d j,
    show (fun a c => X (main_v134 : DevRef τ sig) (ix2 a c)) = H from funext fun a => funext fun c => hH a c,
    hA main_arg18 (by decide), hA main_arg19 (by decide)]

theorem gc8_step {X V : Valuation τ sig (Elt Ideal)} (hA : SameArgs X V) (s : Fin 1000000 → Fin 20000) (t : Fin 1000000 → Fin 10000)
    (hs : ∀ e, (V (main_arg4 : DevRef τ sig) (ix1 e)).toInt = (s e : ℤ)) (ht : ∀ e, (V (main_arg5 : DevRef τ sig) (ix1 e)).toInt = (t e : ℤ))
    (H : Fin 20000 → Fin 128 → EReal) (hH : ∀ a c, X (main_v135 : DevRef τ sig) (ix2 a c) = H a c) (d : Fin 10000) (j : Fin 64) :
    StableHlo.after rops8 X (main_v197 : DevRef τ sig) (ix2 d j)
      = GCN.rgcPre s t H (fun c j => V (main_arg20 : DevRef τ sig) (ix2 c j)) (fun j => V (main_arg21 : DevRef τ sig) (ix1 j)) d j := by
  rw [rgc8_val X s t (fun e => by rw [hA main_arg4 (by decide)]; exact hs e) (fun e => by rw [hA main_arg5 (by decide)]; exact ht e) d j,
    show (fun a c => X (main_v135 : DevRef τ sig) (ix2 a c)) = H from funext fun a => funext fun c => hH a c,
    hA main_arg20 (by decide), hA main_arg21 (by decide)]

abbrev rinp (V : Valuation τ sig (Elt Ideal)) (ssg : Fin 1000000 → Fin 10000) (tsg : Fin 1000000 → Fin 20000)
    (sgs : Fin 1000000 → Fin 20000) (tgs : Fin 1000000 → Fin 10000) : GCN.Inp :=
  GCN.Inp.ofArrays ssg tsg sgs tgs (V (main_arg0 : DevRef τ sig)) (V (main_arg1 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig))

theorem reference_val (V : Valuation τ sig (Elt Ideal)) (ssg : Fin 1000000 → Fin 10000) (tsg : Fin 1000000 → Fin 20000)
    (sgs : Fin 1000000 → Fin 20000) (tgs : Fin 1000000 → Fin 10000)
    (h2 : ∀ e, (V (main_arg2 : DevRef τ sig) (ix1 e)).toInt = (ssg e : ℤ))
    (h3 : ∀ e, (V (main_arg3 : DevRef τ sig) (ix1 e)).toInt = (tsg e : ℤ))
    (h4 : ∀ e, (V (main_arg4 : DevRef τ sig) (ix1 e)).toInt = (sgs e : ℤ))
    (h5 : ∀ e, (V (main_arg5 : DevRef τ sig) (ix1 e)).toInt = (tgs e : ℤ)) :
    (∀ r j, StableHlo.after ops V (main_v198 : DevRef τ sig) (ix2 r j)
        = GCN.rhs3 (GCN.Inp.ofArrays ssg tsg sgs tgs (V (main_arg0 : DevRef τ sig)) (V (main_arg1 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig))) r j)
    ∧ (∀ r j, StableHlo.after ops V (main_v199 : DevRef τ sig) (ix2 r j)
        = GCN.rhg3 (GCN.Inp.ofArrays ssg tsg sgs tgs (V (main_arg0 : DevRef τ sig)) (V (main_arg1 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig))) r j) := by

  obtain ⟨V1, e1⟩ : ∃ X, X = StableHlo.after rops0 V := ⟨_, rfl⟩
  obtain ⟨V2, e2⟩ : ∃ X, X = StableHlo.after rops1 V1 := ⟨_, rfl⟩
  obtain ⟨V3, e3⟩ : ∃ X, X = StableHlo.after rops2 V2 := ⟨_, rfl⟩
  obtain ⟨V4, e4⟩ : ∃ X, X = StableHlo.after rops3 V3 := ⟨_, rfl⟩
  obtain ⟨V5, e5⟩ : ∃ X, X = StableHlo.after rops4 V4 := ⟨_, rfl⟩
  obtain ⟨V6, e6⟩ : ∃ X, X = StableHlo.after rops5 V5 := ⟨_, rfl⟩
  obtain ⟨V7, e7⟩ : ∃ X, X = StableHlo.after rops6 V6 := ⟨_, rfl⟩
  obtain ⟨V8, e8⟩ : ∃ X, X = StableHlo.after rops7 V7 := ⟨_, rfl⟩
  obtain ⟨V9, e9⟩ : ∃ X, X = StableHlo.after rops8 V8 := ⟨_, rfl⟩
  obtain ⟨V10, e10⟩ : ∃ X, X = StableHlo.after rops9 V9 := ⟨_, rfl⟩
  have hend : StableHlo.after ops V = V10 := by
    rw [e10, e9, e8, e7, e6, e5, e4, e3, e2, e1, after_ops]

  have A1 : SameArgs V1 V := by rw [e1]; exact (SameArgs.refl V).step args_unwritten0
  have A2 : SameArgs V2 V := by rw [e2]; exact A1.step args_unwritten1
  have A3 : SameArgs V3 V := by rw [e3]; exact A2.step args_unwritten2
  have A4 : SameArgs V4 V := by rw [e4]; exact A3.step args_unwritten3
  have A5 : SameArgs V5 V := by rw [e5]; exact A4.step args_unwritten4
  have A6 : SameArgs V6 V := by rw [e6]; exact A5.step args_unwritten5
  have A7 : SameArgs V7 V := by rw [e7]; exact A6.step args_unwritten6
  have A8 : SameArgs V8 V := by rw [e8]; exact A7.step args_unwritten7

  have s1 : ∀ r j, V1 (main_v3 : DevRef τ sig) (ix2 r j) = GCN.hs0 (rinp V ssg tsg sgs tgs) r j := fun r j => by
    rw [e1]; exact rlin_s V r j
  have g1 : ∀ r j, V1 (main_v7 : DevRef τ sig) (ix2 r j) = GCN.hg0 (rinp V ssg tsg sgs tgs) r j := fun r j => by
    rw [e1]; exact rlin_g V r j

  have p2 : ∀ d j, V2 (main_v38 : DevRef τ sig) (ix2 d j) = GCN.rgcPre ssg tsg (GCN.hs0 (rinp V ssg tsg sgs tgs)) (rinp V ssg tsg sgs tgs).W1sg (rinp V ssg tsg sgs tgs).b1sg d j := fun d j => by
    rw [e2]; exact gc1_step A1 ssg tsg h2 h3 (GCN.hs0 (rinp V ssg tsg sgs tgs)) s1 d j
  have k2 : ∀ r j, V2 (main_v7 : DevRef τ sig) (ix2 r j) = GCN.hg0 (rinp V ssg tsg sgs tgs) r j := fun r j => by
    rw [e2, keep rops1 V1 main_v7 (by keep_tac)]; exact g1 r j
  have p3 : ∀ d j, V3 (main_v69 : DevRef τ sig) (ix2 d j) = GCN.rgcPre sgs tgs (GCN.hg0 (rinp V ssg tsg sgs tgs)) (rinp V ssg tsg sgs tgs).W1gs (rinp V ssg tsg sgs tgs).b1gs d j := fun d j => by
    rw [e3]; exact gc2_step A2 sgs tgs h4 h5 (GCN.hg0 (rinp V ssg tsg sgs tgs)) k2 d j
  have k3 : ∀ d j, V3 (main_v38 : DevRef τ sig) (ix2 d j) = GCN.rgcPre ssg tsg (GCN.hs0 (rinp V ssg tsg sgs tgs)) (rinp V ssg tsg sgs tgs).W1sg (rinp V ssg tsg sgs tgs).b1sg d j := fun d j => by
    rw [e3, keep rops2 V2 main_v38 (by keep_tac)]; exact p2 d j

  have s4 : ∀ r j, V4 (main_v70 : DevRef τ sig) (ix2 r j) = GCN.rhs1 (rinp V ssg tsg sgs tgs) r j := fun r j => by
    rw [e4, rlr3_s V3 r j, p3 r j]; exact (GCN.rgc_eq_lrelu sgs tgs (GCN.hg0 (rinp V ssg tsg sgs tgs)) (rinp V ssg tsg sgs tgs).W1gs (rinp V ssg tsg sgs tgs).b1gs r j).symm
  have g4 : ∀ r j, V4 (main_v71 : DevRef τ sig) (ix2 r j) = GCN.rhg1 (rinp V ssg tsg sgs tgs) r j := fun r j => by
    rw [e4, rlr3_g V3 r j, k3 r j]; exact (GCN.rgc_eq_lrelu ssg tsg (GCN.hs0 (rinp V ssg tsg sgs tgs)) (rinp V ssg tsg sgs tgs).W1sg (rinp V ssg tsg sgs tgs).b1sg r j).symm

  have p5 : ∀ d j, V5 (main_v102 : DevRef τ sig) (ix2 d j) = GCN.rgcPre ssg tsg (GCN.rhs1 (rinp V ssg tsg sgs tgs)) (rinp V ssg tsg sgs tgs).W2sg (rinp V ssg tsg sgs tgs).b2sg d j := fun d j => by
    rw [e5]; exact gc4_step A4 ssg tsg h2 h3 (GCN.rhs1 (rinp V ssg tsg sgs tgs)) s4 d j
  have k5 : ∀ r j, V5 (main_v71 : DevRef τ sig) (ix2 r j) = GCN.rhg1 (rinp V ssg tsg sgs tgs) r j := fun r j => by
    rw [e5, keep rops4 V4 main_v71 (by keep_tac)]; exact g4 r j
  have p6 : ∀ d j, V6 (main_v133 : DevRef τ sig) (ix2 d j) = GCN.rgcPre sgs tgs (GCN.rhg1 (rinp V ssg tsg sgs tgs)) (rinp V ssg tsg sgs tgs).W2gs (rinp V ssg tsg sgs tgs).b2gs d j := fun d j => by
    rw [e6]; exact gc5_step A5 sgs tgs h4 h5 (GCN.rhg1 (rinp V ssg tsg sgs tgs)) k5 d j
  have k6 : ∀ d j, V6 (main_v102 : DevRef τ sig) (ix2 d j) = GCN.rgcPre ssg tsg (GCN.rhs1 (rinp V ssg tsg sgs tgs)) (rinp V ssg tsg sgs tgs).W2sg (rinp V ssg tsg sgs tgs).b2sg d j := fun d j => by
    rw [e6, keep rops5 V5 main_v102 (by keep_tac)]; exact p5 d j

  have s7 : ∀ r j, V7 (main_v134 : DevRef τ sig) (ix2 r j) = GCN.rhs2 (rinp V ssg tsg sgs tgs) r j := fun r j => by
    rw [e7, rlr6_s V6 r j, p6 r j]; exact (GCN.rgc_eq_lrelu sgs tgs (GCN.rhg1 (rinp V ssg tsg sgs tgs)) (rinp V ssg tsg sgs tgs).W2gs (rinp V ssg tsg sgs tgs).b2gs r j).symm
  have g7 : ∀ r j, V7 (main_v135 : DevRef τ sig) (ix2 r j) = GCN.rhg2 (rinp V ssg tsg sgs tgs) r j := fun r j => by
    rw [e7, rlr6_g V6 r j, k6 r j]; exact (GCN.rgc_eq_lrelu ssg tsg (GCN.rhs1 (rinp V ssg tsg sgs tgs)) (rinp V ssg tsg sgs tgs).W2sg (rinp V ssg tsg sgs tgs).b2sg r j).symm

  have p8 : ∀ d j, V8 (main_v166 : DevRef τ sig) (ix2 d j) = GCN.rgcPre ssg tsg (GCN.rhs2 (rinp V ssg tsg sgs tgs)) (rinp V ssg tsg sgs tgs).W3sg (rinp V ssg tsg sgs tgs).b3sg d j := fun d j => by
    rw [e8]; exact gc7_step A7 ssg tsg h2 h3 (GCN.rhs2 (rinp V ssg tsg sgs tgs)) s7 d j
  have k8 : ∀ r j, V8 (main_v135 : DevRef τ sig) (ix2 r j) = GCN.rhg2 (rinp V ssg tsg sgs tgs) r j := fun r j => by
    rw [e8, keep rops7 V7 main_v135 (by keep_tac)]; exact g7 r j
  have p9 : ∀ d j, V9 (main_v197 : DevRef τ sig) (ix2 d j) = GCN.rgcPre sgs tgs (GCN.rhg2 (rinp V ssg tsg sgs tgs)) (rinp V ssg tsg sgs tgs).W3gs (rinp V ssg tsg sgs tgs).b3gs d j := fun d j => by
    rw [e9]; exact gc8_step A8 sgs tgs h4 h5 (GCN.rhg2 (rinp V ssg tsg sgs tgs)) k8 d j
  have k9 : ∀ d j, V9 (main_v166 : DevRef τ sig) (ix2 d j) = GCN.rgcPre ssg tsg (GCN.rhs2 (rinp V ssg tsg sgs tgs)) (rinp V ssg tsg sgs tgs).W3sg (rinp V ssg tsg sgs tgs).b3sg d j := fun d j => by
    rw [e9, keep rops8 V8 main_v166 (by keep_tac)]; exact p8 d j

  have s10 : ∀ r j, V10 (main_v198 : DevRef τ sig) (ix2 r j) = GCN.rhs3 (rinp V ssg tsg sgs tgs) r j := fun r j => by
    rw [e10, rlr9_s V9 r j, p9 r j]; exact (GCN.rgc_eq_lrelu sgs tgs (GCN.rhg2 (rinp V ssg tsg sgs tgs)) (rinp V ssg tsg sgs tgs).W3gs (rinp V ssg tsg sgs tgs).b3gs r j).symm
  have g10 : ∀ r j, V10 (main_v199 : DevRef τ sig) (ix2 r j) = GCN.rhg3 (rinp V ssg tsg sgs tgs) r j := fun r j => by
    rw [e10, rlr9_g V9 r j, k9 r j]; exact (GCN.rgc_eq_lrelu ssg tsg (GCN.rhs2 (rinp V ssg tsg sgs tgs)) (rinp V ssg tsg sgs tgs).W3sg (rinp V ssg tsg sgs tgs).b3sg r j).symm
  rw [hend]
  exact ⟨s10, g10⟩

end Cert.ReferenceIdeal.Val

end
-- ==== Proof.PreFacts.lean ====
import proofs.«426696_j34600256537155_2_alg».proof.Pre_finite_inputs
import proofs.«426696_j34600256537155_2_alg».proof.Defs
import Idealize.ShloMosaic.Lib.ReduceAll
import Idealize.ShloMosaic.Lib.ValueIdx
import Idealize.ShloMosaic.PureOps.Ideal.Laws

noncomputable section

namespace Cert.PreFacts

open Idealize.ShloMosaic Idealize.SL.Sem Idealize.ShloMosaic.ValueIdx Cert.Pre_finite_inputs

structure InputFacts (a0 : FVec Ideal S10000x2000 .f32) (a1 : FVec Ideal S20000x500 .f32) (a2 : IVec S1000000 32) (a3 : IVec S1000000 32) (a4 : IVec S1000000 32) (a5 : IVec S1000000 32) (a6 : FVec Ideal S2000x256 .f32) (a7 : FVec Ideal S256 .f32) (a8 : FVec Ideal S500x256 .f32) (a9 : FVec Ideal S256 .f32) (a10 : FVec Ideal S256x256 .f32) (a11 : FVec Ideal S256 .f32) (a12 : FVec Ideal S256x256 .f32) (a13 : FVec Ideal S256 .f32) (a14 : FVec Ideal S256x128 .f32) (a15 : FVec Ideal S128 .f32) (a16 : FVec Ideal S256x128 .f32) (a17 : FVec Ideal S128 .f32) (a18 : FVec Ideal S128x64 .f32) (a19 : FVec Ideal S64 .f32) (a20 : FVec Ideal S128x64 .f32) (a21 : FVec Ideal S64 .f32) : Prop where

  real0 : ∀ i : S10000x2000.Idx, ∃ x : ℝ, a0 i = (x : EReal)

  real1 : ∀ i : S20000x500.Idx, ∃ x : ℝ, a1 i = (x : EReal)

  real6 : ∀ i : S2000x256.Idx, ∃ x : ℝ, a6 i = (x : EReal)

  real7 : ∀ i : S256.Idx, ∃ x : ℝ, a7 i = (x : EReal)

  real8 : ∀ i : S500x256.Idx, ∃ x : ℝ, a8 i = (x : EReal)

  real9 : ∀ i : S256.Idx, ∃ x : ℝ, a9 i = (x : EReal)

  real10 : ∀ i : S256x256.Idx, ∃ x : ℝ, a10 i = (x : EReal)

  real11 : ∀ i : S256.Idx, ∃ x : ℝ, a11 i = (x : EReal)

  real12 : ∀ i : S256x256.Idx, ∃ x : ℝ, a12 i = (x : EReal)

  real13 : ∀ i : S256.Idx, ∃ x : ℝ, a13 i = (x : EReal)

  real14 : ∀ i : S256x128.Idx, ∃ x : ℝ, a14 i = (x : EReal)

  real15 : ∀ i : S128.Idx, ∃ x : ℝ, a15 i = (x : EReal)

  real16 : ∀ i : S256x128.Idx, ∃ x : ℝ, a16 i = (x : EReal)

  real17 : ∀ i : S128.Idx, ∃ x : ℝ, a17 i = (x : EReal)

  real18 : ∀ i : S128x64.Idx, ∃ x : ℝ, a18 i = (x : EReal)

  real19 : ∀ i : S64.Idx, ∃ x : ℝ, a19 i = (x : EReal)

  real20 : ∀ i : S128x64.Idx, ∃ x : ℝ, a20 i = (x : EReal)

  real21 : ∀ i : S64.Idx, ∃ x : ℝ, a21 i = (x : EReal)

  rng2 : ∀ i : S1000000.Idx, 0 ≤ (a2 i).toInt ∧ (a2 i).toInt < 10000

  rng3 : ∀ i : S1000000.Idx, 0 ≤ (a3 i).toInt ∧ (a3 i).toInt < 20000

  rng4 : ∀ i : S1000000.Idx, 0 ≤ (a4 i).toInt ∧ (a4 i).toInt < 20000

  rng5 : ∀ i : S1000000.Idx, 0 ≤ (a5 i).toInt ∧ (a5 i).toInt < 10000

instance subsingleton_scalar_idx : Subsingleton S_.Idx := ⟨fun a b => funext fun d => d.elim0⟩

theorem inf_word : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ix0 = 1#1)
    (i : s.Idx) : ∃ r : ℝ, x i = (r : EReal) :=
  real_of_abs_lt_inf (x i) (Host.reduce_andi_all _ _ hr hu ix0 h i)

theorem all_in_range {s : Shape} {axes : List (Fin s.rank)} (a : IVec s 32) (lo hi : BitVec 32)
    (hb : S_.BroadcastsInDim s (![] : Fin 0 → Fin s.rank)) (hr : s.ReducesTo axes S_) (hu : 0 < S_.numel)
    (h : Host.reduce IntOp.andi
          (andi (cmpi .sge a (broadcastInDim s ![] hb (constantI S_ 32 lo)))
                (cmpi .slt a (broadcastInDim s ![] hb (constantI S_ 32 hi))))
          (constantI S_ 1 1#1) hr hu ix0 = 1#1)
    (i : s.Idx) : lo.toInt ≤ (a i).toInt ∧ (a i).toInt < hi.toInt := by
  have e := Host.reduce_andi_all _ _ hr hu ix0 h i
  obtain ⟨e1, e2⟩ := IntOp.andi_eq_one.1 e
  exact ⟨IntOp.cmpi_sge.1 e1, IntOp.cmpi_slt.1 e2⟩

theorem andi_at {s : Shape} (x y : IVec s 1) (i : s.Idx) : andi x y i = IntOp.andi (x i) (y i) := rfl

theorem toNat_of_toInt_range (a : BitVec 32) (N : Nat) (h0 : 0 ≤ a.toInt) (h1 : a.toInt < N) :
    a.toInt = (a.toNat : Int) ∧ a.toNat < N ∧ a.toInt.toNat = a.toNat := by
  have hc := BitVec.toInt_eq_toNat_cond a
  have hlt := a.isLt
  split at hc <;> omega

variable [Facts]

theorem facts_of_pre (a0 : FVec Ideal S10000x2000 .f32) (a1 : FVec Ideal S20000x500 .f32) (a2 : IVec S1000000 32) (a3 : IVec S1000000 32) (a4 : IVec S1000000 32) (a5 : IVec S1000000 32) (a6 : FVec Ideal S2000x256 .f32) (a7 : FVec Ideal S256 .f32) (a8 : FVec Ideal S500x256 .f32) (a9 : FVec Ideal S256 .f32) (a10 : FVec Ideal S256x256 .f32) (a11 : FVec Ideal S256 .f32) (a12 : FVec Ideal S256x256 .f32) (a13 : FVec Ideal S256 .f32) (a14 : FVec Ideal S256x128 .f32) (a15 : FVec Ideal S128 .f32) (a16 : FVec Ideal S256x128 .f32) (a17 : FVec Ideal S128 .f32) (a18 : FVec Ideal S128x64 .f32) (a19 : FVec Ideal S64 .f32) (a20 : FVec Ideal S128x64 .f32) (a21 : FVec Ideal S64 .f32)
    (h : Cert.Pre_finite_inputs.fn (F := Ideal) a0 a1 a2 a3 a4 a5 a6 a7 a8 a9 a10 a11 a12 a13 a14 a15 a16 a17 a18 a19 a20 a21 = (fun _ => 1#1)) :
    InputFacts a0 a1 a2 a3 a4 a5 a6 a7 a8 a9 a10 a11 a12 a13 a14 a15 a16 a17 a18 a19 a20 a21 := by
  have h0 := congrFun h ix0
  simp only [fn, fn_part1, fn_part2, fn_part3, fn_part4, fn_part5, fn_part6, andi_at, IntOp.andi_eq_one] at h0
  obtain ⟨⟨⟨⟨⟨⟨⟨⟨⟨⟨⟨⟨⟨⟨⟨⟨⟨⟨⟨⟨⟨f0, f1⟩, f6⟩, f7⟩, f8⟩, f9⟩, f10⟩, f11⟩, f12⟩, f13⟩, f14⟩, f15⟩, f16⟩, f17⟩, f18⟩, f19⟩, f20⟩, f21⟩, g2⟩, g3⟩, g4⟩, g5⟩ := h0
  exact {
    real0 := all_real a0 _ _ _ f0
    real1 := all_real a1 _ _ _ f1
    real6 := all_real a6 _ _ _ f6
    real7 := all_real a7 _ _ _ f7
    real8 := all_real a8 _ _ _ f8
    real9 := all_real a9 _ _ _ f9
    real10 := all_real a10 _ _ _ f10
    real11 := all_real a11 _ _ _ f11
    real12 := all_real a12 _ _ _ f12
    real13 := all_real a13 _ _ _ f13
    real14 := all_real a14 _ _ _ f14
    real15 := all_real a15 _ _ _ f15
    real16 := all_real a16 _ _ _ f16
    real17 := all_real a17 _ _ _ f17
    real18 := all_real a18 _ _ _ f18
    real19 := all_real a19 _ _ _ f19
    real20 := all_real a20 _ _ _ f20
    real21 := all_real a21 _ _ _ f21
    rng2 := fun i => by
      have e := all_in_range a2 _ _ _ _ _ g2 i
      rwa [show (0#32 : BitVec 32).toInt = 0 from by decide, show (10000#32 : BitVec 32).toInt = 10000 from by decide] at e
    rng3 := fun i => by
      have e := all_in_range a3 _ _ _ _ _ g3 i
      rwa [show (0#32 : BitVec 32).toInt = 0 from by decide, show (20000#32 : BitVec 32).toInt = 20000 from by decide] at e
    rng4 := fun i => by
      have e := all_in_range a4 _ _ _ _ _ g4 i
      rwa [show (0#32 : BitVec 32).toInt = 0 from by decide, show (20000#32 : BitVec 32).toInt = 20000 from by decide] at e
    rng5 := fun i => by
      have e := all_in_range a5 _ _ _ _ _ g5 i
      rwa [show (0#32 : BitVec 32).toInt = 0 from by decide, show (10000#32 : BitVec 32).toInt = 10000 from by decide] at e }

theorem facts_kernel (m : (ℓ : Loc Cert.KernelIdeal.nD Cert.KernelIdeal.τ Cert.KernelIdeal.sig) → Buf (Elt Ideal) ℓ)
    (hpre : Cert.Pre_KernelIdeal m) (c : Dev Cert.KernelIdeal.nD) :
    InputFacts
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21)) :=
  facts_of_pre _ _ _ _ _ _ _ _ _ _ _ _ _ _ _ _ _ _ _ _ _ _ (hpre c)

theorem facts_reference (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) :
    InputFacts
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
      (m ((c.tc : Thread Cert.ReferenceIdeal.nD Cert.ReferenceIdeal.τ).loc Cert.ReferenceIdeal.main_arg13))
      (m ((c.tc : Thread Cert.ReferenceIdeal.nD Cert.ReferenceIdeal.τ).loc Cert.ReferenceIdeal.main_arg14))
      (m ((c.tc : Thread Cert.ReferenceIdeal.nD Cert.ReferenceIdeal.τ).loc Cert.ReferenceIdeal.main_arg15))
      (m ((c.tc : Thread Cert.ReferenceIdeal.nD Cert.ReferenceIdeal.τ).loc Cert.ReferenceIdeal.main_arg16))
      (m ((c.tc : Thread Cert.ReferenceIdeal.nD Cert.ReferenceIdeal.τ).loc Cert.ReferenceIdeal.main_arg17))
      (m ((c.tc : Thread Cert.ReferenceIdeal.nD Cert.ReferenceIdeal.τ).loc Cert.ReferenceIdeal.main_arg18))
      (m ((c.tc : Thread Cert.ReferenceIdeal.nD Cert.ReferenceIdeal.τ).loc Cert.ReferenceIdeal.main_arg19))
      (m ((c.tc : Thread Cert.ReferenceIdeal.nD Cert.ReferenceIdeal.τ).loc Cert.ReferenceIdeal.main_arg20))
      (m ((c.tc : Thread Cert.ReferenceIdeal.nD Cert.ReferenceIdeal.τ).loc Cert.ReferenceIdeal.main_arg21)) :=
  facts_of_pre _ _ _ _ _ _ _ _ _ _ _ _ _ _ _ _ _ _ _ _ _ _ (hpre c)

end Cert.PreFacts

end
-- ==== Proof.Assemble.lean ====
import proofs.«426696_j34600256537155_2_alg».proof.Defs
import proofs.«426696_j34600256537155_2_alg».proof.Proof.Gen.Kernel.Frame
import proofs.«426696_j34600256537155_2_alg».proof.Proof.Gen.KernelIdeal.Frame
import proofs.«426696_j34600256537155_2_alg».proof.Proof.Gen.ReferenceIdeal
import proofs.«426696_j34600256537155_2_alg».proof.Proof.Gen.Pre_finite_inputs
import proofs.«426696_j34600256537155_2_alg».proof.Proof.KRun
import proofs.«426696_j34600256537155_2_alg».proof.Proof.KChain
import proofs.«426696_j34600256537155_2_alg».proof.Proof.RRun
import proofs.«426696_j34600256537155_2_alg».proof.Proof.RKeep
import proofs.«426696_j34600256537155_2_alg».proof.Proof.RChain
import proofs.«426696_j34600256537155_2_alg».proof.Proof.PreFacts
import proofs.«426696_j34600256537155_2_alg».proof.Proof.Chain

noncomputable section

namespace Cert.Proof.Val

open Idealize.ShloMosaic Idealize.ShloMosaic.TcCoe Idealize.SL.Sem Idealize.ShloMosaic.ValueIdx

def edgeMap (N : ℕ) (a : IVec (⟨1, ![1000000]⟩ : Shape) 32) (h : ∀ i, 0 ≤ (a i).toInt ∧ (a i).toInt < N) :
    Fin 1000000 → Fin N :=
  fun e => ⟨(a (ix1 e)).toInt.toNat, by have := h (ix1 e); omega⟩

theorem edgeMap_spec (N : ℕ) (a : IVec (⟨1, ![1000000]⟩ : Shape) 32) (h : ∀ i, 0 ≤ (a i).toInt ∧ (a i).toInt < N)
    (e : Fin 1000000) : (a (ix1 e)).toInt = ((edgeMap N a h e : Fin N) : ℤ) :=
  (Int.toNat_of_nonneg (h (ix1 e)).1).symm

theorem inp_real {a0 a1 a2 a3 a4 a5 a6 a7 a8 a9 a10 a11 a12 a13 a14 a15 a16 a17 a18 a19 a20 a21}
    (hF : Cert.PreFacts.InputFacts a0 a1 a2 a3 a4 a5 a6 a7 a8 a9 a10 a11 a12 a13 a14 a15 a16 a17 a18 a19 a20 a21)
    (ssg : Fin 1000000 → Fin 10000) (tsg : Fin 1000000 → Fin 20000) (sgs : Fin 1000000 → Fin 20000)
    (tgs : Fin 1000000 → Fin 10000) :
    (GCN.Inp.ofArrays ssg tsg sgs tgs a0 a1 a6 a7 a8 a9 a10 a11 a12 a13 a14 a15 a16 a17 a18 a19 a20 a21).Real where
  xs := fun r c => hF.real0 (ix2 r c)
  xg := fun r c => hF.real1 (ix2 r c)
  l1W := fun r c => hF.real6 (ix2 r c)
  l1b := fun j => hF.real7 (ix1 j)
  l2W := fun r c => hF.real8 (ix2 r c)
  l2b := fun j => hF.real9 (ix1 j)
  W1sg := fun r c => hF.real10 (ix2 r c)
  b1sg := fun j => hF.real11 (ix1 j)
  W1gs := fun r c => hF.real12 (ix2 r c)
  b1gs := fun j => hF.real13 (ix1 j)
  W2sg := fun r c => hF.real14 (ix2 r c)
  b2sg := fun j => hF.real15 (ix1 j)
  W2gs := fun r c => hF.real16 (ix2 r c)
  b2gs := fun j => hF.real17 (ix1 j)
  W3sg := fun r c => hF.real18 (ix2 r c)
  b3sg := fun j => hF.real19 (ix1 j)
  W3gs := fun r c => hF.real20 (ix2 r c)
  b3gs := fun j => hF.real21 (ix1 j)

theorem inp_congr (ssg : Fin 1000000 → Fin 10000) (tsg : Fin 1000000 → Fin 20000) (sgs : Fin 1000000 → Fin 20000)
    (tgs : Fin 1000000 → Fin 10000)
    {a0 b0 : (⟨2, ![10000, 2000]⟩ : Shape).Idx → EReal} (h0 : a0 = b0)
    {a1 b1 : (⟨2, ![20000, 500]⟩ : Shape).Idx → EReal} (h1 : a1 = b1)
    {a6 b6 : (⟨2, ![2000, 256]⟩ : Shape).Idx → EReal} (h6 : a6 = b6)
    {a7 b7 : (⟨1, ![256]⟩ : Shape).Idx → EReal} (h7 : a7 = b7)
    {a8 b8 : (⟨2, ![500, 256]⟩ : Shape).Idx → EReal} (h8 : a8 = b8)
    {a9 b9 : (⟨1, ![256]⟩ : Shape).Idx → EReal} (h9 : a9 = b9)
    {a10 b10 : (⟨2, ![256, 256]⟩ : Shape).Idx → EReal} (h10 : a10 = b10)
    {a11 b11 : (⟨1, ![256]⟩ : Shape).Idx → EReal} (h11 : a11 = b11)
    {a12 b12 : (⟨2, ![256, 256]⟩ : Shape).Idx → EReal} (h12 : a12 = b12)
    {a13 b13 : (⟨1, ![256]⟩ : Shape).Idx → EReal} (h13 : a13 = b13)
    {a14 b14 : (⟨2, ![256, 128]⟩ : Shape).Idx → EReal} (h14 : a14 = b14)
    {a15 b15 : (⟨1, ![128]⟩ : Shape).Idx → EReal} (h15 : a15 = b15)
    {a16 b16 : (⟨2, ![256, 128]⟩ : Shape).Idx → EReal} (h16 : a16 = b16)
    {a17 b17 : (⟨1, ![128]⟩ : Shape).Idx → EReal} (h17 : a17 = b17)
    {a18 b18 : (⟨2, ![128, 64]⟩ : Shape).Idx → EReal} (h18 : a18 = b18)
    {a19 b19 : (⟨1, ![64]⟩ : Shape).Idx → EReal} (h19 : a19 = b19)
    {a20 b20 : (⟨2, ![128, 64]⟩ : Shape).Idx → EReal} (h20 : a20 = b20)
    {a21 b21 : (⟨1, ![64]⟩ : Shape).Idx → EReal} (h21 : a21 = b21) :
    GCN.Inp.ofArrays ssg tsg sgs tgs a0 a1 a6 a7 a8 a9 a10 a11 a12 a13 a14 a15 a16 a17 a18 a19 a20 a21
      = GCN.Inp.ofArrays ssg tsg sgs tgs b0 b1 b6 b7 b8 b9 b10 b11 b12 b13 b14 b15 b16 b17 b18 b19 b20 b21 := by
  subst h0 h1 h6 h7 h8 h9 h10 h11 h12 h13 h14 h15 h16 h17 h18 h19 h20 h21
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun r h c => by
    have hA := Cert.ReferenceIdeal.Val.reference_args (F := Ideal) (StableHlo.launchContents m c)
    exact ⟨(h c Cert.ReferenceIdeal.main_arg0).trans hA.1,
      (h c Cert.ReferenceIdeal.main_arg1).trans hA.2.1,
      (h c Cert.ReferenceIdeal.main_arg2).trans hA.2.2.1,
      (h c Cert.ReferenceIdeal.main_arg3).trans hA.2.2.2.1,
      (h c Cert.ReferenceIdeal.main_arg4).trans hA.2.2.2.2.1,
      (h c Cert.ReferenceIdeal.main_arg5).trans hA.2.2.2.2.2.1,
      (h c Cert.ReferenceIdeal.main_arg6).trans hA.2.2.2.2.2.2.1,
      (h c Cert.ReferenceIdeal.main_arg7).trans hA.2.2.2.2.2.2.2.1,
      (h c Cert.ReferenceIdeal.main_arg8).trans hA.2.2.2.2.2.2.2.2.1,
      (h c Cert.ReferenceIdeal.main_arg9).trans hA.2.2.2.2.2.2.2.2.2.1,
      (h c Cert.ReferenceIdeal.main_arg10).trans hA.2.2.2.2.2.2.2.2.2.2.1,
      (h c Cert.ReferenceIdeal.main_arg11).trans hA.2.2.2.2.2.2.2.2.2.2.2.1,
      (h c Cert.ReferenceIdeal.main_arg12).trans hA.2.2.2.2.2.2.2.2.2.2.2.2.1,
      (h c Cert.ReferenceIdeal.main_arg13).trans hA.2.2.2.2.2.2.2.2.2.2.2.2.2.1,
      (h c Cert.ReferenceIdeal.main_arg14).trans hA.2.2.2.2.2.2.2.2.2.2.2.2.2.2.1,
      (h c Cert.ReferenceIdeal.main_arg15).trans hA.2.2.2.2.2.2.2.2.2.2.2.2.2.2.2.1,
      (h c Cert.ReferenceIdeal.main_arg16).trans hA.2.2.2.2.2.2.2.2.2.2.2.2.2.2.2.2.1,
      (h c Cert.ReferenceIdeal.main_arg17).trans hA.2.2.2.2.2.2.2.2.2.2.2.2.2.2.2.2.2.1,
      (h c Cert.ReferenceIdeal.main_arg18).trans hA.2.2.2.2.2.2.2.2.2.2.2.2.2.2.2.2.2.2.1,
      (h c Cert.ReferenceIdeal.main_arg19).trans hA.2.2.2.2.2.2.2.2.2.2.2.2.2.2.2.2.2.2.2.1,
      (h c Cert.ReferenceIdeal.main_arg20).trans hA.2.2.2.2.2.2.2.2.2.2.2.2.2.2.2.2.2.2.2.2.1,
      (h c Cert.ReferenceIdeal.main_arg21).trans hA.2.2.2.2.2.2.2.2.2.2.2.2.2.2.2.2.2.2.2.2.2⟩)
    (Cert.ReferenceIdeal.Val.run_main (F := Ideal) m ρ)

theorem algebraic : Cert.algebraic_KernelIdeal_ReferenceIdeal := by
  intro m g m' g' hpre hagree
  refine ⟨fun c => Cert.KernelIdeal.Gen.W36 m g c (Proc.devRef .tc Cert.KernelIdeal.main_v115),
    fun c => Cert.KernelIdeal.Gen.W36 m g c (Proc.devRef .tc Cert.KernelIdeal.main_v113),
    Cert.KernelIdeal.Val.run_main (F := Ideal) m g, ?_⟩
  refine (θ_run Cert.ReferenceIdeal.defs _ _).mono (fun r h c => ?_) (Cert.ReferenceIdeal.Val.run_main (F := Ideal) m' g')
  have hF := Cert.PreFacts.facts_kernel m hpre c
  have hA := Cert.ReferenceIdeal.Val.reference_args (F := Ideal) (StableHlo.launchContents m' c)
  have hag := hagree c

  have e0 : StableHlo.launchContents m' c (Cert.ReferenceIdeal.main_arg0 : DevRef Cert.ReferenceIdeal.τ Cert.ReferenceIdeal.sig) = (m ((c.tc : Thread Cert.KernelIdeal.nD Cert.KernelIdeal.τ).loc Cert.KernelIdeal.main_arg0)) := hag.1
  have e1 : StableHlo.launchContents m' c (Cert.ReferenceIdeal.main_arg1 : DevRef Cert.ReferenceIdeal.τ Cert.ReferenceIdeal.sig) = (m ((c.tc : Thread Cert.KernelIdeal.nD Cert.KernelIdeal.τ).loc Cert.KernelIdeal.main_arg1)) := hag.2.1
  have e2 : StableHlo.launchContents m' c (Cert.ReferenceIdeal.main_arg2 : DevRef Cert.ReferenceIdeal.τ Cert.ReferenceIdeal.sig) = (m ((c.tc : Thread Cert.KernelIdeal.nD Cert.KernelIdeal.τ).loc Cert.KernelIdeal.main_arg2)) := hag.2.2.1
  have e3 : StableHlo.launchContents m' c (Cert.ReferenceIdeal.main_arg3 : DevRef Cert.ReferenceIdeal.τ Cert.ReferenceIdeal.sig) = (m ((c.tc : Thread Cert.KernelIdeal.nD Cert.KernelIdeal.τ).loc Cert.KernelIdeal.main_arg3)) := hag.2.2.2.1
  have e4 : StableHlo.launchContents m' c (Cert.ReferenceIdeal.main_arg4 : DevRef Cert.ReferenceIdeal.τ Cert.ReferenceIdeal.sig) = (m ((c.tc : Thread Cert.KernelIdeal.nD Cert.KernelIdeal.τ).loc Cert.KernelIdeal.main_arg4)) := hag.2.2.2.2.1
  have e5 : StableHlo.launchContents m' c (Cert.ReferenceIdeal.main_arg5 : DevRef Cert.ReferenceIdeal.τ Cert.ReferenceIdeal.sig) = (m ((c.tc : Thread Cert.KernelIdeal.nD Cert.KernelIdeal.τ).loc Cert.KernelIdeal.main_arg5)) := hag.2.2.2.2.2.1
  have e6 : StableHlo.launchContents m' c (Cert.ReferenceIdeal.main_arg6 : DevRef Cert.ReferenceIdeal.τ Cert.ReferenceIdeal.sig) = (m ((c.tc : Thread Cert.KernelIdeal.nD Cert.KernelIdeal.τ).loc Cert.KernelIdeal.main_arg6)) := hag.2.2.2.2.2.2.1
  have e7 : StableHlo.launchContents m' c (Cert.ReferenceIdeal.main_arg7 : DevRef Cert.ReferenceIdeal.τ Cert.ReferenceIdeal.sig) = (m ((c.tc : Thread Cert.KernelIdeal.nD Cert.KernelIdeal.τ).loc Cert.KernelIdeal.main_arg7)) := hag.2.2.2.2.2.2.2.1
  have e8 : StableHlo.launchContents m' c (Cert.ReferenceIdeal.main_arg8 : DevRef Cert.ReferenceIdeal.τ Cert.ReferenceIdeal.sig) = (m ((c.tc : Thread Cert.KernelIdeal.nD Cert.KernelIdeal.τ).loc Cert.KernelIdeal.main_arg8)) := hag.2.2.2.2.2.2.2.2.1
  have e9 : StableHlo.launchContents m' c (Cert.ReferenceIdeal.main_arg9 : DevRef Cert.ReferenceIdeal.τ Cert.ReferenceIdeal.sig) = (m ((c.tc : Thread Cert.KernelIdeal.nD Cert.KernelIdeal.τ).loc Cert.KernelIdeal.main_arg9)) := hag.2.2.2.2.2.2.2.2.2.1
  have e10 : StableHlo.launchContents m' c (Cert.ReferenceIdeal.main_arg10 : DevRef Cert.ReferenceIdeal.τ Cert.ReferenceIdeal.sig) = (m ((c.tc : Thread Cert.KernelIdeal.nD Cert.KernelIdeal.τ).loc Cert.KernelIdeal.main_arg10)) := hag.2.2.2.2.2.2.2.2.2.2.1
  have e11 : StableHlo.launchContents m' c (Cert.ReferenceIdeal.main_arg11 : DevRef Cert.ReferenceIdeal.τ Cert.ReferenceIdeal.sig) = (m ((c.tc : Thread Cert.KernelIdeal.nD Cert.KernelIdeal.τ).loc Cert.KernelIdeal.main_arg11)) := hag.2.2.2.2.2.2.2.2.2.2.2.1
  have e12 : StableHlo.launchContents m' c (Cert.ReferenceIdeal.main_arg12 : DevRef Cert.ReferenceIdeal.τ Cert.ReferenceIdeal.sig) = (m ((c.tc : Thread Cert.KernelIdeal.nD Cert.KernelIdeal.τ).loc Cert.KernelIdeal.main_arg12)) := hag.2.2.2.2.2.2.2.2.2.2.2.2.1
  have e13 : StableHlo.launchContents m' c (Cert.ReferenceIdeal.main_arg13 : DevRef Cert.ReferenceIdeal.τ Cert.ReferenceIdeal.sig) = (m ((c.tc : Thread Cert.KernelIdeal.nD Cert.KernelIdeal.τ).loc Cert.KernelIdeal.main_arg13)) := hag.2.2.2.2.2.2.2.2.2.2.2.2.2.1
  have e14 : StableHlo.launchContents m' c (Cert.ReferenceIdeal.main_arg14 : DevRef Cert.ReferenceIdeal.τ Cert.ReferenceIdeal.sig) = (m ((c.tc : Thread Cert.KernelIdeal.nD Cert.KernelIdeal.τ).loc Cert.KernelIdeal.main_arg14)) := hag.2.2.2.2.2.2.2.2.2.2.2.2.2.2.1
  have e15 : StableHlo.launchContents m' c (Cert.ReferenceIdeal.main_arg15 : DevRef Cert.ReferenceIdeal.τ Cert.ReferenceIdeal.sig) = (m ((c.tc : Thread Cert.KernelIdeal.nD Cert.KernelIdeal.τ).loc Cert.KernelIdeal.main_arg15)) := hag.2.2.2.2.2.2.2.2.2.2.2.2.2.2.2.1
  have e16 : StableHlo.launchContents m' c (Cert.ReferenceIdeal.main_arg16 : DevRef Cert.ReferenceIdeal.τ Cert.ReferenceIdeal.sig) = (m ((c.tc : Thread Cert.KernelIdeal.nD Cert.KernelIdeal.τ).loc Cert.KernelIdeal.main_arg16)) := hag.2.2.2.2.2.2.2.2.2.2.2.2.2.2.2.2.1
  have e17 : StableHlo.launchContents m' c (Cert.ReferenceIdeal.main_arg17 : DevRef Cert.ReferenceIdeal.τ Cert.ReferenceIdeal.sig) = (m ((c.tc : Thread Cert.KernelIdeal.nD Cert.KernelIdeal.τ).loc Cert.KernelIdeal.main_arg17)) := hag.2.2.2.2.2.2.2.2.2.2.2.2.2.2.2.2.2.1
  have e18 : StableHlo.launchContents m' c (Cert.ReferenceIdeal.main_arg18 : DevRef Cert.ReferenceIdeal.τ Cert.ReferenceIdeal.sig) = (m ((c.tc : Thread Cert.KernelIdeal.nD Cert.KernelIdeal.τ).loc Cert.KernelIdeal.main_arg18)) := hag.2.2.2.2.2.2.2.2.2.2.2.2.2.2.2.2.2.2.1
  have e19 : StableHlo.launchContents m' c (Cert.ReferenceIdeal.main_arg19 : DevRef Cert.ReferenceIdeal.τ Cert.ReferenceIdeal.sig) = (m ((c.tc : Thread Cert.KernelIdeal.nD Cert.KernelIdeal.τ).loc Cert.KernelIdeal.main_arg19)) := hag.2.2.2.2.2.2.2.2.2.2.2.2.2.2.2.2.2.2.2.1
  have e20 : StableHlo.launchContents m' c (Cert.ReferenceIdeal.main_arg20 : DevRef Cert.ReferenceIdeal.τ Cert.ReferenceIdeal.sig) = (m ((c.tc : Thread Cert.KernelIdeal.nD Cert.KernelIdeal.τ).loc Cert.KernelIdeal.main_arg20)) := hag.2.2.2.2.2.2.2.2.2.2.2.2.2.2.2.2.2.2.2.2.1
  have e21 : StableHlo.launchContents m' c (Cert.ReferenceIdeal.main_arg21 : DevRef Cert.ReferenceIdeal.τ Cert.ReferenceIdeal.sig) = (m ((c.tc : Thread Cert.KernelIdeal.nD Cert.KernelIdeal.τ).loc Cert.KernelIdeal.main_arg21)) := hag.2.2.2.2.2.2.2.2.2.2.2.2.2.2.2.2.2.2.2.2.2
  have hK := Cert.KernelIdeal.Val.kernel_val m g c (edgeMap 10000 _ hF.rng2) (edgeMap 20000 _ hF.rng3) (edgeMap 20000 _ hF.rng4)
    (edgeMap 10000 _ hF.rng5) (edgeMap_spec _ _ _) (edgeMap_spec _ _ _) (edgeMap_spec _ _ _) (edgeMap_spec _ _ _)
  have hR := Cert.ReferenceIdeal.Val.reference_val (StableHlo.launchContents m' c) (edgeMap 10000 _ hF.rng2) (edgeMap 20000 _ hF.rng3)
    (edgeMap 20000 _ hF.rng4) (edgeMap 10000 _ hF.rng5)
    (fun e => by rw [e2]; exact edgeMap_spec _ _ _ e) (fun e => by rw [e3]; exact edgeMap_spec _ _ _ e)
    (fun e => by rw [e4]; exact edgeMap_spec _ _ _ e) (fun e => by rw [e5]; exact edgeMap_spec _ _ _ e)
  have hI := inp_congr (edgeMap 10000 _ hF.rng2) (edgeMap 20000 _ hF.rng3) (edgeMap 20000 _ hF.rng4) (edgeMap 10000 _ hF.rng5)
    e0 e1 e6 e7 e8 e9 e10 e11 e12 e13 e14 e15 e16 e17 e18 e19 e20 e21
  have hC := GCN.chain_eq _ (inp_real hF (edgeMap 10000 _ hF.rng2) (edgeMap 20000 _ hF.rng3) (edgeMap 20000 _ hF.rng4)
    (edgeMap 10000 _ hF.rng5))
  refine ⟨(h c Cert.ReferenceIdeal.main_v198).trans ?_, (h c Cert.ReferenceIdeal.main_v199).trans ?_,
      (h c Cert.ReferenceIdeal.main_arg0).trans hA.1,
      (h c Cert.ReferenceIdeal.main_arg1).trans hA.2.1,
      (h c Cert.ReferenceIdeal.main_arg2).trans hA.2.2.1,
      (h c Cert.ReferenceIdeal.main_arg3).trans hA.2.2.2.1,
      (h c Cert.ReferenceIdeal.main_arg4).trans hA.2.2.2.2.1,
      (h c Cert.ReferenceIdeal.main_arg5).trans hA.2.2.2.2.2.1,
      (h c Cert.ReferenceIdeal.main_arg6).trans hA.2.2.2.2.2.2.1,
      (h c Cert.ReferenceIdeal.main_arg7).trans hA.2.2.2.2.2.2.2.1,
      (h c Cert.ReferenceIdeal.main_arg8).trans hA.2.2.2.2.2.2.2.2.1,
      (h c Cert.ReferenceIdeal.main_arg9).trans hA.2.2.2.2.2.2.2.2.2.1,
      (h c Cert.ReferenceIdeal.main_arg10).trans hA.2.2.2.2.2.2.2.2.2.2.1,
      (h c Cert.ReferenceIdeal.main_arg11).trans hA.2.2.2.2.2.2.2.2.2.2.2.1,
      (h c Cert.ReferenceIdeal.main_arg12).trans hA.2.2.2.2.2.2.2.2.2.2.2.2.1,
      (h c Cert.ReferenceIdeal.main_arg13).trans hA.2.2.2.2.2.2.2.2.2.2.2.2.2.1,
      (h c Cert.ReferenceIdeal.main_arg14).trans hA.2.2.2.2.2.2.2.2.2.2.2.2.2.2.1,
      (h c Cert.ReferenceIdeal.main_arg15).trans hA.2.2.2.2.2.2.2.2.2.2.2.2.2.2.2.1,
      (h c Cert.ReferenceIdeal.main_arg16).trans hA.2.2.2.2.2.2.2.2.2.2.2.2.2.2.2.2.1,
      (h c Cert.ReferenceIdeal.main_arg17).trans hA.2.2.2.2.2.2.2.2.2.2.2.2.2.2.2.2.2.1,
      (h c Cert.ReferenceIdeal.main_arg18).trans hA.2.2.2.2.2.2.2.2.2.2.2.2.2.2.2.2.2.2.1,
      (h c Cert.ReferenceIdeal.main_arg19).trans hA.2.2.2.2.2.2.2.2.2.2.2.2.2.2.2.2.2.2.2.1,
      (h c Cert.ReferenceIdeal.main_arg20).trans hA.2.2.2.2.2.2.2.2.2.2.2.2.2.2.2.2.2.2.2.2.1,
      (h c Cert.ReferenceIdeal.main_arg21).trans hA.2.2.2.2.2.2.2.2.2.2.2.2.2.2.2.2.2.2.2.2.2⟩
  · funext i
    obtain ⟨r, j, rfl⟩ : ∃ (r : Fin 10000) (j : Fin 64), i = ix2 r j := ⟨i 0, i 1, eq_ix2 i⟩
    exact (hR.1 r j).trans ((congrArg (fun I => GCN.rhs3 I r j) hI).trans ((congrFun (congrFun hC.1.symm r) j).trans (hK.1 r j).symm))
  · funext i
    obtain ⟨r, j, rfl⟩ : ∃ (r : Fin 20000) (j : Fin 64), i = ix2 r j := ⟨i 0, i 1, eq_ix2 i⟩
    exact (hR.2 r j).trans ((congrArg (fun I => GCN.rhg3 I r j) hI).trans ((congrFun (congrFun hC.2.symm r) j).trans (hK.2 r j).symm))

end Cert.Proof.Val

end
-- ==== Proof.lean ====
import proofs.«426696_j34600256537155_2_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Val.frame_k, Cert.Proof.Val.frame_ki, Cert.Proof.Val.frame_ri, trivial, Cert.Proof.Val.algebraic⟩

end Cert.Proof

end
